-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S5000x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x56 : Shape := ⟨2, ![100000, 56]⟩
abbrev S56x49 : Shape := ⟨2, ![56, 49]⟩
abbrev S49 : Shape := ⟨1, ![49]⟩
abbrev S3x49x49 : Shape := ⟨3, ![3, 49, 49]⟩
abbrev S3x49 : Shape := ⟨2, ![3, 49]⟩
abbrev S3 : Shape := ⟨1, ![3]⟩
abbrev S2x1600000 : Shape := ⟨2, ![2, 1600000]⟩
abbrev S100000 : Shape := ⟨1, ![100000]⟩
abbrev S_ : Shape := ⟨0, ![]⟩

class Facts : Prop where
  bcast_S_S100000x56 : S_.BroadcastsInDim S100000x56 (![] : Fin 0 → Fin S100000x56.rank)
  reducesTo_S100000x56_S_d0_1 : S100000x56.ReducesTo [0, 1] S_
  h_S_ : 0 < S_.numel
  bcast_S_S56x49 : S_.BroadcastsInDim S56x49 (![] : Fin 0 → Fin S56x49.rank)
  reducesTo_S56x49_S_d0_1 : S56x49.ReducesTo [0, 1] S_
  bcast_S_S49 : S_.BroadcastsInDim S49 (![] : Fin 0 → Fin S49.rank)
  reducesTo_S49_S_d0 : S49.ReducesTo [0] S_
  bcast_S_S3x49x49 : S_.BroadcastsInDim S3x49x49 (![] : Fin 0 → Fin S3x49x49.rank)
  reducesTo_S3x49x49_S_d0_1_2 : S3x49x49.ReducesTo [0, 1, 2] S_
  bcast_S_S3x49 : S_.BroadcastsInDim S3x49 (![] : Fin 0 → Fin S3x49.rank)
  reducesTo_S3x49_S_d0_1 : S3x49.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S3x49 .f32) (main_v50 : FVec F S3x49 .f32) : IVec S_ 1 :=
  let main_v51 : IVec S3x49 1 := cmpf .olt main_v49 main_v50
  let main_c_19 : IVec S_ 1 := constantI S_ 1 1#1
  let main_v52 : IVec S_ 1 := (fun x v => Host.reduce IntOp.andi x v reducesTo_S3x49_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S3x49x49 .f32) (main_arg8 : FVec F S3x49 .f32) (main_arg9 : FVec F S3x49 .f32) (main_arg10 : FVec F S3x49 .f32) (main_arg11 : FVec F S3 .f32) (main_v33 : IVec S_ 1) : IVec S_ 1 :=
  let main_v34 : FVec F S3x49x49 .f32 := Host.absf main_arg7
  let main_cst_12 : FVec F S_ .f32 := constant S_ .f32 0x7F800000#32
  let main_v35 : FVec F S3x49x49 .f32 := broadcastInDim S3x49x49 ![] bcast_S_S3x49x49 main_cst_12
  let main_v36 : IVec S3x49x49 1 := cmpf .olt main_v34 main_v35
  let main_c_13 : IVec S_ 1 := constantI S_ 1 1#1
  let main_v37 : IVec S_ 1 := (fun x v => Host.reduce IntOp.andi x v reducesTo_S3x49x49_S_d0_1_2 h_S_) main_v36 main_c_13
  let main_v38 : IVec S_ 1 := andi main_v33 main_v37
  let main_v39 : FVec F S3x49 .f32 := Host.absf main_arg8
  let main_cst_14 : FVec F S_ .f32 := constant S_ .f32 0x7F800000#32
  let main_v40 : FVec F S3x49 .f32 := broadcastInDim S3x49 ![] bcast_S_S3x49 main_cst_14
  let main_v41 : IVec S3x49 1 := cmpf .olt main_v39 main_v40
  let main_c_15 : IVec S_ 1 := constantI S_ 1 1#1
  let main_v42 : IVec S_ 1 := (fun x v => Host.reduce IntOp.andi x v reducesTo_S3x49_S_d0_1 h_S_) main_v41 main_c_15
  let main_v43 : IVec S_ 1 := andi main_v38 main_v42
  let main_v44 : FVec F S3x49 .f32 := Host.absf main_arg9
  let main_cst_16 : FVec F S_ .f32 := constant S_ .f32 0x7F800000#32
  let main_v45 : FVec F S3x49 .f32 := broadcastInDim S3x49 ![] bcast_S_S3x49 main_cst_16
  let main_v46 : IVec S3x49 1 := cmpf .olt main_v44 main_v45
  let main_c_17 : IVec S_ 1 := constantI S_ 1 1#1
  let main_v47 : IVec S_ 1 := (fun x v => Host.reduce IntOp.andi x v reducesTo_S3x49_S_d0_1 h_S_) main_v46 main_c_17
  let main_v48 : IVec S_ 1 := andi main_v43 main_v47
  let main_v49 : FVec F S3x49 .f32 := Host.absf main_arg10
  let main_cst_18 : FVec F S_ .f32 := constant S_ .f32 0x7F800000#32
  let main_v50 : FVec F S3x49 .f32 := broadcastInDim S3x49 ![] bcast_S_S3x49 main_cst_18
  fn_part3 (F := F) main_arg11 main_v48 main_v49 main_v50

def fn_part1 {F : FTy → Type} [FloatOps F] (main_arg4 : FVec F S3x49 .f32) (main_arg5 : FVec F S3x49 .f32) (main_arg6 : FVec F S3x49 .f32) (main_arg7 : FVec F S3x49x49 .f32) (main_arg8 : FVec F S3x49 .f32) (main_arg9 : FVec F S3x49 .f32) (main_arg10 : FVec F S3x49 .f32) (main_arg11 : FVec F S3 .f32) (main_v13 : IVec S_ 1) (main_v16 : IVec S3x49x49 1) : IVec S_ 1 :=
  let main_c_5 : IVec S_ 1 := constantI S_ 1 1#1
  let main_v17 : IVec S_ 1 := (fun x v => Host.reduce IntOp.andi x v reducesTo_S3x49x49_S_d0_1_2 h_S_) main_v16 main_c_5
  let main_v18 : IVec S_ 1 := andi main_v13 main_v17
  let main_v19 : FVec F S3x49 .f32 := Host.absf main_arg4
  let main_cst_6 : FVec F S_ .f32 := constant S_ .f32 0x7F800000#32
  let main_v20 : FVec F S3x49 .f32 := broadcastInDim S3x49 ![] bcast_S_S3x49 main_cst_6
  let main_v21 : IVec S3x49 1 := cmpf .olt main_v19 main_v20
  let main_c_7 : IVec S_ 1 := constantI S_ 1 1#1
  let main_v22 : IVec S_ 1 := (fun x v => Host.reduce IntOp.andi x v reducesTo_S3x49_S_d0_1 h_S_) main_v21 main_c_7
  let main_v23 : IVec S_ 1 := andi main_v18 main_v22
  let main_v24 : FVec F S3x49 .f32 := Host.absf main_arg5
  let main_cst_8 : FVec F S_ .f32 := constant S_ .f32 0x7F800000#32
  let main_v25 : FVec F S3x49 .f32 := broadcastInDim S3x49 ![] bcast_S_S3x49 main_cst_8
  let main_v26 : IVec S3x49 1 := cmpf .olt main_v24 main_v25
  let main_c_9 : IVec S_ 1 := constantI S_ 1 1#1
  let main_v27 : IVec S_ 1 := (fun x v => Host.reduce IntOp.andi x v reducesTo_S3x49_S_d0_1 h_S_) main_v26 main_c_9
  let main_v28 : IVec S_ 1 := andi main_v23 main_v27
  let main_v29 : FVec F S3x49 .f32 := Host.absf main_arg6
  let main_cst_10 : FVec F S_ .f32 := constant S_ .f32 0x7F800000#32
  let main_v30 : FVec F S3x49 .f32 := broadcastInDim S3x49 ![] bcast_S_S3x49 main_cst_10
  let main_v31 : IVec S3x49 1 := cmpf .olt main_v29 main_v30
  let main_c_11 : IVec S_ 1 := constantI S_ 1 1#1
  let main_v32 : IVec S_ 1 := (fun x v => Host.reduce IntOp.andi x v reducesTo_S3x49_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x56 .f32) (main_arg1 : FVec F S56x49 .f32) (main_arg2 : FVec F S49 .f32) (main_arg3 : FVec F S3x49x49 .f32) (main_arg4 : FVec F S3x49 .f32) (main_arg5 : FVec F S3x49 .f32) (main_arg6 : FVec F S3x49 .f32) (main_arg7 : FVec F S3x49x49 .f32) (main_arg8 : FVec F S3x49 .f32) (main_arg9 : FVec F S3x49 .f32) (main_arg10 : FVec F S3x49 .f32) (main_arg11 : FVec F S3 .f32) (main_arg12 : IVec S2x1600000 32) (main_arg13 : IVec S100000 32) : IVec S_ 1 :=
  let main_v0 : FVec F S100000x56 .f32 := Host.absf main_arg0
  let main_cst : FVec F S_ .f32 := constant S_ .f32 0x7F800000#32
  let main_v1 : FVec F S100000x56 .f32 := broadcastInDim S100000x56 ![] bcast_S_S100000x56 main_cst
  let main_v2 : IVec S100000x56 1 := cmpf .olt main_v0 main_v1
  let main_c : IVec S_ 1 := constantI S_ 1 1#1
  let main_v3 : IVec S_ 1 := (fun x v => Host.reduce IntOp.andi x v reducesTo_S100000x56_S_d0_1 h_S_) main_v2 main_c
  let main_v4 : FVec F S56x49 .f32 := Host.absf main_arg1
  let main_cst_0 : FVec F S_ .f32 := constant S_ .f32 0x7F800000#32
  let main_v5 : FVec F S56x49 .f32 := broadcastInDim S56x49 ![] bcast_S_S56x49 main_cst_0
  let main_v6 : IVec S56x49 1 := cmpf .olt main_v4 main_v5
  let main_c_1 : IVec S_ 1 := constantI S_ 1 1#1
  let main_v7 : IVec S_ 1 := (fun x v => Host.reduce IntOp.andi x v reducesTo_S56x49_S_d0_1 h_S_) main_v6 main_c_1
  let main_v8 : IVec S_ 1 := andi main_v3 main_v7
  let main_v9 : FVec F S49 .f32 := Host.absf main_arg2
  let main_cst_2 : FVec F S_ .f32 := constant S_ .f32 0x7F800000#32
  let main_v10 : FVec F S49 .f32 := broadcastInDim S49 ![] bcast_S_S49 main_cst_2
  let main_v11 : IVec S49 1 := cmpf .olt main_v9 main_v10
  let main_c_3 : IVec S_ 1 := constantI S_ 1 1#1
  let main_v12 : IVec S_ 1 := (fun x v => Host.reduce IntOp.andi x v reducesTo_S49_S_d0 h_S_) main_v11 main_c_3
  let main_v13 : IVec S_ 1 := andi main_v8 main_v12
  let main_v14 : FVec F S3x49x49 .f32 := Host.absf main_arg3
  let main_cst_4 : FVec F S_ .f32 := constant S_ .f32 0x7F800000#32
  let main_v15 : FVec F S3x49x49 .f32 := broadcastInDim S3x49x49 ![] bcast_S_S3x49x49 main_cst_4
  let main_v16 : IVec S3x49x49 1 := cmpf .olt main_v14 main_v15
  fn_part1 (F := F) main_arg4 main_arg5 main_arg6 main_arg7 main_arg8 main_arg9 main_arg10 main_arg11 main_v13 main_v16
-- ==== Kernel.lean ====
abbrev S100000x56 : Shape := ⟨2, ![100000, 56]⟩
abbrev S56x49 : Shape := ⟨2, ![56, 49]⟩
abbrev S49 : Shape := ⟨1, ![49]⟩
abbrev S3x49x49 : Shape := ⟨3, ![3, 49, 49]⟩
abbrev S3x49 : Shape := ⟨2, ![3, 49]⟩
abbrev S3 : Shape := ⟨1, ![3]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1x49 : Shape := ⟨2, ![1, 49]⟩
abbrev S100000x49 : Shape := ⟨2, ![100000, 49]⟩
abbrev S5000x56 : Shape := ⟨2, ![5000, 56]⟩
abbrev S5000x49 : Shape := ⟨2, ![5000, 49]⟩
abbrev S_ : Shape := ⟨0, ![]⟩
abbrev S1600000x1 : Shape := ⟨2, ![1600000, 1]⟩
abbrev S1600000x49 : Shape := ⟨2, ![1600000, 49]⟩
abbrev S1 : Shape := ⟨1, ![1]⟩
abbrev S1x49x49 : Shape := ⟨3, ![1, 49, 49]⟩
abbrev S49x49 : Shape := ⟨2, ![49, 49]⟩
abbrev S100000x1 : Shape := ⟨2, ![100000, 1]⟩
abbrev S512x49 : Shape := ⟨2, ![512, 49]⟩
abbrev S1x512 : Shape := ⟨2, ![1, 512]⟩
abbrev S5000x1 : Shape := ⟨2, ![5000, 1]⟩
abbrev S5000x512 : Shape := ⟨2, ![5000, 512]⟩
abbrev S512 : Shape := ⟨1, ![512]⟩
abbrev S512x1 : Shape := ⟨2, ![512, 1]⟩

abbrev nBuf : Space → Nat
  | .hbm => 252
  | .vmem => 108
  | .smem => 0
  | _ => 0

abbrev hbmTy0_0 (i : Nat) : BufTy := match i % 128 with
  | 0 => ⟨S100000x56, .f32⟩
  | 1 => ⟨S56x49, .f32⟩
  | 2 => ⟨S49, .f32⟩
  | 3 => ⟨S3x49x49, .f32⟩
  | 4 => ⟨S3x49, .f32⟩
  | 5 => ⟨S3x49, .f32⟩
  | 6 => ⟨S3x49, .f32⟩
  | 7 => ⟨S3x49x49, .f32⟩
  | 8 => ⟨S3x49, .f32⟩
  | 9 => ⟨S3x49, .f32⟩
  | 10 => ⟨S3x49, .f32⟩
  | 11 => ⟨S3, .f32⟩
  | 12 => ⟨S2x1600000, .i32⟩
  | 13 => ⟨S100000, .i32⟩
  | 14 => ⟨S1x1600000, .i32⟩
  | 15 => ⟨S1600000, .i32⟩
  | 16 => ⟨S1x1600000, .i32⟩
  | 17 => ⟨S1600000, .i32⟩
  | 18 => ⟨S1x49, .f32⟩
  | 19 => ⟨S100000x49, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x49, .f32⟩
  | 29 => ⟨S_, .f32⟩
  | 30 => ⟨S100000x49, .f32⟩
  | 31 => ⟨S1600000x1, .i32⟩
  | 32 => ⟨S100000x49, .f32⟩
  | 33 => ⟨S1, .f32⟩
  | 34 => ⟨S_, .f32⟩
  | 35 => ⟨S_, .f32⟩
  | 36 => ⟨S_, .f32⟩
  | 37 => ⟨S100000x49, .f32⟩
  | 38 => ⟨S100000x49, .f32⟩
  | 39 => ⟨S100000x49, .f32⟩
  | 40 => ⟨S1x49x49, .f32⟩
  | 41 => ⟨S49x49, .f32⟩
  | 42 => ⟨S1x49, .f32⟩
  | 43 => ⟨S49, .f32⟩
  | 44 => ⟨S1x49, .f32⟩
  | 45 => ⟨S100000x49, .f32⟩
  | 46 => ⟨S1x49, .f32⟩
  | 47 => ⟨S1x49, .f32⟩
  | 48 => ⟨S_, .f32⟩
  | 49 => ⟨S1x49, .f32⟩
  | 50 => ⟨S1x49, .f32⟩
  | 51 => ⟨S_, .f32⟩
  | 52 => ⟨S1x49, .f32⟩
  | 53 => ⟨S1x49, .f32⟩
  | 54 => ⟨S1x49, .f32⟩
  | 55 => ⟨S1x49, .f32⟩
  | 56 => ⟨S_, .f32⟩
  | 57 => ⟨S1x49, .f32⟩
  | 58 => ⟨S1x49, .f32⟩
  | 59 => ⟨S1x49, .f32⟩
  | 60 => ⟨S1x49, .f32⟩
  | 61 => ⟨S49, .f32⟩
  | 62 => ⟨S1x49, .f32⟩
  | 63 => ⟨S1x49, .f32⟩
  | 64 => ⟨S49, .f32⟩
  | 65 => ⟨S1x49, .f32⟩
  | 66 => ⟨S100000x49, .f32⟩
  | 67 => ⟨S1x49x49, .f32⟩
  | 68 => ⟨S49x49, .f32⟩
  | 69 => ⟨S1x49, .f32⟩
  | 70 => ⟨S49, .f32⟩
  | 71 => ⟨S1x49, .f32⟩
  | 72 => ⟨S100000x49, .f32⟩
  | 73 => ⟨S1x49, .f32⟩
  | 74 => ⟨S1x49, .f32⟩
  | 75 => ⟨S_, .f32⟩
  | 76 => ⟨S1x49, .f32⟩
  | 77 => ⟨S1x49, .f32⟩
  | 78 => ⟨S_, .f32⟩
  | 79 => ⟨S1x49, .f32⟩
  | 80 => ⟨S1x49, .f32⟩
  | 81 => ⟨S1x49, .f32⟩
  | 82 => ⟨S1x49, .f32⟩
  | 83 => ⟨S_, .f32⟩
  | 84 => ⟨S1x49, .f32⟩
  | 85 => ⟨S1x49, .f32⟩
  | 86 => ⟨S1x49, .f32⟩
  | 87 => ⟨S1x49, .f32⟩
  | 88 => ⟨S49, .f32⟩
  | 89 => ⟨S1x49, .f32⟩
  | 90 => ⟨S1x49, .f32⟩
  | 91 => ⟨S49, .f32⟩
  | 92 => ⟨S1x49, .f32⟩
  | 93 => ⟨S100000x49, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x49, .f32⟩
  | 103 => ⟨S_, .f32⟩
  | 104 => ⟨S100000x49, .f32⟩
  | 105 => ⟨S1600000x1, .i32⟩
  | 106 => ⟨S100000x49, .f32⟩
  | 107 => ⟨S1, .f32⟩
  | 108 => ⟨S_, .f32⟩
  | 109 => ⟨S_, .f32⟩
  | 110 => ⟨S_, .f32⟩
  | 111 => ⟨S100000x49, .f32⟩
  | 112 => ⟨S100000x49, .f32⟩
  | 113 => ⟨S100000x49, .f32⟩
  | 114 => ⟨S1x49x49, .f32⟩
  | 115 => ⟨S49x49, .f32⟩
  | 116 => ⟨S1x49, .f32⟩
  | 117 => ⟨S49, .f32⟩
  | 118 => ⟨S1x49, .f32⟩
  | 119 => ⟨S100000x49, .f32⟩
  | 120 => ⟨S1x49, .f32⟩
  | 121 => ⟨S1x49, .f32⟩
  | 122 => ⟨S_, .f32⟩
  | 123 => ⟨S1x49, .f32⟩
  | 124 => ⟨S1x49, .f32⟩
  | 125 => ⟨S_, .f32⟩
  | 126 => ⟨S1x49, .f32⟩
  | 127 => ⟨S1x49, .f32⟩
  | _ => ⟨S100000x56, .f32⟩

abbrev hbmTy0_1 (i : Nat) : BufTy := match i % 128 with
  | 0 => ⟨S1x49, .f32⟩
  | 1 => ⟨S1x49, .f32⟩
  | 2 => ⟨S_, .f32⟩
  | 3 => ⟨S1x49, .f32⟩
  | 4 => ⟨S1x49, .f32⟩
  | 5 => ⟨S1x49, .f32⟩
  | 6 => ⟨S1x49, .f32⟩
  | 7 => ⟨S49, .f32⟩
  | 8 => ⟨S1x49, .f32⟩
  | 9 => ⟨S1x49, .f32⟩
  | 10 => ⟨S49, .f32⟩
  | 11 => ⟨S1x49, .f32⟩
  | 12 => ⟨S100000x49, .f32⟩
  | 13 => ⟨S1x49x49, .f32⟩
  | 14 => ⟨S49x49, .f32⟩
  | 15 => ⟨S1x49, .f32⟩
  | 16 => ⟨S49, .f32⟩
  | 17 => ⟨S1x49, .f32⟩
  | 18 => ⟨S100000x49, .f32⟩
  | 19 => ⟨S1x49, .f32⟩
  | 20 => ⟨S1x49, .f32⟩
  | 21 => ⟨S_, .f32⟩
  | 22 => ⟨S1x49, .f32⟩
  | 23 => ⟨S1x49, .f32⟩
  | 24 => ⟨S_, .f32⟩
  | 25 => ⟨S1x49, .f32⟩
  | 26 => ⟨S1x49, .f32⟩
  | 27 => ⟨S1x49, .f32⟩
  | 28 => ⟨S1x49, .f32⟩
  | 29 => ⟨S_, .f32⟩
  | 30 => ⟨S1x49, .f32⟩
  | 31 => ⟨S1x49, .f32⟩
  | 32 => ⟨S1x49, .f32⟩
  | 33 => ⟨S1x49, .f32⟩
  | 34 => ⟨S49, .f32⟩
  | 35 => ⟨S1x49, .f32⟩
  | 36 => ⟨S1x49, .f32⟩
  | 37 => ⟨S49, .f32⟩
  | 38 => ⟨S1x49, .f32⟩
  | 39 => ⟨S100000x49, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x49, .f32⟩
  | 49 => ⟨S_, .f32⟩
  | 50 => ⟨S100000x49, .f32⟩
  | 51 => ⟨S1600000x1, .i32⟩
  | 52 => ⟨S100000x49, .f32⟩
  | 53 => ⟨S1, .f32⟩
  | 54 => ⟨S_, .f32⟩
  | 55 => ⟨S_, .f32⟩
  | 56 => ⟨S_, .f32⟩
  | 57 => ⟨S100000x49, .f32⟩
  | 58 => ⟨S100000x49, .f32⟩
  | 59 => ⟨S100000x49, .f32⟩
  | 60 => ⟨S1x49x49, .f32⟩
  | 61 => ⟨S49x49, .f32⟩
  | 62 => ⟨S1x49, .f32⟩
  | 63 => ⟨S49, .f32⟩
  | 64 => ⟨S1x49, .f32⟩
  | 65 => ⟨S100000x49, .f32⟩
  | 66 => ⟨S1x49, .f32⟩
  | 67 => ⟨S1x49, .f32⟩
  | 68 => ⟨S_, .f32⟩
  | 69 => ⟨S1x49, .f32⟩
  | 70 => ⟨S1x49, .f32⟩
  | 71 => ⟨S_, .f32⟩
  | 72 => ⟨S1x49, .f32⟩
  | 73 => ⟨S1x49, .f32⟩
  | 74 => ⟨S1x49, .f32⟩
  | 75 => ⟨S1x49, .f32⟩
  | 76 => ⟨S_, .f32⟩
  | 77 => ⟨S1x49, .f32⟩
  | 78 => ⟨S1x49, .f32⟩
  | 79 => ⟨S1x49, .f32⟩
  | 80 => ⟨S1x49, .f32⟩
  | 81 => ⟨S49, .f32⟩
  | 82 => ⟨S1x49, .f32⟩
  | 83 => ⟨S1x49, .f32⟩
  | 84 => ⟨S49, .f32⟩
  | 85 => ⟨S1x49, .f32⟩
  | 86 => ⟨S100000x49, .f32⟩
  | 87 => ⟨S1x49x49, .f32⟩
  | 88 => ⟨S49x49, .f32⟩
  | 89 => ⟨S1x49, .f32⟩
  | 90 => ⟨S49, .f32⟩
  | 91 => ⟨S1x49, .f32⟩
  | 92 => ⟨S100000x49, .f32⟩
  | 93 => ⟨S1x49, .f32⟩
  | 94 => ⟨S1x49, .f32⟩
  | 95 => ⟨S_, .f32⟩
  | 96 => ⟨S1x49, .f32⟩
  | 97 => ⟨S1x49, .f32⟩
  | 98 => ⟨S_, .f32⟩
  | 99 => ⟨S1x49, .f32⟩
  | 100 => ⟨S1x49, .f32⟩
  | 101 => ⟨S1x49, .f32⟩
  | 102 => ⟨S1x49, .f32⟩
  | 103 => ⟨S_, .f32⟩
  | 104 => ⟨S1x49, .f32⟩
  | 105 => ⟨S1x49, .f32⟩
  | 106 => ⟨S1x49, .f32⟩
  | 107 => ⟨S1x49, .f32⟩
  | 108 => ⟨S49, .f32⟩
  | 109 => ⟨S1x49, .f32⟩
  | 110 => ⟨S1x49, .f32⟩
  | 111 => ⟨S49, .f32⟩
  | 112 => ⟨S1x49, .f32⟩
  | 113 => ⟨S100000x49, .f32⟩
  | 114 => ⟨S100000x1, .i32⟩
  | 115 => ⟨S512x49, .f32⟩
  | 116 => ⟨S1x512, .f32⟩
  | 117 => ⟨S512x1, .f32⟩
  | 118 => ⟨S_, .f32⟩
  | 119 => ⟨S_, .f32⟩
  | 120 => ⟨S512x1, .f32⟩
  | 121 => ⟨S512x1, .f32⟩
  | 122 => ⟨S512x49, .f32⟩
  | 123 => ⟨S512x49, .f32⟩
  | _ => ⟨S100000x56, .f32⟩

abbrev hbmTy (i : Nat) : BufTy := match i / 128 with
  | 0 => hbmTy0_0 i
  | 1 => hbmTy0_1 i
  | _ => ⟨S100000x56, .f32⟩

abbrev bufTy : (tb : Table) → Fin (tcTables nBuf tb) → BufTy
  | .hbm, ⟨i, _⟩ => hbmTy i
  | .local _ .vmem, ⟨0, _⟩ => ⟨S5000x56, .f32⟩
  | .local _ .vmem, ⟨1, _⟩ => ⟨S5000x56, .f32⟩
  | .local _ .vmem, ⟨2, _⟩ => ⟨S56x49, .f32⟩
  | .local _ .vmem, ⟨3, _⟩ => ⟨S1x49, .f32⟩
  | .local _ .vmem, ⟨4, _⟩ => ⟨S5000x49, .f32⟩
  | .local _ .vmem, ⟨5, _⟩ => ⟨S5000x49, .f32⟩
  | .local _ .vmem, ⟨6, _⟩ => ⟨S5000x49, .f32⟩
  | .local _ .vmem, ⟨7, _⟩ => ⟨S5000x49, .f32⟩
  | .local _ .vmem, ⟨8, _⟩ => ⟨S49x49, .f32⟩
  | .local _ .vmem, ⟨9, _⟩ => ⟨S1x49, .f32⟩
  | .local _ .vmem, ⟨10, _⟩ => ⟨S5000x49, .f32⟩
  | .local _ .vmem, ⟨11, _⟩ => ⟨S5000x49, .f32⟩
  | .local _ .vmem, ⟨12, _⟩ => ⟨S1x49, .f32⟩
  | .local _ .vmem, ⟨13, _⟩ => ⟨S1x49, .f32⟩
  | .local _ .vmem, ⟨14, _⟩ => ⟨S5000x49, .f32⟩
  | .local _ .vmem, ⟨15, _⟩ => ⟨S5000x49, .f32⟩
  | .local _ .vmem, ⟨16, _⟩ => ⟨S1x49, .f32⟩
  | .local _ .vmem, ⟨17, _⟩ => ⟨S1x49, .f32⟩
  | .local _ .vmem, ⟨18, _⟩ => ⟨S1x49, .f32⟩
  | .local _ .vmem, ⟨19, _⟩ => ⟨S1x49, .f32⟩
  | .local _ .vmem, ⟨20, _⟩ => ⟨S5000x49, .f32⟩
  | .local _ .vmem, ⟨21, _⟩ => ⟨S5000x49, .f32⟩
  | .local _ .vmem, ⟨22, _⟩ => ⟨S5000x49, .f32⟩
  | .local _ .vmem, ⟨23, _⟩ => ⟨S5000x49, .f32⟩
  | .local _ .vmem, ⟨24, _⟩ => ⟨S49x49, .f32⟩
  | .local _ .vmem, ⟨25, _⟩ => ⟨S1x49, .f32⟩
  | .local _ .vmem, ⟨26, _⟩ => ⟨S5000x49, .f32⟩
  | .local _ .vmem, ⟨27, _⟩ => ⟨S5000x49, .f32⟩
  | .local _ .vmem, ⟨28, _⟩ => ⟨S1x49, .f32⟩
  | .local _ .vmem, ⟨29, _⟩ => ⟨S1x49, .f32⟩
  | .local _ .vmem, ⟨30, _⟩ => ⟨S5000x49, .f32⟩
  | .local _ .vmem, ⟨31, _⟩ => ⟨S5000x49, .f32⟩
  | .local _ .vmem, ⟨32, _⟩ => ⟨S1x49, .f32⟩
  | .local _ .vmem, ⟨33, _⟩ => ⟨S1x49, .f32⟩
  | .local _ .vmem, ⟨34, _⟩ => ⟨S1x49, .f32⟩
  | .local _ .vmem, ⟨35, _⟩ => ⟨S1x49, .f32⟩
  | .local _ .vmem, ⟨36, _⟩ => ⟨S5000x49, .f32⟩
  | .local _ .vmem, ⟨37, _⟩ => ⟨S5000x49, .f32⟩
  | .local _ .vmem, ⟨38, _⟩ => ⟨S5000x49, .f32⟩
  | .local _ .vmem, ⟨39, _⟩ => ⟨S5000x49, .f32⟩
  | .local _ .vmem, ⟨40, _⟩ => ⟨S49x49, .f32⟩
  | .local _ .vmem, ⟨41, _⟩ => ⟨S1x49, .f32⟩
  | .local _ .vmem, ⟨42, _⟩ => ⟨S5000x49, .f32⟩
  | .local _ .vmem, ⟨43, _⟩ => ⟨S5000x49, .f32⟩
  | .local _ .vmem, ⟨44, _⟩ => ⟨S1x49, .f32⟩
  | .local _ .vmem, ⟨45, _⟩ => ⟨S1x49, .f32⟩
  | .local _ .vmem, ⟨46, _⟩ => ⟨S5000x49, .f32⟩
  | .local _ .vmem, ⟨47, _⟩ => ⟨S5000x49, .f32⟩
  | .local _ .vmem, ⟨48, _⟩ => ⟨S1x49, .f32⟩
  | .local _ .vmem, ⟨49, _⟩ => ⟨S1x49, .f32⟩
  | .local _ .vmem, ⟨50, _⟩ => ⟨S1x49, .f32⟩
  | .local _ .vmem, ⟨51, _⟩ => ⟨S1x49, .f32⟩
  | .local _ .vmem, ⟨52, _⟩ => ⟨S5000x49, .f32⟩
  | .local _ .vmem, ⟨53, _⟩ => ⟨S5000x49, .f32⟩
  | .local _ .vmem, ⟨54, _⟩ => ⟨S5000x49, .f32⟩
  | .local _ .vmem, ⟨55, _⟩ => ⟨S5000x49, .f32⟩
  | .local _ .vmem, ⟨56, _⟩ => ⟨S49x49, .f32⟩
  | .local _ .vmem, ⟨57, _⟩ => ⟨S1x49, .f32⟩
  | .local _ .vmem, ⟨58, _⟩ => ⟨S5000x49, .f32⟩
  | .local _ .vmem, ⟨59, _⟩ => ⟨S5000x49, .f32⟩
  | .local _ .vmem, ⟨60, _⟩ => ⟨S1x49, .f32⟩
  | .local _ .vmem, ⟨61, _⟩ => ⟨S1x49, .f32⟩
  | .local _ .vmem, ⟨62, _⟩ => ⟨S5000x49, .f32⟩
  | .local _ .vmem, ⟨63, _⟩ => ⟨S5000x49, .f32⟩
  | .local _ .vmem, ⟨64, _⟩ => ⟨S1x49, .f32⟩
  | .local _ .vmem, ⟨65, _⟩ => ⟨S1x49, .f32⟩
  | .local _ .vmem, ⟨66, _⟩ => ⟨S1x49, .f32⟩
  | .local _ .vmem, ⟨67, _⟩ => ⟨S1x49, .f32⟩
  | .local _ .vmem, ⟨68, _⟩ => ⟨S5000x49, .f32⟩
  | .local _ .vmem, ⟨69, _⟩ => ⟨S5000x49, .f32⟩
  | .local _ .vmem, ⟨70, _⟩ => ⟨S5000x49, .f32⟩
  | .local _ .vmem, ⟨71, _⟩ => ⟨S5000x49, .f32⟩
  | .local _ .vmem, ⟨72, _⟩ => ⟨S49x49, .f32⟩
  | .local _ .vmem, ⟨73, _⟩ => ⟨S1x49, .f32⟩
  | .local _ .vmem, ⟨74, _⟩ => ⟨S5000x49, .f32⟩
  | .local _ .vmem, ⟨75, _⟩ => ⟨S5000x49, .f32⟩
  | .local _ .vmem, ⟨76, _⟩ => ⟨S1x49, .f32⟩
  | .local _ .vmem, ⟨77, _⟩ => ⟨S1x49, .f32⟩
  | .local _ .vmem, ⟨78, _⟩ => ⟨S5000x49, .f32⟩
  | .local _ .vmem, ⟨79, _⟩ => ⟨S5000x49, .f32⟩
  | .local _ .vmem, ⟨80, _⟩ => ⟨S1x49, .f32⟩
  | .local _ .vmem, ⟨81, _⟩ => ⟨S1x49, .f32⟩
  | .local _ .vmem, ⟨82, _⟩ => ⟨S1x49, .f32⟩
  | .local _ .vmem, ⟨83, _⟩ => ⟨S1x49, .f32⟩
  | .local _ .vmem, ⟨84, _⟩ => ⟨S5000x49, .f32⟩
  | .local _ .vmem, ⟨85, _⟩ => ⟨S5000x49, .f32⟩
  | .local _ .vmem, ⟨86, _⟩ => ⟨S5000x49, .f32⟩
  | .local _ .vmem, ⟨87, _⟩ => ⟨S5000x49, .f32⟩
  | .local _ .vmem, ⟨88, _⟩ => ⟨S49x49, .f32⟩
  | .local _ .vmem, ⟨89, _⟩ => ⟨S1x49, .f32⟩
  | .local _ .vmem, ⟨90, _⟩ => ⟨S5000x49, .f32⟩
  | .local _ .vmem, ⟨91, _⟩ => ⟨S5000x49, .f32⟩
  | .local _ .vmem, ⟨92, _⟩ => ⟨S1x49, .f32⟩
  | .local _ .vmem, ⟨93, _⟩ => ⟨S1x49, .f32⟩
  | .local _ .vmem, ⟨94, _⟩ => ⟨S5000x49, .f32⟩
  | .local _ .vmem, ⟨95, _⟩ => ⟨S5000x49, .f32⟩
  | .local _ .vmem, ⟨96, _⟩ => ⟨S1x49, .f32⟩
  | .local _ .vmem, ⟨97, _⟩ => ⟨S1x49, .f32⟩
  | .local _ .vmem, ⟨98, _⟩ => ⟨S1x49, .f32⟩
  | .local _ .vmem, ⟨99, _⟩ => ⟨S1x49, .f32⟩
  | .local _ .vmem, ⟨100, _⟩ => ⟨S5000x49, .f32⟩
  | .local _ .vmem, ⟨101, _⟩ => ⟨S5000x49, .f32⟩
  | .local _ .vmem, ⟨102, _⟩ => ⟨S5000x49, .f32⟩
  | .local _ .vmem, ⟨103, _⟩ => ⟨S5000x49, .f32⟩
  | .local _ .vmem, ⟨104, _⟩ => ⟨S5000x1, .i32⟩
  | .local _ .vmem, ⟨105, _⟩ => ⟨S5000x1, .i32⟩
  | .local _ .vmem, ⟨106, _⟩ => ⟨S512x49, .f32⟩
  | .local _ .vmem, ⟨107, _⟩ => ⟨S1x512, .f32⟩
  | _, _ => ⟨S100000x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_v49_2 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_8 : Ref sig .tc := ⟨.hbm, 94, rfl⟩
abbrev main_v66 : Ref sig .tc := ⟨.hbm, 95, rfl⟩
abbrev main_v67 : Ref sig .tc := ⟨.hbm, 96, rfl⟩
abbrev main_c_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87_0 : Ref sig .tc := ⟨.hbm, 119, rfl⟩
abbrev main_v87_1 : Ref sig .tc := ⟨.hbm, 120, rfl⟩
abbrev main_v87_2 : Ref sig .tc := ⟨.hbm, 121, rfl⟩
abbrev main_cst_12 : Ref sig .tc := ⟨.hbm, 122, rfl⟩
abbrev main_v88 : Ref sig .tc := ⟨.hbm, 123, rfl⟩
abbrev main_v89 : Ref sig .tc := ⟨.hbm, 124, rfl⟩
abbrev main_cst_13 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_14 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109_0 : Ref sig .tc := ⟨.hbm, 146, rfl⟩
abbrev main_v109_1 : Ref sig .tc := ⟨.hbm, 147, rfl⟩
abbrev main_v109_2 : Ref sig .tc := ⟨.hbm, 148, rfl⟩
abbrev main_cst_15 : Ref sig .tc := ⟨.hbm, 149, rfl⟩
abbrev main_v110 : Ref sig .tc := ⟨.hbm, 150, rfl⟩
abbrev main_v111 : Ref sig .tc := ⟨.hbm, 151, rfl⟩
abbrev main_cst_16 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_17 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_c_18 : Ref sig .tc := ⟨.hbm, 168, rfl⟩
abbrev main_v126 : Ref sig .tc := ⟨.hbm, 169, rfl⟩
abbrev main_v127 : Ref sig .tc := ⟨.hbm, 170, rfl⟩
abbrev main_c_19 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_20 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_21 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147_0 : Ref sig .tc := ⟨.hbm, 193, rfl⟩
abbrev main_v147_1 : Ref sig .tc := ⟨.hbm, 194, rfl⟩
abbrev main_v147_2 : Ref sig .tc := ⟨.hbm, 195, rfl⟩
abbrev main_cst_22 : Ref sig .tc := ⟨.hbm, 196, rfl⟩
abbrev main_v148 : Ref sig .tc := ⟨.hbm, 197, rfl⟩
abbrev main_v149 : Ref sig .tc := ⟨.hbm, 198, rfl⟩
abbrev main_cst_23 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_24 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169_0 : Ref sig .tc := ⟨.hbm, 220, rfl⟩
abbrev main_v169_1 : Ref sig .tc := ⟨.hbm, 221, rfl⟩
abbrev main_v169_2 : Ref sig .tc := ⟨.hbm, 222, rfl⟩
abbrev main_cst_25 : Ref sig .tc := ⟨.hbm, 223, rfl⟩
abbrev main_v170 : Ref sig .tc := ⟨.hbm, 224, rfl⟩
abbrev main_v171 : Ref sig .tc := ⟨.hbm, 225, rfl⟩
abbrev main_cst_26 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_27 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187_0 : Ref sig .tc := ⟨.hbm, 243, rfl⟩
abbrev main_v187_1 : Ref sig .tc := ⟨.hbm, 244, rfl⟩
abbrev main_v188 : Ref sig .tc := ⟨.hbm, 245, rfl⟩
abbrev main_cst_28 : Ref sig .tc := ⟨.hbm, 246, rfl⟩
abbrev main_call0_v0 : Ref sig .tc := ⟨.hbm, 247, rfl⟩
abbrev main_call0_v1 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg5_0 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc7_stg4_0 : Ref sig .tc := ⟨.vmem, 60, rfl⟩
abbrev cc7_stg5_0 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg5_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg2_0 : Ref sig .tc := ⟨.vmem, 73, rfl⟩
abbrev cc9_stg3_0 : Ref sig .tc := ⟨.vmem, 74, rfl⟩
abbrev cc9_stg3_1 : Ref sig .tc := ⟨.vmem, 75, rfl⟩
abbrev cc9_stg4_0 : Ref sig .tc := ⟨.vmem, 76, rfl⟩
abbrev cc9_stg5_0 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg4_0 : Ref sig .tc := ⟨.vmem, 83, rfl⟩
abbrev cc10_stg5_0 : Ref sig .tc := ⟨.vmem, 84, rfl⟩
abbrev cc10_stg5_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg2_0 : Ref sig .tc := ⟨.vmem, 89, rfl⟩
abbrev cc11_stg3_0 : Ref sig .tc := ⟨.vmem, 90, rfl⟩
abbrev cc11_stg3_1 : Ref sig .tc := ⟨.vmem, 91, rfl⟩
abbrev cc11_stg4_0 : Ref sig .tc := ⟨.vmem, 92, rfl⟩
abbrev cc11_stg5_0 : Ref sig .tc := ⟨.vmem, 93, rfl⟩
abbrev cc12_stg0_0 : Ref sig .tc := ⟨.vmem, 94, rfl⟩
abbrev cc12_stg0_1 : Ref sig .tc := ⟨.vmem, 95, rfl⟩
abbrev cc12_stg1_0 : Ref sig .tc := ⟨.vmem, 96, rfl⟩
abbrev cc12_stg2_0 : Ref sig .tc := ⟨.vmem, 97, rfl⟩
abbrev cc12_stg3_0 : Ref sig .tc := ⟨.vmem, 98, rfl⟩
abbrev cc12_stg4_0 : Ref sig .tc := ⟨.vmem, 99, rfl⟩
abbrev cc12_stg5_0 : Ref sig .tc := ⟨.vmem, 100, rfl⟩
abbrev cc12_stg5_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg1_1 : Ref sig .tc := ⟨.vmem, 105, rfl⟩
abbrev cc13_stg2_0 : Ref sig .tc := ⟨.vmem, 106, rfl⟩
abbrev cc13_stg3_0 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem5_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc5_sem4_0 : DmaSem sig := 44
abbrev cc5_sem5_0 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59
abbrev cc7_sem4_0 : DmaSem sig := 60
abbrev cc7_sem5_0 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem5_1 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem3_1 : DmaSem sig := 75
abbrev cc9_sem4_0 : DmaSem sig := 76
abbrev cc9_sem5_0 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem5_1 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem3_0 : DmaSem sig := 90
abbrev cc11_sem3_1 : DmaSem sig := 91
abbrev cc11_sem4_0 : DmaSem sig := 92
abbrev cc11_sem5_0 : DmaSem sig := 93
abbrev cc12_sem0_0 : DmaSem sig := 94
abbrev cc12_sem0_1 : DmaSem sig := 95
abbrev cc12_sem1_0 : DmaSem sig := 96
abbrev cc12_sem2_0 : DmaSem sig := 97
abbrev cc12_sem3_0 : DmaSem sig := 98
abbrev cc12_sem4_0 : DmaSem sig := 99
abbrev cc12_sem5_0 : DmaSem sig := 100
abbrev cc12_sem5_1 : DmaSem sig := 101
abbrev cc13_sem0_0 : DmaSem sig := 102
abbrev cc13_sem0_1 : DmaSem sig := 103
abbrev cc13_sem1_0 : DmaSem sig := 104
abbrev cc13_sem1_1 : DmaSem sig := 105
abbrev cc13_sem2_0 : DmaSem sig := 106
abbrev cc13_sem3_0 : DmaSem sig := 107

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S56x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x49 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x49 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x49 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S49x49 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x49 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x49 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x49 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x49 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x49 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x49 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x49 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x49 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x49 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x49 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x49 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S49x49 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x49 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x49 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x49 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x49 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x49 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x49 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x49 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x49 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x49 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x49 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x49 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S49x49 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x49 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x49 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x49 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x49 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x49 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x49 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x49 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x49 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x49 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x49 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x49 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S49x49 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x49 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x49 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x49 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x49 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x49 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x49 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x49 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x49 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x49 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x49 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x49 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S49x49 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x49 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x49 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x49 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x49 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x49 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x49 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x49 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x49 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x49 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x49 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x49 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S49x49 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x49 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x49 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S1x49 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x49 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x49 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x49 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x49 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x49 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x49 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x49 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x49 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S512x49 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x512 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S49_S1x49 : S49.ShapeCasts S1x49
  inb_S5000x56_S5000x56_0_0 : ∀ a, (![0, 0] : Fin 2 → Nat) a + S5000x56.size a ≤ S5000x56.size a
  h_S5000x56 : 0 < S5000x56.numel
  bitsLt_bf16_f32 : FTy.bits .bf16 < FTy.bits .f32
  inb_S56x49_S56x49_0_0 : ∀ a, (![0, 0] : Fin 2 → Nat) a + S56x49.size a ≤ S56x49.size a
  h_S56x49 : 0 < S56x49.numel
  inb_S1x49_S1x49_0_0 : ∀ a, (![0, 0] : Fin 2 → Nat) a + S1x49.size a ≤ S1x49.size a
  h_S1x49 : 0 < S1x49.numel
  shapeCasts_S1x49_S1x49 : S1x49.ShapeCasts S1x49
  broadcasts_S1x49_S5000x49 : S1x49.Broadcasts S5000x49
  inb_S5000x49_S5000x49_0_0 : ∀ a, (![0, 0] : Fin 2 → Nat) a + S5000x49.size a ≤ S5000x49.size a
  h_S5000x49 : 0 < S5000x49.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x49 : S_.BroadcastsInDim S100000x49 (![] : Fin 0 → Fin S100000x49.rank)
  slices_S3_S1_0 : S3.Slices ![0] S1
  shapeCasts_S1_S_ : S1.ShapeCasts S_
  slices_S3x49x49_S1x49x49_0_0_0 : S3x49x49.Slices ![0, 0, 0] S1x49x49
  shapeCasts_S1x49x49_S49x49 : S1x49x49.ShapeCasts S49x49
  slices_S3x49_S1x49_0_0 : S3x49.Slices ![0, 0] S1x49
  shapeCasts_S1x49_S49 : S1x49.ShapeCasts S49
  shapeCasts_S5000x49_S5000x49 : S5000x49.ShapeCasts S5000x49
  inb_S49x49_S49x49_0_0 : ∀ a, (![0, 0] : Fin 2 → Nat) a + S49x49.size a ≤ S49x49.size a
  h_S49x49 : 0 < S49x49.numel
  shapeCasts_S49x49_S49x49 : S49x49.ShapeCasts S49x49
  reduces_S5000x49_S49 : S5000x49.Reduces [0] S49
  bcast_S_S1x49 : S_.BroadcastsInDim S1x49 (![] : Fin 0 → Fin S1x49.rank)
  slices_S3_S1_1 : S3.Slices ![1] S1
  slices_S3x49x49_S1x49x49_1_0_0 : S3x49x49.Slices ![1, 0, 0] S1x49x49
  slices_S3x49_S1x49_1_0 : S3x49.Slices ![1, 0] S1x49
  slices_S3_S1_2 : S3.Slices ![2] S1
  slices_S3x49x49_S1x49x49_2_0_0 : S3x49x49.Slices ![2, 0, 0] S1x49x49
  slices_S3x49_S1x49_2_0 : S3x49.Slices ![2, 0] S1x49
  shapeCasts_S100000_S100000x1 : S100000.ShapeCasts S100000x1
  inb_S512x49_S512x49_0_0 : ∀ a, (![0, 0] : Fin 2 → Nat) a + S512x49.size a ≤ S512x49.size a
  h_S512x49 : 0 < S512x49.numel
  inb_S1x512_S1x512_0_0 : ∀ a, (![0, 0] : Fin 2 → Nat) a + S1x512.size a ≤ S1x512.size a
  h_S1x512 : 0 < S1x512.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  shapeCasts_S512x49_S512x49 : S512x49.ShapeCasts S512x49
  shapeCasts_S1x512_S1x512 : S1x512.ShapeCasts S1x512
  reduces_S5000x512_S512 : S5000x512.Reduces [0] S512
  shapeCasts_S512_S1x512 : S512.ShapeCasts S1x512
  shapeCasts_S1x512_S512x1 : S1x512.ShapeCasts S512x1
  bcast_S_S512x1 : S_.BroadcastsInDim S512x1 (![] : Fin 0 → Fin S512x1.rank)
  bcast_S512x1_S512x49_0_1 : S512x1.BroadcastsInDim S512x49 (![0, 1] : Fin 2 → Fin S512x49.rank)
  dot_S5000x56_S56x49_S5000x49_1_0_0_1_n_n_wf : DotDims.WF S5000x56 S56x49 S5000x49 [1] [0] [0] [1] [] []
  gather_S100000x49_S1600000x1_S1600000x49_1_0_n_n_0_1_149_wf : GatherDims.WF S100000x49 S1600000x1 S1600000x49 [1] [0] [] [0] [] 1 ![1, 49]
  scatter_S100000x49_S1600000x1_S1600000x49_1_0_0_1_wf : ScatterDims.WF S100000x49 S1600000x1 S1600000x49 [1] [0] [0] 1
  dot_S5000x49_S49x49_S5000x49_1_0_0_1_n_n_wf : DotDims.WF S5000x49 S49x49 S5000x49 [1] [0] [0] [1] [] []
  dot_S5000x512_S5000x49_S512x49_0_0_1_1_n_n_wf : DotDims.WF S5000x512 S5000x49 S512x49 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x56.size a ≤ S100000x56.size a
  hwx0_0 : ∀ i : grid0.Coords, EltTy.bits .f32 = 32 ∨ (Rect.block (s := S100000x56) S5000x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S56x49.size a ≤ S56x49.size a
  hwx0_1 : ∀ i : grid0.Coords, EltTy.bits .f32 = 32 ∨ (Rect.block (s := S56x49) S56x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x49.size a ≤ S1x49.size a
  hwx0_2 : ∀ i : grid0.Coords, EltTy.bits .f32 = 32 ∨ (Rect.block (s := S1x49) S1x49.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x49.size a ≤ S100000x49.size a
  hwx0_3 : ∀ i : grid0.Coords, EltTy.bits .f32 = 32 ∨ (Rect.block (s := S100000x49) S5000x49.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x49.size a ≤ S100000x49.size a
  hwx1_0 : ∀ i : grid1.Coords, EltTy.bits .f32 = 32 ∨ (Rect.block (s := S100000x49) S5000x49.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S49x49.size a ≤ S49x49.size a
  hwx1_1 : ∀ i : grid1.Coords, EltTy.bits .f32 = 32 ∨ (Rect.block (s := S49x49) S49x49.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x49.size a ≤ S1x49.size a
  hwx1_2 : ∀ i : grid1.Coords, EltTy.bits .f32 = 32 ∨ (Rect.block (s := S1x49) S1x49.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x49.size a ≤ S100000x49.size a
  hwx1_3 : ∀ i : grid1.Coords, EltTy.bits .f32 = 32 ∨ (Rect.block (s := S100000x49) S5000x49.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x49.size a ≤ S1x49.size a
  hwx1_4 : ∀ i : grid1.Coords, EltTy.bits .f32 = 32 ∨ (Rect.block (s := S1x49) S1x49.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x49.size a ≤ S1x49.size a
  hwx1_5 : ∀ i : grid1.Coords, EltTy.bits .f32 = 32 ∨ (Rect.block (s := S1x49) S1x49.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x49.size a ≤ S100000x49.size a
  hwx2_0 : ∀ i : grid2.Coords, EltTy.bits .f32 = 32 ∨ (Rect.block (s := S100000x49) S5000x49.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x49.size a ≤ S1x49.size a
  hwx2_1 : ∀ i : grid2.Coords, EltTy.bits .f32 = 32 ∨ (Rect.block (s := S1x49) S1x49.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x49.size a ≤ S1x49.size a
  hwx2_2 : ∀ i : grid2.Coords, EltTy.bits .f32 = 32 ∨ (Rect.block (s := S1x49) S1x49.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x49.size a ≤ S1x49.size a
  hwx2_3 : ∀ i : grid2.Coords, EltTy.bits .f32 = 32 ∨ (Rect.block (s := S1x49) S1x49.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x49.size a ≤ S1x49.size a
  hwx2_4 : ∀ i : grid2.Coords, EltTy.bits .f32 = 32 ∨ (Rect.block (s := S1x49) S1x49.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x49.size a ≤ S100000x49.size a
  hwx2_5 : ∀ i : grid2.Coords, EltTy.bits .f32 = 32 ∨ (Rect.block (s := S100000x49) S5000x49.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x49.size a ≤ S100000x49.size a
  hwx3_0 : ∀ i : grid3.Coords, EltTy.bits .f32 = 32 ∨ (Rect.block (s := S100000x49) S5000x49.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S49x49.size a ≤ S49x49.size a
  hwx3_1 : ∀ i : grid3.Coords, EltTy.bits .f32 = 32 ∨ (Rect.block (s := S49x49) S49x49.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x49.size a ≤ S1x49.size a
  hwx3_2 : ∀ i : grid3.Coords, EltTy.bits .f32 = 32 ∨ (Rect.block (s := S1x49) S1x49.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x49.size a ≤ S100000x49.size a
  hwx3_3 : ∀ i : grid3.Coords, EltTy.bits .f32 = 32 ∨ (Rect.block (s := S100000x49) S5000x49.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x49.size a ≤ S1x49.size a
  hwx3_4 : ∀ i : grid3.Coords, EltTy.bits .f32 = 32 ∨ (Rect.block (s := S1x49) S1x49.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x49.size a ≤ S1x49.size a
  hwx3_5 : ∀ i : grid3.Coords, EltTy.bits .f32 = 32 ∨ (Rect.block (s := S1x49) S1x49.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x49.size a ≤ S100000x49.size a
  hwx4_0 : ∀ i : grid4.Coords, EltTy.bits .f32 = 32 ∨ (Rect.block (s := S100000x49) S5000x49.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x49.size a ≤ S1x49.size a
  hwx4_1 : ∀ i : grid4.Coords, EltTy.bits .f32 = 32 ∨ (Rect.block (s := S1x49) S1x49.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x49.size a ≤ S1x49.size a
  hwx4_2 : ∀ i : grid4.Coords, EltTy.bits .f32 = 32 ∨ (Rect.block (s := S1x49) S1x49.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x49.size a ≤ S1x49.size a
  hwx4_3 : ∀ i : grid4.Coords, EltTy.bits .f32 = 32 ∨ (Rect.block (s := S1x49) S1x49.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x49.size a ≤ S1x49.size a
  hwx4_4 : ∀ i : grid4.Coords, EltTy.bits .f32 = 32 ∨ (Rect.block (s := S1x49) S1x49.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x49.size a ≤ S100000x49.size a
  hwx4_5 : ∀ i : grid4.Coords, EltTy.bits .f32 = 32 ∨ (Rect.block (s := S100000x49) S5000x49.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x49.size a ≤ S100000x49.size a
  hwx5_0 : ∀ i : grid5.Coords, EltTy.bits .f32 = 32 ∨ (Rect.block (s := S100000x49) S5000x49.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S49x49.size a ≤ S49x49.size a
  hwx5_1 : ∀ i : grid5.Coords, EltTy.bits .f32 = 32 ∨ (Rect.block (s := S49x49) S49x49.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x49.size a ≤ S1x49.size a
  hwx5_2 : ∀ i : grid5.Coords, EltTy.bits .f32 = 32 ∨ (Rect.block (s := S1x49) S1x49.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x49.size a ≤ S100000x49.size a
  hwx5_3 : ∀ i : grid5.Coords, EltTy.bits .f32 = 32 ∨ (Rect.block (s := S100000x49) S5000x49.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x49.size a ≤ S1x49.size a
  hwx5_4 : ∀ i : grid5.Coords, EltTy.bits .f32 = 32 ∨ (Rect.block (s := S1x49) S1x49.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x49.size a ≤ S1x49.size a
  hwx5_5 : ∀ i : grid5.Coords, EltTy.bits .f32 = 32 ∨ (Rect.block (s := S1x49) S1x49.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x49.size a ≤ S100000x49.size a
  hwx6_0 : ∀ i : grid6.Coords, EltTy.bits .f32 = 32 ∨ (Rect.block (s := S100000x49) S5000x49.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x49.size a ≤ S1x49.size a
  hwx6_1 : ∀ i : grid6.Coords, EltTy.bits .f32 = 32 ∨ (Rect.block (s := S1x49) S1x49.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x49.size a ≤ S1x49.size a
  hwx6_2 : ∀ i : grid6.Coords, EltTy.bits .f32 = 32 ∨ (Rect.block (s := S1x49) S1x49.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x49.size a ≤ S1x49.size a
  hwx6_3 : ∀ i : grid6.Coords, EltTy.bits .f32 = 32 ∨ (Rect.block (s := S1x49) S1x49.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x49.size a ≤ S1x49.size a
  hwx6_4 : ∀ i : grid6.Coords, EltTy.bits .f32 = 32 ∨ (Rect.block (s := S1x49) S1x49.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x49.size a ≤ S100000x49.size a
  hwx6_5 : ∀ i : grid6.Coords, EltTy.bits .f32 = 32 ∨ (Rect.block (s := S100000x49) S5000x49.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x49.size a ≤ S100000x49.size a
  hwx7_0 : ∀ i : grid7.Coords, EltTy.bits .f32 = 32 ∨ (Rect.block (s := S100000x49) S5000x49.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S49x49.size a ≤ S49x49.size a
  hwx7_1 : ∀ i : grid7.Coords, EltTy.bits .f32 = 32 ∨ (Rect.block (s := S49x49) S49x49.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x49.size a ≤ S1x49.size a
  hwx7_2 : ∀ i : grid7.Coords, EltTy.bits .f32 = 32 ∨ (Rect.block (s := S1x49) S1x49.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x49.size a ≤ S100000x49.size a
  hwx7_3 : ∀ i : grid7.Coords, EltTy.bits .f32 = 32 ∨ (Rect.block (s := S100000x49) S5000x49.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x49.size a ≤ S1x49.size a
  hwx7_4 : ∀ i : grid7.Coords, EltTy.bits .f32 = 32 ∨ (Rect.block (s := S1x49) S1x49.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x49.size a ≤ S1x49.size a
  hwx7_5 : ∀ i : grid7.Coords, EltTy.bits .f32 = 32 ∨ (Rect.block (s := S1x49) S1x49.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x49.size a ≤ S100000x49.size a
  hwx8_0 : ∀ i : grid8.Coords, EltTy.bits .f32 = 32 ∨ (Rect.block (s := S100000x49) S5000x49.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x49.size a ≤ S1x49.size a
  hwx8_1 : ∀ i : grid8.Coords, EltTy.bits .f32 = 32 ∨ (Rect.block (s := S1x49) S1x49.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x49.size a ≤ S1x49.size a
  hwx8_2 : ∀ i : grid8.Coords, EltTy.bits .f32 = 32 ∨ (Rect.block (s := S1x49) S1x49.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x49.size a ≤ S1x49.size a
  hwx8_3 : ∀ i : grid8.Coords, EltTy.bits .f32 = 32 ∨ (Rect.block (s := S1x49) S1x49.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x49.size a ≤ S1x49.size a
  hwx8_4 : ∀ i : grid8.Coords, EltTy.bits .f32 = 32 ∨ (Rect.block (s := S1x49) S1x49.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x49.size a ≤ S100000x49.size a
  hwx8_5 : ∀ i : grid8.Coords, EltTy.bits .f32 = 32 ∨ (Rect.block (s := S100000x49) S5000x49.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x49.size a ≤ S100000x49.size a
  hwx9_0 : ∀ i : grid9.Coords, EltTy.bits .f32 = 32 ∨ (Rect.block (s := S100000x49) S5000x49.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S49x49.size a ≤ S49x49.size a
  hwx9_1 : ∀ i : grid9.Coords, EltTy.bits .f32 = 32 ∨ (Rect.block (s := S49x49) S49x49.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x49.size a ≤ S1x49.size a
  hwx9_2 : ∀ i : grid9.Coords, EltTy.bits .f32 = 32 ∨ (Rect.block (s := S1x49) S1x49.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x49.size a ≤ S100000x49.size a
  hwx9_3 : ∀ i : grid9.Coords, EltTy.bits .f32 = 32 ∨ (Rect.block (s := S100000x49) S5000x49.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x49.size a ≤ S1x49.size a
  hwx9_4 : ∀ i : grid9.Coords, EltTy.bits .f32 = 32 ∨ (Rect.block (s := S1x49) S1x49.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x49.size a ≤ S1x49.size a
  hwx9_5 : ∀ i : grid9.Coords, EltTy.bits .f32 = 32 ∨ (Rect.block (s := S1x49) S1x49.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x49.size a ≤ S100000x49.size a
  hwx10_0 : ∀ i : grid10.Coords, EltTy.bits .f32 = 32 ∨ (Rect.block (s := S100000x49) S5000x49.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x49.size a ≤ S1x49.size a
  hwx10_1 : ∀ i : grid10.Coords, EltTy.bits .f32 = 32 ∨ (Rect.block (s := S1x49) S1x49.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x49.size a ≤ S1x49.size a
  hwx10_2 : ∀ i : grid10.Coords, EltTy.bits .f32 = 32 ∨ (Rect.block (s := S1x49) S1x49.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x49.size a ≤ S1x49.size a
  hwx10_3 : ∀ i : grid10.Coords, EltTy.bits .f32 = 32 ∨ (Rect.block (s := S1x49) S1x49.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x49.size a ≤ S1x49.size a
  hwx10_4 : ∀ i : grid10.Coords, EltTy.bits .f32 = 32 ∨ (Rect.block (s := S1x49) S1x49.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x49.size a ≤ S100000x49.size a
  hwx10_5 : ∀ i : grid10.Coords, EltTy.bits .f32 = 32 ∨ (Rect.block (s := S100000x49) S5000x49.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x49.size a ≤ S100000x49.size a
  hwx11_0 : ∀ i : grid11.Coords, EltTy.bits .f32 = 32 ∨ (Rect.block (s := S100000x49) S5000x49.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S49x49.size a ≤ S49x49.size a
  hwx11_1 : ∀ i : grid11.Coords, EltTy.bits .f32 = 32 ∨ (Rect.block (s := S49x49) S49x49.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x49.size a ≤ S1x49.size a
  hwx11_2 : ∀ i : grid11.Coords, EltTy.bits .f32 = 32 ∨ (Rect.block (s := S1x49) S1x49.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x49.size a ≤ S100000x49.size a
  hwx11_3 : ∀ i : grid11.Coords, EltTy.bits .f32 = 32 ∨ (Rect.block (s := S100000x49) S5000x49.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x49.size a ≤ S1x49.size a
  hwx11_4 : ∀ i : grid11.Coords, EltTy.bits .f32 = 32 ∨ (Rect.block (s := S1x49) S1x49.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x49.size a ≤ S1x49.size a
  hwx11_5 : ∀ i : grid11.Coords, EltTy.bits .f32 = 32 ∨ (Rect.block (s := S1x49) S1x49.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x49.size a ≤ S100000x49.size a
  hwx12_0 : ∀ i : grid12.Coords, EltTy.bits .f32 = 32 ∨ (Rect.block (s := S100000x49) S5000x49.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x49.size a ≤ S1x49.size a
  hwx12_1 : ∀ i : grid12.Coords, EltTy.bits .f32 = 32 ∨ (Rect.block (s := S1x49) S1x49.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x49.size a ≤ S1x49.size a
  hwx12_2 : ∀ i : grid12.Coords, EltTy.bits .f32 = 32 ∨ (Rect.block (s := S1x49) S1x49.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x49.size a ≤ S1x49.size a
  hwx12_3 : ∀ i : grid12.Coords, EltTy.bits .f32 = 32 ∨ (Rect.block (s := S1x49) S1x49.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x49.size a ≤ S1x49.size a
  hwx12_4 : ∀ i : grid12.Coords, EltTy.bits .f32 = 32 ∨ (Rect.block (s := S1x49) S1x49.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x49.size a ≤ S100000x49.size a
  hwx12_5 : ∀ i : grid12.Coords, EltTy.bits .f32 = 32 ∨ (Rect.block (s := S100000x49) S5000x49.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x49.size a ≤ S100000x49.size a
  hwx13_0 : ∀ i : grid13.Coords, EltTy.bits .f32 = 32 ∨ (Rect.block (s := S100000x49) S5000x49.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S100000x1.size a
  hwx13_1 : ∀ i : grid13.Coords, EltTy.bits .i32 = 32 ∨ (Rect.block (s := S100000x1) S5000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S512x49.size a ≤ S512x49.size a
  hwx13_2 : ∀ i : grid13.Coords, EltTy.bits .f32 = 32 ∨ (Rect.block (s := S512x49) S512x49.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x512.size a ≤ S1x512.size a
  hwx13_3 : ∀ i : grid13.Coords, EltTy.bits .f32 = 32 ∨ (Rect.block (s := S1x512) S1x512.size (cc13_transform_3 i) (hinb13_3 i)).WholeWords (EltTy.packing .f32)

variable [Facts₀]

def dot_S5000x56_S56x49_S5000x49_1_0_0_1_n_n : DotDims S5000x56 S56x49 S5000x49 where
  lhsContracting := [1]
  rhsContracting := [0]
  lhsNonContracting := [0]
  rhsNonContracting := [1]
  lhsBatch := []
  rhsBatch := []
  wf := dot_S5000x56_S56x49_S5000x49_1_0_0_1_n_n_wf
def gather_S100000x49_S1600000x1_S1600000x49_1_0_n_n_0_1_149 : GatherDims S100000x49 S1600000x1 S1600000x49 where
  offsetDims := [1]
  collapsedSliceDims := [0]
  operandBatchingDims := []
  startIndicesBatchingDims := []
  startIndexMap := [0]
  indexVectorDim := 1
  sliceSizes := ![1, 49]
  wf := gather_S100000x49_S1600000x1_S1600000x49_1_0_n_n_0_1_149_wf
def scatter_S100000x49_S1600000x1_S1600000x49_1_0_0_1 : ScatterDims S100000x49 S1600000x1 S1600000x49 where
  updateWindowDims := [1]
  insertedWindowDims := [0]
  scatterDimsToOperandDims := [0]
  indexVectorDim := 1
  wf := scatter_S100000x49_S1600000x1_S1600000x49_1_0_0_1_wf
def dot_S5000x49_S49x49_S5000x49_1_0_0_1_n_n : DotDims S5000x49 S49x49 S5000x49 where
  lhsContracting := [1]
  rhsContracting := [0]
  lhsNonContracting := [0]
  rhsNonContracting := [1]
  lhsBatch := []
  rhsBatch := []
  wf := dot_S5000x49_S49x49_S5000x49_1_0_0_1_n_n_wf
def dot_S5000x512_S5000x49_S512x49_0_0_1_1_n_n : DotDims S5000x512 S5000x49 S512x49 where
  lhsContracting := [0]
  rhsContracting := [0]
  lhsNonContracting := [1]
  rhsNonContracting := [1]
  lhsBatch := []
  rhsBatch := []
  wf := dot_S5000x512_S5000x49_S512x49_0_0_1_1_n_n_wf

abbrev win0_0 : Pipeline.Window sig grid0 :=
  Pipeline.Window.ofSpec (Memref.whole main_arg0) S5000x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S56x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x49.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x49.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x49.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S49x49.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x49.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S5000x49.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S1x49.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_2) S1x49.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27_0) S5000x49.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x49.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x49.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x49.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x49.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x49.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v43) S5000x49.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S49x49.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x49.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49_0) S5000x49.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v49_1) S1x49.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49_2) S1x49.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49_0) S5000x49.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1x49.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x49.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x49.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x49.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S5000x49.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81) S5000x49.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S49x49.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S1x49.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87_0) S5000x49.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v87_1) S1x49.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87_2) S1x49.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87_0) S5000x49.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S1x49.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x49.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1x49.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v102) S1x49.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v103) S5000x49.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v103) S5000x49.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S49x49.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S1x49.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v109_0) S5000x49.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v109_1) S1x49.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v109_2) S1x49.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v109_0) S5000x49.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111) S1x49.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v118) S1x49.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v121) S1x49.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v124) S1x49.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v125) S5000x49.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v141) S5000x49.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v143) S49x49.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v146) S1x49.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v147_0) S5000x49.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v147_1) S1x49.size cc9_transform_4 reads9_4 true true 1 stage9_4 sem9_4
    hrank9 hreads9_4 hinb9_4 nbuf9_4 (Memref.isWhole_whole _) hwx9_4 hstage9_4

abbrev win9_5 : Pipeline.Window sig grid9 :=
  Pipeline.Window.ofSpec (Memref.whole main_v147_2) S1x49.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v147_0) S5000x49.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v149) S1x49.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v156) S1x49.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v159) S1x49.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v162) S1x49.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v163) S5000x49.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v163) S5000x49.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v165) S49x49.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v168) S1x49.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v169_0) S5000x49.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v169_1) S1x49.size cc11_transform_4 reads11_4 true true 1 stage11_4 sem11_4
    hrank11 hreads11_4 hinb11_4 nbuf11_4 (Memref.isWhole_whole _) hwx11_4 hstage11_4

abbrev win11_5 : Pipeline.Window sig grid11 :=
  Pipeline.Window.ofSpec (Memref.whole main_v169_2) S1x49.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v169_0) S5000x49.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v171) S1x49.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v178) S1x49.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v181) S1x49.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v184) S1x49.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v185) S5000x49.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v185) S5000x49.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v186) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v187_0) S512x49.size cc13_transform_2 reads13_2 true true 1 stage13_2 sem13_2
    hrank13 hreads13_2 hinb13_2 nbuf13_2 (Memref.isWhole_whole _) hwx13_2 hstage13_2

abbrev win13_3 : Pipeline.Window sig grid13 :=
  Pipeline.Window.ofSpec (Memref.whole main_v187_1) S1x512.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S100000x56 : Shape := ⟨2, ![100000, 56]⟩
abbrev S56x49 : Shape := ⟨2, ![56, 49]⟩
abbrev S49 : Shape := ⟨1, ![49]⟩
abbrev S3x49x49 : Shape := ⟨3, ![3, 49, 49]⟩
abbrev S3x49 : Shape := ⟨2, ![3, 49]⟩
abbrev S3 : Shape := ⟨1, ![3]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S100000x49 : Shape := ⟨2, ![100000, 49]⟩
abbrev S1x49 : Shape := ⟨2, ![1, 49]⟩
abbrev S_ : Shape := ⟨0, ![]⟩
abbrev S1600000x1 : Shape := ⟨2, ![1600000, 1]⟩
abbrev S1600000x49 : Shape := ⟨2, ![1600000, 49]⟩
abbrev S1 : Shape := ⟨1, ![1]⟩
abbrev S1x49x49 : Shape := ⟨3, ![1, 49, 49]⟩
abbrev S49x49 : Shape := ⟨2, ![49, 49]⟩
abbrev S512x49 : Shape := ⟨2, ![512, 49]⟩
abbrev S100000x1 : Shape := ⟨2, ![100000, 1]⟩
abbrev S512 : Shape := ⟨1, ![512]⟩
abbrev S512x1 : Shape := ⟨2, ![512, 1]⟩

abbrev nBuf : Space → Nat
  | .hbm => 462
  | .vmem => 0
  | .smem => 0
  | _ => 0

abbrev hbmTy0_0 (i : Nat) : BufTy := match i % 128 with
  | 0 => ⟨S100000x56, .f32⟩
  | 1 => ⟨S56x49, .f32⟩
  | 2 => ⟨S49, .f32⟩
  | 3 => ⟨S3x49x49, .f32⟩
  | 4 => ⟨S3x49, .f32⟩
  | 5 => ⟨S3x49, .f32⟩
  | 6 => ⟨S3x49, .f32⟩
  | 7 => ⟨S3x49x49, .f32⟩
  | 8 => ⟨S3x49, .f32⟩
  | 9 => ⟨S3x49, .f32⟩
  | 10 => ⟨S3x49, .f32⟩
  | 11 => ⟨S3, .f32⟩
  | 12 => ⟨S2x1600000, .i32⟩
  | 13 => ⟨S100000, .i32⟩
  | 14 => ⟨S1x1600000, .i32⟩
  | 15 => ⟨S1600000, .i32⟩
  | 16 => ⟨S1x1600000, .i32⟩
  | 17 => ⟨S1600000, .i32⟩
  | 18 => ⟨S100000x49, .f32⟩
  | 19 => ⟨S1x49, .f32⟩
  | 20 => ⟨S100000x49, .f32⟩
  | 21 => ⟨S100000x49, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x49, .f32⟩
  | 31 => ⟨S_, .f32⟩
  | 32 => ⟨S100000x49, .f32⟩
  | 33 => ⟨S1600000x1, .i32⟩
  | 34 => ⟨S100000x49, .f32⟩
  | 35 => ⟨S1, .f32⟩
  | 36 => ⟨S_, .f32⟩
  | 37 => ⟨S_, .f32⟩
  | 38 => ⟨S_, .f32⟩
  | 39 => ⟨S100000x49, .f32⟩
  | 40 => ⟨S100000x49, .f32⟩
  | 41 => ⟨S100000x49, .f32⟩
  | 42 => ⟨S1x49x49, .f32⟩
  | 43 => ⟨S49x49, .f32⟩
  | 44 => ⟨S100000x49, .f32⟩
  | 45 => ⟨S1x49, .f32⟩
  | 46 => ⟨S49, .f32⟩
  | 47 => ⟨S1x49, .f32⟩
  | 48 => ⟨S100000x49, .f32⟩
  | 49 => ⟨S100000x49, .f32⟩
  | 50 => ⟨S1x49, .f32⟩
  | 51 => ⟨S49, .f32⟩
  | 52 => ⟨S1x49, .f32⟩
  | 53 => ⟨S49, .f32⟩
  | 54 => ⟨S_, .f32⟩
  | 55 => ⟨S49, .f32⟩
  | 56 => ⟨S_, .f32⟩
  | 57 => ⟨S49, .f32⟩
  | 58 => ⟨S49, .f32⟩
  | 59 => ⟨S_, .i32⟩
  | 60 => ⟨S_, .f32⟩
  | 61 => ⟨S49, .f32⟩
  | 62 => ⟨S1x49, .f32⟩
  | 63 => ⟨S_, .f32⟩
  | 64 => ⟨S1x49, .f32⟩
  | 65 => ⟨S1x49, .f32⟩
  | 66 => ⟨S100000x49, .f32⟩
  | 67 => ⟨S100000x49, .f32⟩
  | 68 => ⟨S100000x49, .f32⟩
  | 69 => ⟨S_, .f32⟩
  | 70 => ⟨S_, .f32⟩
  | 71 => ⟨S_, .f32⟩
  | 72 => ⟨S_, .f32⟩
  | 73 => ⟨S49, .f32⟩
  | 74 => ⟨S49, .f32⟩
  | 75 => ⟨S49, .f32⟩
  | 76 => ⟨S_, .f32⟩
  | 77 => ⟨S_, .i1⟩
  | 78 => ⟨S_, .f32⟩
  | 79 => ⟨S_, .f32⟩
  | 80 => ⟨S49, .f32⟩
  | 81 => ⟨S49, .f32⟩
  | 82 => ⟨S1x49, .f32⟩
  | 83 => ⟨S100000x49, .f32⟩
  | 84 => ⟨S100000x49, .f32⟩
  | 85 => ⟨S1x49, .f32⟩
  | 86 => ⟨S100000x49, .f32⟩
  | 87 => ⟨S100000x49, .f32⟩
  | 88 => ⟨S_, .f32⟩
  | 89 => ⟨S49, .f32⟩
  | 90 => ⟨S49, .f32⟩
  | 91 => ⟨S49, .f32⟩
  | 92 => ⟨S1x49, .f32⟩
  | 93 => ⟨S100000x49, .f32⟩
  | 94 => ⟨S100000x49, .f32⟩
  | 95 => ⟨S1x49, .f32⟩
  | 96 => ⟨S100000x49, .f32⟩
  | 97 => ⟨S100000x49, .f32⟩
  | 98 => ⟨S_, .f32⟩
  | 99 => ⟨S100000x49, .f32⟩
  | 100 => ⟨S100000x49, .f32⟩
  | 101 => ⟨S1x49x49, .f32⟩
  | 102 => ⟨S49x49, .f32⟩
  | 103 => ⟨S100000x49, .f32⟩
  | 104 => ⟨S1x49, .f32⟩
  | 105 => ⟨S49, .f32⟩
  | 106 => ⟨S1x49, .f32⟩
  | 107 => ⟨S100000x49, .f32⟩
  | 108 => ⟨S100000x49, .f32⟩
  | 109 => ⟨S1x49, .f32⟩
  | 110 => ⟨S49, .f32⟩
  | 111 => ⟨S1x49, .f32⟩
  | 112 => ⟨S49, .f32⟩
  | 113 => ⟨S_, .f32⟩
  | 114 => ⟨S49, .f32⟩
  | 115 => ⟨S_, .f32⟩
  | 116 => ⟨S49, .f32⟩
  | 117 => ⟨S49, .f32⟩
  | 118 => ⟨S_, .i32⟩
  | 119 => ⟨S_, .f32⟩
  | 120 => ⟨S49, .f32⟩
  | 121 => ⟨S1x49, .f32⟩
  | 122 => ⟨S_, .f32⟩
  | 123 => ⟨S1x49, .f32⟩
  | 124 => ⟨S1x49, .f32⟩
  | 125 => ⟨S100000x49, .f32⟩
  | 126 => ⟨S100000x49, .f32⟩
  | 127 => ⟨S100000x49, .f32⟩
  | _ => ⟨S100000x56, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S49, .f32⟩
  | 5 => ⟨S49, .f32⟩
  | 6 => ⟨S49, .f32⟩
  | 7 => ⟨S_, .f32⟩
  | 8 => ⟨S_, .i1⟩
  | 9 => ⟨S_, .f32⟩
  | 10 => ⟨S_, .f32⟩
  | 11 => ⟨S49, .f32⟩
  | 12 => ⟨S49, .f32⟩
  | 13 => ⟨S1x49, .f32⟩
  | 14 => ⟨S100000x49, .f32⟩
  | 15 => ⟨S100000x49, .f32⟩
  | 16 => ⟨S1x49, .f32⟩
  | 17 => ⟨S100000x49, .f32⟩
  | 18 => ⟨S100000x49, .f32⟩
  | 19 => ⟨S_, .f32⟩
  | 20 => ⟨S49, .f32⟩
  | 21 => ⟨S49, .f32⟩
  | 22 => ⟨S49, .f32⟩
  | 23 => ⟨S1x49, .f32⟩
  | 24 => ⟨S100000x49, .f32⟩
  | 25 => ⟨S100000x49, .f32⟩
  | 26 => ⟨S1x49, .f32⟩
  | 27 => ⟨S100000x49, .f32⟩
  | 28 => ⟨S100000x49, .f32⟩
  | 29 => ⟨S_, .f32⟩
  | 30 => ⟨S100000x49, .f32⟩
  | 31 => ⟨S100000x49, .f32⟩
  | 32 => ⟨S_, .f32⟩
  | 33 => ⟨S100000x49, .f32⟩
  | 34 => ⟨S100000x49, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x49, .f32⟩
  | 44 => ⟨S_, .f32⟩
  | 45 => ⟨S100000x49, .f32⟩
  | 46 => ⟨S1600000x1, .i32⟩
  | 47 => ⟨S100000x49, .f32⟩
  | 48 => ⟨S1, .f32⟩
  | 49 => ⟨S_, .f32⟩
  | 50 => ⟨S_, .f32⟩
  | 51 => ⟨S_, .f32⟩
  | 52 => ⟨S100000x49, .f32⟩
  | 53 => ⟨S100000x49, .f32⟩
  | 54 => ⟨S100000x49, .f32⟩
  | 55 => ⟨S1x49x49, .f32⟩
  | 56 => ⟨S49x49, .f32⟩
  | 57 => ⟨S100000x49, .f32⟩
  | 58 => ⟨S1x49, .f32⟩
  | 59 => ⟨S49, .f32⟩
  | 60 => ⟨S1x49, .f32⟩
  | 61 => ⟨S100000x49, .f32⟩
  | 62 => ⟨S100000x49, .f32⟩
  | 63 => ⟨S1x49, .f32⟩
  | 64 => ⟨S49, .f32⟩
  | 65 => ⟨S1x49, .f32⟩
  | 66 => ⟨S49, .f32⟩
  | 67 => ⟨S_, .f32⟩
  | 68 => ⟨S49, .f32⟩
  | 69 => ⟨S_, .f32⟩
  | 70 => ⟨S49, .f32⟩
  | 71 => ⟨S49, .f32⟩
  | 72 => ⟨S_, .i32⟩
  | 73 => ⟨S_, .f32⟩
  | 74 => ⟨S49, .f32⟩
  | 75 => ⟨S1x49, .f32⟩
  | 76 => ⟨S_, .f32⟩
  | 77 => ⟨S1x49, .f32⟩
  | 78 => ⟨S1x49, .f32⟩
  | 79 => ⟨S100000x49, .f32⟩
  | 80 => ⟨S100000x49, .f32⟩
  | 81 => ⟨S100000x49, .f32⟩
  | 82 => ⟨S_, .f32⟩
  | 83 => ⟨S_, .f32⟩
  | 84 => ⟨S_, .f32⟩
  | 85 => ⟨S_, .f32⟩
  | 86 => ⟨S49, .f32⟩
  | 87 => ⟨S49, .f32⟩
  | 88 => ⟨S49, .f32⟩
  | 89 => ⟨S_, .f32⟩
  | 90 => ⟨S_, .i1⟩
  | 91 => ⟨S_, .f32⟩
  | 92 => ⟨S_, .f32⟩
  | 93 => ⟨S49, .f32⟩
  | 94 => ⟨S49, .f32⟩
  | 95 => ⟨S1x49, .f32⟩
  | 96 => ⟨S100000x49, .f32⟩
  | 97 => ⟨S100000x49, .f32⟩
  | 98 => ⟨S1x49, .f32⟩
  | 99 => ⟨S100000x49, .f32⟩
  | 100 => ⟨S100000x49, .f32⟩
  | 101 => ⟨S_, .f32⟩
  | 102 => ⟨S49, .f32⟩
  | 103 => ⟨S49, .f32⟩
  | 104 => ⟨S49, .f32⟩
  | 105 => ⟨S1x49, .f32⟩
  | 106 => ⟨S100000x49, .f32⟩
  | 107 => ⟨S100000x49, .f32⟩
  | 108 => ⟨S1x49, .f32⟩
  | 109 => ⟨S100000x49, .f32⟩
  | 110 => ⟨S100000x49, .f32⟩
  | 111 => ⟨S_, .f32⟩
  | 112 => ⟨S100000x49, .f32⟩
  | 113 => ⟨S100000x49, .f32⟩
  | 114 => ⟨S1x49x49, .f32⟩
  | 115 => ⟨S49x49, .f32⟩
  | 116 => ⟨S100000x49, .f32⟩
  | 117 => ⟨S1x49, .f32⟩
  | 118 => ⟨S49, .f32⟩
  | 119 => ⟨S1x49, .f32⟩
  | 120 => ⟨S100000x49, .f32⟩
  | 121 => ⟨S100000x49, .f32⟩
  | 122 => ⟨S1x49, .f32⟩
  | 123 => ⟨S49, .f32⟩
  | 124 => ⟨S1x49, .f32⟩
  | 125 => ⟨S49, .f32⟩
  | 126 => ⟨S_, .f32⟩
  | 127 => ⟨S49, .f32⟩
  | _ => ⟨S100000x56, .f32⟩

abbrev hbmTy0_2 (i : Nat) : BufTy := match i % 128 with
  | 0 => ⟨S_, .f32⟩
  | 1 => ⟨S49, .f32⟩
  | 2 => ⟨S49, .f32⟩
  | 3 => ⟨S_, .i32⟩
  | 4 => ⟨S_, .f32⟩
  | 5 => ⟨S49, .f32⟩
  | 6 => ⟨S1x49, .f32⟩
  | 7 => ⟨S_, .f32⟩
  | 8 => ⟨S1x49, .f32⟩
  | 9 => ⟨S1x49, .f32⟩
  | 10 => ⟨S100000x49, .f32⟩
  | 11 => ⟨S100000x49, .f32⟩
  | 12 => ⟨S100000x49, .f32⟩
  | 13 => ⟨S_, .f32⟩
  | 14 => ⟨S_, .f32⟩
  | 15 => ⟨S_, .f32⟩
  | 16 => ⟨S_, .f32⟩
  | 17 => ⟨S49, .f32⟩
  | 18 => ⟨S49, .f32⟩
  | 19 => ⟨S49, .f32⟩
  | 20 => ⟨S_, .f32⟩
  | 21 => ⟨S_, .i1⟩
  | 22 => ⟨S_, .f32⟩
  | 23 => ⟨S_, .f32⟩
  | 24 => ⟨S49, .f32⟩
  | 25 => ⟨S49, .f32⟩
  | 26 => ⟨S1x49, .f32⟩
  | 27 => ⟨S100000x49, .f32⟩
  | 28 => ⟨S100000x49, .f32⟩
  | 29 => ⟨S1x49, .f32⟩
  | 30 => ⟨S100000x49, .f32⟩
  | 31 => ⟨S100000x49, .f32⟩
  | 32 => ⟨S_, .f32⟩
  | 33 => ⟨S49, .f32⟩
  | 34 => ⟨S49, .f32⟩
  | 35 => ⟨S49, .f32⟩
  | 36 => ⟨S1x49, .f32⟩
  | 37 => ⟨S100000x49, .f32⟩
  | 38 => ⟨S100000x49, .f32⟩
  | 39 => ⟨S1x49, .f32⟩
  | 40 => ⟨S100000x49, .f32⟩
  | 41 => ⟨S100000x49, .f32⟩
  | 42 => ⟨S_, .f32⟩
  | 43 => ⟨S100000x49, .f32⟩
  | 44 => ⟨S100000x49, .f32⟩
  | 45 => ⟨S_, .f32⟩
  | 46 => ⟨S100000x49, .f32⟩
  | 47 => ⟨S100000x49, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x49, .f32⟩
  | 57 => ⟨S_, .f32⟩
  | 58 => ⟨S100000x49, .f32⟩
  | 59 => ⟨S1600000x1, .i32⟩
  | 60 => ⟨S100000x49, .f32⟩
  | 61 => ⟨S1, .f32⟩
  | 62 => ⟨S_, .f32⟩
  | 63 => ⟨S_, .f32⟩
  | 64 => ⟨S_, .f32⟩
  | 65 => ⟨S100000x49, .f32⟩
  | 66 => ⟨S100000x49, .f32⟩
  | 67 => ⟨S100000x49, .f32⟩
  | 68 => ⟨S1x49x49, .f32⟩
  | 69 => ⟨S49x49, .f32⟩
  | 70 => ⟨S100000x49, .f32⟩
  | 71 => ⟨S1x49, .f32⟩
  | 72 => ⟨S49, .f32⟩
  | 73 => ⟨S1x49, .f32⟩
  | 74 => ⟨S100000x49, .f32⟩
  | 75 => ⟨S100000x49, .f32⟩
  | 76 => ⟨S1x49, .f32⟩
  | 77 => ⟨S49, .f32⟩
  | 78 => ⟨S1x49, .f32⟩
  | 79 => ⟨S49, .f32⟩
  | 80 => ⟨S_, .f32⟩
  | 81 => ⟨S49, .f32⟩
  | 82 => ⟨S_, .f32⟩
  | 83 => ⟨S49, .f32⟩
  | 84 => ⟨S49, .f32⟩
  | 85 => ⟨S_, .i32⟩
  | 86 => ⟨S_, .f32⟩
  | 87 => ⟨S49, .f32⟩
  | 88 => ⟨S1x49, .f32⟩
  | 89 => ⟨S_, .f32⟩
  | 90 => ⟨S1x49, .f32⟩
  | 91 => ⟨S1x49, .f32⟩
  | 92 => ⟨S100000x49, .f32⟩
  | 93 => ⟨S100000x49, .f32⟩
  | 94 => ⟨S100000x49, .f32⟩
  | 95 => ⟨S_, .f32⟩
  | 96 => ⟨S_, .f32⟩
  | 97 => ⟨S_, .f32⟩
  | 98 => ⟨S_, .f32⟩
  | 99 => ⟨S49, .f32⟩
  | 100 => ⟨S49, .f32⟩
  | 101 => ⟨S49, .f32⟩
  | 102 => ⟨S_, .f32⟩
  | 103 => ⟨S_, .i1⟩
  | 104 => ⟨S_, .f32⟩
  | 105 => ⟨S_, .f32⟩
  | 106 => ⟨S49, .f32⟩
  | 107 => ⟨S49, .f32⟩
  | 108 => ⟨S1x49, .f32⟩
  | 109 => ⟨S100000x49, .f32⟩
  | 110 => ⟨S100000x49, .f32⟩
  | 111 => ⟨S1x49, .f32⟩
  | 112 => ⟨S100000x49, .f32⟩
  | 113 => ⟨S100000x49, .f32⟩
  | 114 => ⟨S_, .f32⟩
  | 115 => ⟨S49, .f32⟩
  | 116 => ⟨S49, .f32⟩
  | 117 => ⟨S49, .f32⟩
  | 118 => ⟨S1x49, .f32⟩
  | 119 => ⟨S100000x49, .f32⟩
  | 120 => ⟨S100000x49, .f32⟩
  | 121 => ⟨S1x49, .f32⟩
  | 122 => ⟨S100000x49, .f32⟩
  | 123 => ⟨S100000x49, .f32⟩
  | 124 => ⟨S_, .f32⟩
  | 125 => ⟨S100000x49, .f32⟩
  | 126 => ⟨S100000x49, .f32⟩
  | 127 => ⟨S1x49x49, .f32⟩
  | _ => ⟨S100000x56, .f32⟩

abbrev hbmTy0_3 (i : Nat) : BufTy := match i % 128 with
  | 0 => ⟨S49x49, .f32⟩
  | 1 => ⟨S100000x49, .f32⟩
  | 2 => ⟨S1x49, .f32⟩
  | 3 => ⟨S49, .f32⟩
  | 4 => ⟨S1x49, .f32⟩
  | 5 => ⟨S100000x49, .f32⟩
  | 6 => ⟨S100000x49, .f32⟩
  | 7 => ⟨S1x49, .f32⟩
  | 8 => ⟨S49, .f32⟩
  | 9 => ⟨S1x49, .f32⟩
  | 10 => ⟨S49, .f32⟩
  | 11 => ⟨S_, .f32⟩
  | 12 => ⟨S49, .f32⟩
  | 13 => ⟨S_, .f32⟩
  | 14 => ⟨S49, .f32⟩
  | 15 => ⟨S49, .f32⟩
  | 16 => ⟨S_, .i32⟩
  | 17 => ⟨S_, .f32⟩
  | 18 => ⟨S49, .f32⟩
  | 19 => ⟨S1x49, .f32⟩
  | 20 => ⟨S_, .f32⟩
  | 21 => ⟨S1x49, .f32⟩
  | 22 => ⟨S1x49, .f32⟩
  | 23 => ⟨S100000x49, .f32⟩
  | 24 => ⟨S100000x49, .f32⟩
  | 25 => ⟨S100000x49, .f32⟩
  | 26 => ⟨S_, .f32⟩
  | 27 => ⟨S_, .f32⟩
  | 28 => ⟨S_, .f32⟩
  | 29 => ⟨S_, .f32⟩
  | 30 => ⟨S49, .f32⟩
  | 31 => ⟨S49, .f32⟩
  | 32 => ⟨S49, .f32⟩
  | 33 => ⟨S_, .f32⟩
  | 34 => ⟨S_, .i1⟩
  | 35 => ⟨S_, .f32⟩
  | 36 => ⟨S_, .f32⟩
  | 37 => ⟨S49, .f32⟩
  | 38 => ⟨S49, .f32⟩
  | 39 => ⟨S1x49, .f32⟩
  | 40 => ⟨S100000x49, .f32⟩
  | 41 => ⟨S100000x49, .f32⟩
  | 42 => ⟨S1x49, .f32⟩
  | 43 => ⟨S100000x49, .f32⟩
  | 44 => ⟨S100000x49, .f32⟩
  | 45 => ⟨S_, .f32⟩
  | 46 => ⟨S49, .f32⟩
  | 47 => ⟨S49, .f32⟩
  | 48 => ⟨S49, .f32⟩
  | 49 => ⟨S1x49, .f32⟩
  | 50 => ⟨S100000x49, .f32⟩
  | 51 => ⟨S100000x49, .f32⟩
  | 52 => ⟨S1x49, .f32⟩
  | 53 => ⟨S100000x49, .f32⟩
  | 54 => ⟨S100000x49, .f32⟩
  | 55 => ⟨S_, .f32⟩
  | 56 => ⟨S100000x49, .f32⟩
  | 57 => ⟨S100000x49, .f32⟩
  | 58 => ⟨S_, .f32⟩
  | 59 => ⟨S100000x49, .f32⟩
  | 60 => ⟨S100000x49, .f32⟩
  | 61 => ⟨S_, .f32⟩
  | 62 => ⟨S512x49, .f32⟩
  | 63 => ⟨S100000x1, .i32⟩
  | 64 => ⟨S512x49, .f32⟩
  | 65 => ⟨S_, .f32⟩
  | 66 => ⟨S100000, .f32⟩
  | 67 => ⟨S_, .f32⟩
  | 68 => ⟨S512, .f32⟩
  | 69 => ⟨S100000x1, .i32⟩
  | 70 => ⟨S512, .f32⟩
  | 71 => ⟨S_, .f32⟩
  | 72 => ⟨S_, .f32⟩
  | 73 => ⟨S512, .f32⟩
  | 74 => ⟨S512, .f32⟩
  | 75 => ⟨S512x1, .f32⟩
  | 76 => ⟨S512x49, .f32⟩
  | 77 => ⟨S512x49, .f32⟩
  | _ => ⟨S100000x56, .f32⟩

abbrev hbmTy (i : Nat) : BufTy := match i / 128 with
  | 0 => hbmTy0_0 i
  | 1 => hbmTy0_1 i
  | 2 => hbmTy0_2 i
  | 3 => hbmTy0_3 i
  | _ => ⟨S100000x56, .f32⟩

abbrev bufTy : (tb : Table) → Fin (tcTables nBuf tb) → BufTy
  | .hbm, ⟨i, _⟩ => hbmTy i
  | _, _ => ⟨S100000x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_cst_3 : Ref sig .tc := ⟨.hbm, 76, rfl⟩
abbrev main_call0_v12 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_5 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call1_cst : Ref sig .tc := ⟨.hbm, 98, rfl⟩
abbrev main_call1_v0 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_6 : Ref sig .tc := ⟨.hbm, 113, rfl⟩
abbrev main_v68 : Ref sig .tc := ⟨.hbm, 114, rfl⟩
abbrev main_cst_7 : Ref sig .tc := ⟨.hbm, 115, rfl⟩
abbrev main_v69 : Ref sig .tc := ⟨.hbm, 116, rfl⟩
abbrev main_v70 : Ref sig .tc := ⟨.hbm, 117, rfl⟩
abbrev main_c_8 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_cst_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_cst_1 : Ref sig .tc := ⟨.hbm, 129, rfl⟩
abbrev main_call2_v8 : Ref sig .tc := ⟨.hbm, 130, rfl⟩
abbrev main_call2_cst_2 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_cst_3 : Ref sig .tc := ⟨.hbm, 135, rfl⟩
abbrev main_call2_v12 : Ref sig .tc := ⟨.hbm, 136, rfl⟩
abbrev main_call2_cst_4 : Ref sig .tc := ⟨.hbm, 137, rfl⟩
abbrev main_call2_call0_v0 : Ref sig .tc := ⟨.hbm, 138, rfl⟩
abbrev main_call2_call0_v1 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_cst_9 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_call3_cst : Ref sig .tc := ⟨.hbm, 157, rfl⟩
abbrev main_call3_v0 : Ref sig .tc := ⟨.hbm, 158, rfl⟩
abbrev main_v87 : Ref sig .tc := ⟨.hbm, 159, rfl⟩
abbrev main_call4_cst : Ref sig .tc := ⟨.hbm, 160, rfl⟩
abbrev main_call4_v0 : Ref sig .tc := ⟨.hbm, 161, rfl⟩
abbrev main_v88 : Ref sig .tc := ⟨.hbm, 162, rfl⟩
abbrev main_c_10 : Ref sig .tc := ⟨.hbm, 163, rfl⟩
abbrev main_v89 : Ref sig .tc := ⟨.hbm, 164, rfl⟩
abbrev main_v90 : Ref sig .tc := ⟨.hbm, 165, rfl⟩
abbrev main_c_11 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_cst_12 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_cst_13 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_cst_14 : Ref sig .tc := ⟨.hbm, 195, rfl⟩
abbrev main_v117 : Ref sig .tc := ⟨.hbm, 196, rfl⟩
abbrev main_cst_15 : Ref sig .tc := ⟨.hbm, 197, rfl⟩
abbrev main_v118 : Ref sig .tc := ⟨.hbm, 198, rfl⟩
abbrev main_v119 : Ref sig .tc := ⟨.hbm, 199, rfl⟩
abbrev main_c_16 : Ref sig .tc := ⟨.hbm, 200, rfl⟩
abbrev main_call5_cst : Ref sig .tc := ⟨.hbm, 201, rfl⟩
abbrev main_call5_v0 : Ref sig .tc := ⟨.hbm, 202, rfl⟩
abbrev main_call5_v1 : Ref sig .tc := ⟨.hbm, 203, rfl⟩
abbrev main_call5_cst_0 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_call5_v5 : Ref sig .tc := ⟨.hbm, 208, rfl⟩
abbrev main_call5_v6 : Ref sig .tc := ⟨.hbm, 209, rfl⟩
abbrev main_call5_v7 : Ref sig .tc := ⟨.hbm, 210, rfl⟩
abbrev main_call5_cst_1 : Ref sig .tc := ⟨.hbm, 211, rfl⟩
abbrev main_call5_v8 : Ref sig .tc := ⟨.hbm, 212, rfl⟩
abbrev main_call5_cst_2 : Ref sig .tc := ⟨.hbm, 213, rfl⟩
abbrev main_call5_v9 : Ref sig .tc := ⟨.hbm, 214, rfl⟩
abbrev main_call5_v10 : Ref sig .tc := ⟨.hbm, 215, rfl⟩
abbrev main_call5_v11 : Ref sig .tc := ⟨.hbm, 216, rfl⟩
abbrev main_call5_cst_3 : Ref sig .tc := ⟨.hbm, 217, rfl⟩
abbrev main_call5_v12 : Ref sig .tc := ⟨.hbm, 218, rfl⟩
abbrev main_call5_cst_4 : Ref sig .tc := ⟨.hbm, 219, rfl⟩
abbrev main_call5_call0_v0 : Ref sig .tc := ⟨.hbm, 220, rfl⟩
abbrev main_call5_call0_v1 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_cst_17 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_call6_cst : Ref sig .tc := ⟨.hbm, 239, rfl⟩
abbrev main_call6_v0 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_cst_18 : Ref sig .tc := ⟨.hbm, 254, rfl⟩
abbrev main_v149 : Ref sig .tc := ⟨.hbm, 255, rfl⟩
abbrev main_cst_19 : Ref sig .tc := ⟨.hbm, 256, rfl⟩
abbrev main_v150 : Ref sig .tc := ⟨.hbm, 257, rfl⟩
abbrev main_v151 : Ref sig .tc := ⟨.hbm, 258, rfl⟩
abbrev main_c_20 : Ref sig .tc := ⟨.hbm, 259, rfl⟩
abbrev main_call7_cst : Ref sig .tc := ⟨.hbm, 260, rfl⟩
abbrev main_call7_v0 : Ref sig .tc := ⟨.hbm, 261, rfl⟩
abbrev main_call7_v1 : Ref sig .tc := ⟨.hbm, 262, rfl⟩
abbrev main_call7_cst_0 : Ref sig .tc := ⟨.hbm, 263, rfl⟩
abbrev main_call7_v2 : Ref sig .tc := ⟨.hbm, 264, rfl⟩
abbrev main_call7_v3 : Ref sig .tc := ⟨.hbm, 265, rfl⟩
abbrev main_call7_v4 : Ref sig .tc := ⟨.hbm, 266, rfl⟩
abbrev main_call7_v5 : Ref sig .tc := ⟨.hbm, 267, rfl⟩
abbrev main_call7_v6 : Ref sig .tc := ⟨.hbm, 268, rfl⟩
abbrev main_call7_v7 : Ref sig .tc := ⟨.hbm, 269, rfl⟩
abbrev main_call7_cst_1 : Ref sig .tc := ⟨.hbm, 270, rfl⟩
abbrev main_call7_v8 : Ref sig .tc := ⟨.hbm, 271, rfl⟩
abbrev main_call7_cst_2 : Ref sig .tc := ⟨.hbm, 272, rfl⟩
abbrev main_call7_v9 : Ref sig .tc := ⟨.hbm, 273, rfl⟩
abbrev main_call7_v10 : Ref sig .tc := ⟨.hbm, 274, rfl⟩
abbrev main_call7_v11 : Ref sig .tc := ⟨.hbm, 275, rfl⟩
abbrev main_call7_cst_3 : Ref sig .tc := ⟨.hbm, 276, rfl⟩
abbrev main_call7_v12 : Ref sig .tc := ⟨.hbm, 277, rfl⟩
abbrev main_call7_cst_4 : Ref sig .tc := ⟨.hbm, 278, rfl⟩
abbrev main_call7_call0_v0 : Ref sig .tc := ⟨.hbm, 279, rfl⟩
abbrev main_call7_call0_v1 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_cst_21 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_call8_cst : Ref sig .tc := ⟨.hbm, 298, rfl⟩
abbrev main_call8_v0 : Ref sig .tc := ⟨.hbm, 299, rfl⟩
abbrev main_v168 : Ref sig .tc := ⟨.hbm, 300, rfl⟩
abbrev main_call9_cst : Ref sig .tc := ⟨.hbm, 301, rfl⟩
abbrev main_call9_v0 : Ref sig .tc := ⟨.hbm, 302, rfl⟩
abbrev main_v169 : Ref sig .tc := ⟨.hbm, 303, rfl⟩
abbrev main_c_22 : Ref sig .tc := ⟨.hbm, 304, rfl⟩
abbrev main_v170 : Ref sig .tc := ⟨.hbm, 305, rfl⟩
abbrev main_v171 : Ref sig .tc := ⟨.hbm, 306, rfl⟩
abbrev main_c_23 : Ref sig .tc := ⟨.hbm, 307, rfl⟩
abbrev main_v172 : Ref sig .tc := ⟨.hbm, 308, rfl⟩
abbrev main_v173 : Ref sig .tc := ⟨.hbm, 309, rfl⟩
abbrev main_v174 : Ref sig .tc := ⟨.hbm, 310, rfl⟩
abbrev main_v175 : Ref sig .tc := ⟨.hbm, 311, rfl⟩
abbrev main_v176 : Ref sig .tc := ⟨.hbm, 312, rfl⟩
abbrev main_cst_24 : Ref sig .tc := ⟨.hbm, 313, rfl⟩
abbrev main_v177 : Ref sig .tc := ⟨.hbm, 314, rfl⟩
abbrev main_v178 : Ref sig .tc := ⟨.hbm, 315, rfl⟩
abbrev main_v179 : Ref sig .tc := ⟨.hbm, 316, rfl⟩
abbrev main_v180 : Ref sig .tc := ⟨.hbm, 317, rfl⟩
abbrev main_v181 : Ref sig .tc := ⟨.hbm, 318, rfl⟩
abbrev main_cst_25 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_cst_26 : Ref sig .tc := ⟨.hbm, 336, rfl⟩
abbrev main_v198 : Ref sig .tc := ⟨.hbm, 337, rfl⟩
abbrev main_cst_27 : Ref sig .tc := ⟨.hbm, 338, rfl⟩
abbrev main_v199 : Ref sig .tc := ⟨.hbm, 339, rfl⟩
abbrev main_v200 : Ref sig .tc := ⟨.hbm, 340, rfl⟩
abbrev main_c_28 : Ref sig .tc := ⟨.hbm, 341, rfl⟩
abbrev main_call10_cst : Ref sig .tc := ⟨.hbm, 342, rfl⟩
abbrev main_call10_v0 : Ref sig .tc := ⟨.hbm, 343, rfl⟩
abbrev main_call10_v1 : Ref sig .tc := ⟨.hbm, 344, rfl⟩
abbrev main_call10_cst_0 : Ref sig .tc := ⟨.hbm, 345, rfl⟩
abbrev main_call10_v2 : Ref sig .tc := ⟨.hbm, 346, rfl⟩
abbrev main_call10_v3 : Ref sig .tc := ⟨.hbm, 347, rfl⟩
abbrev main_call10_v4 : Ref sig .tc := ⟨.hbm, 348, rfl⟩
abbrev main_call10_v5 : Ref sig .tc := ⟨.hbm, 349, rfl⟩
abbrev main_call10_v6 : Ref sig .tc := ⟨.hbm, 350, rfl⟩
abbrev main_call10_v7 : Ref sig .tc := ⟨.hbm, 351, rfl⟩
abbrev main_call10_cst_1 : Ref sig .tc := ⟨.hbm, 352, rfl⟩
abbrev main_call10_v8 : Ref sig .tc := ⟨.hbm, 353, rfl⟩
abbrev main_call10_cst_2 : Ref sig .tc := ⟨.hbm, 354, rfl⟩
abbrev main_call10_v9 : Ref sig .tc := ⟨.hbm, 355, rfl⟩
abbrev main_call10_v10 : Ref sig .tc := ⟨.hbm, 356, rfl⟩
abbrev main_call10_v11 : Ref sig .tc := ⟨.hbm, 357, rfl⟩
abbrev main_call10_cst_3 : Ref sig .tc := ⟨.hbm, 358, rfl⟩
abbrev main_call10_v12 : Ref sig .tc := ⟨.hbm, 359, rfl⟩
abbrev main_call10_cst_4 : Ref sig .tc := ⟨.hbm, 360, rfl⟩
abbrev main_call10_call0_v0 : Ref sig .tc := ⟨.hbm, 361, rfl⟩
abbrev main_call10_call0_v1 : Ref sig .tc := ⟨.hbm, 362, rfl⟩
abbrev main_v201 : Ref sig .tc := ⟨.hbm, 363, rfl⟩
abbrev main_v202 : Ref sig .tc := ⟨.hbm, 364, rfl⟩
abbrev main_v203 : Ref sig .tc := ⟨.hbm, 365, rfl⟩
abbrev main_v204 : Ref sig .tc := ⟨.hbm, 366, rfl⟩
abbrev main_v205 : Ref sig .tc := ⟨.hbm, 367, rfl⟩
abbrev main_v206 : Ref sig .tc := ⟨.hbm, 368, rfl⟩
abbrev main_v207 : Ref sig .tc := ⟨.hbm, 369, rfl⟩
abbrev main_cst_29 : Ref sig .tc := ⟨.hbm, 370, rfl⟩
abbrev main_v208 : Ref sig .tc := ⟨.hbm, 371, rfl⟩
abbrev main_v209 : Ref sig .tc := ⟨.hbm, 372, rfl⟩
abbrev main_v210 : Ref sig .tc := ⟨.hbm, 373, rfl⟩
abbrev main_v211 : Ref sig .tc := ⟨.hbm, 374, rfl⟩
abbrev main_v212 : Ref sig .tc := ⟨.hbm, 375, rfl⟩
abbrev main_v213 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_call11_cst : Ref sig .tc := ⟨.hbm, 380, rfl⟩
abbrev main_call11_v0 : Ref sig .tc := ⟨.hbm, 381, rfl⟩
abbrev main_v217 : Ref sig .tc := ⟨.hbm, 382, rfl⟩
abbrev main_v218 : Ref sig .tc := ⟨.hbm, 383, rfl⟩
abbrev main_v219 : Ref sig .tc := ⟨.hbm, 384, rfl⟩
abbrev main_v220 : Ref sig .tc := ⟨.hbm, 385, rfl⟩
abbrev main_v221 : Ref sig .tc := ⟨.hbm, 386, rfl⟩
abbrev main_v222 : Ref sig .tc := ⟨.hbm, 387, rfl⟩
abbrev main_v223 : Ref sig .tc := ⟨.hbm, 388, rfl⟩
abbrev main_v224 : Ref sig .tc := ⟨.hbm, 389, rfl⟩
abbrev main_v225 : Ref sig .tc := ⟨.hbm, 390, rfl⟩
abbrev main_v226 : Ref sig .tc := ⟨.hbm, 391, rfl⟩
abbrev main_v227 : Ref sig .tc := ⟨.hbm, 392, rfl⟩
abbrev main_v228 : Ref sig .tc := ⟨.hbm, 393, rfl⟩
abbrev main_v229 : Ref sig .tc := ⟨.hbm, 394, rfl⟩
abbrev main_cst_30 : Ref sig .tc := ⟨.hbm, 395, rfl⟩
abbrev main_v230 : Ref sig .tc := ⟨.hbm, 396, rfl⟩
abbrev main_cst_31 : Ref sig .tc := ⟨.hbm, 397, rfl⟩
abbrev main_v231 : Ref sig .tc := ⟨.hbm, 398, rfl⟩
abbrev main_v232 : Ref sig .tc := ⟨.hbm, 399, rfl⟩
abbrev main_c_32 : Ref sig .tc := ⟨.hbm, 400, rfl⟩
abbrev main_call12_cst : Ref sig .tc := ⟨.hbm, 401, rfl⟩
abbrev main_call12_v0 : Ref sig .tc := ⟨.hbm, 402, rfl⟩
abbrev main_call12_v1 : Ref sig .tc := ⟨.hbm, 403, rfl⟩
abbrev main_call12_cst_0 : Ref sig .tc := ⟨.hbm, 404, rfl⟩
abbrev main_call12_v2 : Ref sig .tc := ⟨.hbm, 405, rfl⟩
abbrev main_call12_v3 : Ref sig .tc := ⟨.hbm, 406, rfl⟩
abbrev main_call12_v4 : Ref sig .tc := ⟨.hbm, 407, rfl⟩
abbrev main_call12_v5 : Ref sig .tc := ⟨.hbm, 408, rfl⟩
abbrev main_call12_v6 : Ref sig .tc := ⟨.hbm, 409, rfl⟩
abbrev main_call12_v7 : Ref sig .tc := ⟨.hbm, 410, rfl⟩
abbrev main_call12_cst_1 : Ref sig .tc := ⟨.hbm, 411, rfl⟩
abbrev main_call12_v8 : Ref sig .tc := ⟨.hbm, 412, rfl⟩
abbrev main_call12_cst_2 : Ref sig .tc := ⟨.hbm, 413, rfl⟩
abbrev main_call12_v9 : Ref sig .tc := ⟨.hbm, 414, rfl⟩
abbrev main_call12_v10 : Ref sig .tc := ⟨.hbm, 415, rfl⟩
abbrev main_call12_v11 : Ref sig .tc := ⟨.hbm, 416, rfl⟩
abbrev main_call12_cst_3 : Ref sig .tc := ⟨.hbm, 417, rfl⟩
abbrev main_call12_v12 : Ref sig .tc := ⟨.hbm, 418, rfl⟩
abbrev main_call12_cst_4 : Ref sig .tc := ⟨.hbm, 419, rfl⟩
abbrev main_call12_call0_v0 : Ref sig .tc := ⟨.hbm, 420, rfl⟩
abbrev main_call12_call0_v1 : Ref sig .tc := ⟨.hbm, 421, rfl⟩
abbrev main_v233 : Ref sig .tc := ⟨.hbm, 422, rfl⟩
abbrev main_v234 : Ref sig .tc := ⟨.hbm, 423, rfl⟩
abbrev main_v235 : Ref sig .tc := ⟨.hbm, 424, rfl⟩
abbrev main_v236 : Ref sig .tc := ⟨.hbm, 425, rfl⟩
abbrev main_v237 : Ref sig .tc := ⟨.hbm, 426, rfl⟩
abbrev main_v238 : Ref sig .tc := ⟨.hbm, 427, rfl⟩
abbrev main_v239 : Ref sig .tc := ⟨.hbm, 428, rfl⟩
abbrev main_cst_33 : Ref sig .tc := ⟨.hbm, 429, rfl⟩
abbrev main_v240 : Ref sig .tc := ⟨.hbm, 430, rfl⟩
abbrev main_v241 : Ref sig .tc := ⟨.hbm, 431, rfl⟩
abbrev main_v242 : Ref sig .tc := ⟨.hbm, 432, rfl⟩
abbrev main_v243 : Ref sig .tc := ⟨.hbm, 433, rfl⟩
abbrev main_v244 : Ref sig .tc := ⟨.hbm, 434, rfl⟩
abbrev main_v245 : Ref sig .tc := ⟨.hbm, 435, rfl⟩
abbrev main_v246 : Ref sig .tc := ⟨.hbm, 436, rfl⟩
abbrev main_v247 : Ref sig .tc := ⟨.hbm, 437, rfl⟩
abbrev main_v248 : Ref sig .tc := ⟨.hbm, 438, rfl⟩
abbrev main_call13_cst : Ref sig .tc := ⟨.hbm, 439, rfl⟩
abbrev main_call13_v0 : Ref sig .tc := ⟨.hbm, 440, rfl⟩
abbrev main_v249 : Ref sig .tc := ⟨.hbm, 441, rfl⟩
abbrev main_call14_cst : Ref sig .tc := ⟨.hbm, 442, rfl⟩
abbrev main_call14_v0 : Ref sig .tc := ⟨.hbm, 443, rfl⟩
abbrev main_v250 : Ref sig .tc := ⟨.hbm, 444, rfl⟩
abbrev main_cst_34 : Ref sig .tc := ⟨.hbm, 445, rfl⟩
abbrev main_v251 : Ref sig .tc := ⟨.hbm, 446, rfl⟩
abbrev main_v252 : Ref sig .tc := ⟨.hbm, 447, rfl⟩
abbrev main_v253 : Ref sig .tc := ⟨.hbm, 448, rfl⟩
abbrev main_cst_35 : Ref sig .tc := ⟨.hbm, 449, rfl⟩
abbrev main_v254 : Ref sig .tc := ⟨.hbm, 450, rfl⟩
abbrev main_cst_36 : Ref sig .tc := ⟨.hbm, 451, rfl⟩
abbrev main_v255 : Ref sig .tc := ⟨.hbm, 452, rfl⟩
abbrev main_v256 : Ref sig .tc := ⟨.hbm, 453, rfl⟩
abbrev main_v257 : Ref sig .tc := ⟨.hbm, 454, rfl⟩
abbrev main_cst_37 : Ref sig .tc := ⟨.hbm, 455, rfl⟩
abbrev main_call15_v0 : Ref sig .tc := ⟨.hbm, 456, rfl⟩
abbrev main_call15_v1 : Ref sig .tc := ⟨.hbm, 457, rfl⟩
abbrev main_v258 : Ref sig .tc := ⟨.hbm, 458, rfl⟩
abbrev main_v259 : Ref sig .tc := ⟨.hbm, 459, rfl⟩
abbrev main_v260 : Ref sig .tc := ⟨.hbm, 460, rfl⟩
abbrev main_v261 : Ref sig .tc := ⟨.hbm, 461, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S49_S1x49_1 : S49.BroadcastsInDim S1x49 (![1] : Fin 1 → Fin S1x49.rank)
  bcast_S1x49_S100000x49_0_1 : S1x49.BroadcastsInDim S100000x49 (![0, 1] : Fin 2 → Fin S100000x49.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x49 : S_.BroadcastsInDim S100000x49 (![] : Fin 0 → Fin S100000x49.rank)
  slices_S3_S1_0 : S3.Slices ![0] S1
  shapeCasts_S1_S_ : S1.ShapeCasts S_
  slices_S3x49x49_S1x49x49_0_0_0 : S3x49x49.Slices ![0, 0, 0] S1x49x49
  shapeCasts_S1x49x49_S49x49 : S1x49x49.ShapeCasts S49x49
  slices_S3x49_S1x49_0_0 : S3x49.Slices ![0, 0] S1x49
  shapeCasts_S1x49_S49 : S1x49.ShapeCasts S49
  reducesTo_S100000x49_S49_d0 : S100000x49.ReducesTo [0] S49
  h_S_ : 0 < S_.numel
  bcast_S_S49 : S_.BroadcastsInDim S49 (![] : Fin 0 → Fin S49.rank)
  bcast_S_S1x49 : S_.BroadcastsInDim S1x49 (![] : Fin 0 → Fin S1x49.rank)
  slices_S3_S1_1 : S3.Slices ![1] S1
  slices_S3x49x49_S1x49x49_1_0_0 : S3x49x49.Slices ![1, 0, 0] S1x49x49
  slices_S3x49_S1x49_1_0 : S3x49.Slices ![1, 0] S1x49
  slices_S3_S1_2 : S3.Slices ![2] S1
  slices_S3x49x49_S1x49x49_2_0_0 : S3x49x49.Slices ![2, 0, 0] S1x49x49
  slices_S3x49_S1x49_2_0 : S3x49.Slices ![2, 0] S1x49
  bcast_S_S512x49 : S_.BroadcastsInDim S512x49 (![] : Fin 0 → Fin S512x49.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x49_0_1 : S512x1.BroadcastsInDim S512x49 (![0, 1] : Fin 2 → Fin S512x49.rank)
  dot_S100000x56_S56x49_S100000x49_1_0_0_1_n_n_wf : DotDims.WF S100000x56 S56x49 S100000x49 [1] [0] [0] [1] [] []
  gather_S100000x49_S1600000x1_S1600000x49_1_0_n_n_0_1_149_wf : GatherDims.WF S100000x49 S1600000x1 S1600000x49 [1] [0] [] [0] [] 1 ![1, 49]
  scatter_S100000x49_S1600000x1_S1600000x49_1_0_0_1_wf : ScatterDims.WF S100000x49 S1600000x1 S1600000x49 [1] [0] [0] 1
  dot_S100000x49_S49x49_S100000x49_1_0_0_1_n_n_wf : DotDims.WF S100000x49 S49x49 S100000x49 [1] [0] [0] [1] [] []
  scatter_S512x49_S100000x1_S100000x49_1_0_0_1_wf : ScatterDims.WF S512x49 S100000x1 S100000x49 [1] [0] [0] 1
  scatter_S512_S100000x1_S100000_n_0_0_1_wf : ScatterDims.WF S512 S100000x1 S100000 [] [0] [0] 1

variable [Facts₀]

def dot_S100000x56_S56x49_S100000x49_1_0_0_1_n_n : DotDims S100000x56 S56x49 S100000x49 where
  lhsContracting := [1]
  rhsContracting := [0]
  lhsNonContracting := [0]
  rhsNonContracting := [1]
  lhsBatch := []
  rhsBatch := []
  wf := dot_S100000x56_S56x49_S100000x49_1_0_0_1_n_n_wf
def gather_S100000x49_S1600000x1_S1600000x49_1_0_n_n_0_1_149 : GatherDims S100000x49 S1600000x1 S1600000x49 where
  offsetDims := [1]
  collapsedSliceDims := [0]
  operandBatchingDims := []
  startIndicesBatchingDims := []
  startIndexMap := [0]
  indexVectorDim := 1
  sliceSizes := ![1, 49]
  wf := gather_S100000x49_S1600000x1_S1600000x49_1_0_n_n_0_1_149_wf
def scatter_S100000x49_S1600000x1_S1600000x49_1_0_0_1 : ScatterDims S100000x49 S1600000x1 S1600000x49 where
  updateWindowDims := [1]
  insertedWindowDims := [0]
  scatterDimsToOperandDims := [0]
  indexVectorDim := 1
  wf := scatter_S100000x49_S1600000x1_S1600000x49_1_0_0_1_wf
def dot_S100000x49_S49x49_S100000x49_1_0_0_1_n_n : DotDims S100000x49 S49x49 S100000x49 where
  lhsContracting := [1]
  rhsContracting := [0]
  lhsNonContracting := [0]
  rhsNonContracting := [1]
  lhsBatch := []
  rhsBatch := []
  wf := dot_S100000x49_S49x49_S100000x49_1_0_0_1_n_n_wf
def scatter_S512x49_S100000x1_S100000x49_1_0_0_1 : ScatterDims S512x49 S100000x1 S100000x49 where
  updateWindowDims := [1]
  insertedWindowDims := [0]
  scatterDimsToOperandDims := [0]
  indexVectorDim := 1
  wf := scatter_S512x49_S100000x1_S100000x49_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.Spec.lean ====
/- The network both programs compute, on extended reals: a linear input layer, three rounds (neighbour sum, then two linear maps each normalised over all rows and rectified), and the mean of the rows of each graph. -/
import Idealize.ShloMosaic.PureOps.Ideal
import Idealize.ShloMosaic.Lib.ValueIdx

noncomputable section

namespace GIN

open Idealize.ShloMosaic Idealize.ShloMosaic.ValueIdx

abbrev Arr (s : Shape) := s.Idx → EReal

abbrev SX : Shape := ⟨2, ![100000, 56]⟩
abbrev SW0 : Shape := ⟨2, ![56, 49]⟩
abbrev SB : Shape := ⟨1, ![49]⟩
abbrev SW : Shape := ⟨3, ![3, 49, 49]⟩
abbrev SP : Shape := ⟨2, ![3, 49]⟩
abbrev SE : Shape := ⟨1, ![3]⟩
abbrev SEI : Shape := ⟨2, ![2, 1600000]⟩
abbrev SBT : Shape := ⟨1, ![100000]⟩
abbrev SH : Shape := ⟨2, ![100000, 49]⟩
abbrev SM : Shape := ⟨2, ![49, 49]⟩
abbrev SR : Shape := ⟨2, ![1, 49]⟩
abbrev SO : Shape := ⟨2, ![512, 49]⟩
abbrev SC : Shape := ⟨2, ![1, 512]⟩
abbrev SEdge : Shape := ⟨1, ![1600000]⟩
abbrev SEdge1 : Shape := ⟨2, ![1600000, 1]⟩
abbrev SMsg : Shape := ⟨2, ![1600000, 49]⟩
abbrev SBT1 : Shape := ⟨2, ![100000, 1]⟩
abbrev S0 : Shape := ⟨0, ![]⟩

def cN : EReal := Ideal.ofBits .f32 0x47C35000#32
def cEps : EReal := Ideal.ofBits .f32 0x3727C5AC#32
def cOne : EReal := Ideal.ofBits .f32 0x3F800000#32
def cZero : EReal := Ideal.ofBits .f32 0x00000000#32

def lin {K : Nat} (z : Arr ⟨2, ![100000, K]⟩) (w : Arr ⟨2, ![K, 49]⟩) (b : Fin 49 → EReal) : Arr SH :=
  fun i => (∑ k : Fin K, z (ix2 (i 0) k) * w (ix2 k (i 1))) + b (i 1)

def csum (a : Arr SH) : Fin 49 → EReal := fun d => ∑ r : Fin 100000, a (ix2 r d)

def csumsq (a : Arr SH) : Fin 49 → EReal := fun d => ∑ r : Fin 100000, a (ix2 r d) * a (ix2 r d)

def mean (a : Arr SH) : Fin 49 → EReal := fun d => Ideal.div (csum a d) cN

def varK (a : Arr SH) : Fin 49 → EReal := fun d => Ideal.div (csumsq a d) cN - mean a d * mean a d

def varR (a : Arr SH) : Fin 49 → EReal :=
  fun d => Ideal.div (∑ r : Fin 100000, (a (ix2 r d) - mean a d) * (a (ix2 r d) - mean a d)) cN

def istd (v : Fin 49 → EReal) : Fin 49 → EReal := fun d => Ideal.rsqrt (v d + cEps)

def bnrelu (a : Arr SH) (mu s g be : Fin 49 → EReal) : Arr SH :=
  fun i => max (g (i 1) * (a i - mu (i 1)) * s (i 1) + be (i 1)) cZero

def sliceW (l : Fin 3) (W : Arr SW) : Arr SM := fun i => W (ix3 l (i 0) (i 1))
def sliceP (l : Fin 3) (p : Arr SP) : Fin 49 → EReal := fun d => p (ix2 l d)
def sliceE (l : Fin 3) (e : Arr SE) : EReal := e (ix1 l)

def gDims : GatherDims SH SEdge1 SMsg where
  offsetDims := [1]
  collapsedSliceDims := [0]
  operandBatchingDims := []
  startIndicesBatchingDims := []
  startIndexMap := [0]
  indexVectorDim := 1
  sliceSizes := ![1, 49]
  wf := by decide

def sDims : ScatterDims SH SEdge1 SMsg where
  updateWindowDims := [1]
  insertedWindowDims := [0]
  scatterDimsToOperandDims := [0]
  indexVectorDim := 1
  wf := by decide

def edgeRow (k : Fin 2) (ei : IVec SEI 32) : IVec SEdge 32 := fun i => ei (ix2 k (i 0))

def srcNorm (src : IVec SEdge 32) : IVec SEdge1 32 :=
  fun i => Scalar.select (IntOp.cmpi .slt (src (ix1 (i 0))) 0#32) (src (ix1 (i 0)) + 100000#32) (src (ix1 (i 0)))

def agg (h : Arr SH) (src dst : IVec SEdge 32) : Arr SH :=
  Ideal.hostScatterAdd sDims (fun _ => cZero) (fun i => dst (ix1 (i 0))) (Host.gather gDims h (srcNorm src))

def gin (h : Arr SH) (src dst : IVec SEdge 32) (e : EReal) : Arr SH :=
  fun i => (cOne + e) * h i + agg h src dst i

def block (v : Arr SH → Fin 49 → EReal) (z : Arr SH) (w : Arr SM) (b g be : Fin 49 → EReal) : Arr SH :=
  bnrelu (lin z w b) (mean (lin z w b)) (istd (v (lin z w b))) g be

def roundK (l : Fin 3) (h : Arr SH) (W1 : Arr SW) (b1 g1 be1 : Arr SP) (W2 : Arr SW) (b2 g2 be2 : Arr SP) (e : Arr SE)
    (src dst : IVec SEdge 32) : Arr SH :=
  block varK (block varK (gin h src dst (sliceE l e)) (sliceW l W1) (sliceP l b1) (sliceP l g1) (sliceP l be1))
    (sliceW l W2) (sliceP l b2) (sliceP l g2) (sliceP l be2)

def roundR (l : Fin 3) (h : Arr SH) (W1 : Arr SW) (b1 g1 be1 : Arr SP) (W2 : Arr SW) (b2 g2 be2 : Arr SP) (e : Arr SE)
    (src dst : IVec SEdge 32) : Arr SH :=
  fun i => max (block varR (block varR (gin h src dst (sliceE l e)) (sliceW l W1) (sliceP l b1) (sliceP l g1) (sliceP l be1))
    (sliceW l W2) (sliceP l b2) (sliceP l g2) (sliceP l be2) i) cZero

def onehot (batch : IVec SBT 32) (t : Fin 100000) (g : Fin 512) : EReal :=
  if batch (ix1 t) = BitVec.ofNat 32 g.val then cOne else cZero

def poolK (h : Arr SH) (batch : IVec SBT 32) : Arr SO :=
  fun i => Ideal.div (∑ t : Fin 100000, onehot batch t (i 0) * h (ix2 t (i 1)))
    (max cOne (∑ t : Fin 100000, onehot batch t (i 0)))

def pDims : ScatterDims SO SBT1 SH where
  updateWindowDims := [1]
  insertedWindowDims := [0]
  scatterDimsToOperandDims := [0]
  indexVectorDim := 1
  wf := by decide

def cDims : ScatterDims ⟨1, ![512]⟩ SBT1 SBT where
  updateWindowDims := []
  insertedWindowDims := [0]
  scatterDimsToOperandDims := [0]
  indexVectorDim := 1
  wf := by decide

def poolR (h : Arr SH) (batch : IVec SBT 32) : Arr SO :=
  fun i => Ideal.div (Ideal.hostScatterAdd pDims (fun _ => cZero) (fun j => batch (ix1 (j 0))) h i)
    (max cOne (Ideal.hostScatterAdd cDims (fun _ => cZero) (fun j => batch (ix1 (j 0))) (fun _ => cOne) (ix1 (i 0))))

def h0 (x : Arr SX) (W0 : Arr SW0) (b0 : Arr SB) : Arr SH := lin x W0 (fun d => b0 (ix1 d))

def netK (x : Arr SX) (W0 : Arr SW0) (b0 : Arr SB) (W1 : Arr SW) (b1 g1 be1 : Arr SP) (W2 : Arr SW) (b2 g2 be2 : Arr SP)
    (e : Arr SE) (ei : IVec SEI 32) (batch : IVec SBT 32) : Arr SO :=
  poolK (roundK 2 (roundK 1 (roundK 0 (h0 x W0 b0) W1 b1 g1 be1 W2 b2 g2 be2 e (edgeRow 0 ei) (edgeRow 1 ei))
    W1 b1 g1 be1 W2 b2 g2 be2 e (edgeRow 0 ei) (edgeRow 1 ei)) W1 b1 g1 be1 W2 b2 g2 be2 e (edgeRow 0 ei) (edgeRow 1 ei)) batch

def netR (x : Arr SX) (W0 : Arr SW0) (b0 : Arr SB) (W1 : Arr SW) (b1 g1 be1 : Arr SP) (W2 : Arr SW) (b2 g2 be2 : Arr SP)
    (e : Arr SE) (ei : IVec SEI 32) (batch : IVec SBT 32) : Arr SO :=
  poolR (roundR 2 (roundR 1 (roundR 0 (h0 x W0 b0) W1 b1 g1 be1 W2 b2 g2 be2 e (edgeRow 0 ei) (edgeRow 1 ei))
    W1 b1 g1 be1 W2 b2 g2 be2 e (edgeRow 0 ei) (edgeRow 1 ei)) W1 b1 g1 be1 W2 b2 g2 be2 e (edgeRow 0 ei) (edgeRow 1 ei)) batch

def IsReal {s : Shape} (a : Arr s) : Prop := ∀ i, a i ≠ ⊤ ∧ a i ≠ ⊥

end GIN

end
-- ==== Proof.KLin.lean ====
/- The first region leaves x·W0 + b0 in its output, block of rows by block of rows. -/
import proofs.«425467_j63101659513266_1_alg».proof.Proof.Gen.KernelIdeal.Frame
import proofs.«425467_j63101659513266_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem lin0_off : (![0, 0] : Fin 2 → Nat) = fun _ => 0 := funext fun a => by fin_cases a <;> rfl

theorem lin0_lhs_0 (i : S5000x49.Idx) (q : dot_S5000x56_S56x49_S5000x49_1_0_0_1_n_n.contr.Idx) :
    (dot_S5000x56_S56x49_S5000x49_1_0_0_1_n_n.lhsIdx i q 0).val = (i 0).val := by
  unfold DotDims.lhsIdx
  rw [dif_neg (show ¬(0 : Fin S5000x56.rank) ∈ dot_S5000x56_S56x49_S5000x49_1_0_0_1_n_n.lhsBatch by decide), dif_pos (show (0 : Fin S5000x56.rank) ∈ dot_S5000x56_S56x49_S5000x49_1_0_0_1_n_n.lhsNonContracting by decide)]
  rfl

theorem lin0_lhs_1 (i : S5000x49.Idx) (q : dot_S5000x56_S56x49_S5000x49_1_0_0_1_n_n.contr.Idx) :
    (dot_S5000x56_S56x49_S5000x49_1_0_0_1_n_n.lhsIdx i q 1).val = (q ⟨0, by decide⟩).val :=
  dot_S5000x56_S56x49_S5000x49_1_0_0_1_n_n.lhsIdx_val_of_single rfl i q

theorem lin0_rhs_0 (i : S5000x49.Idx) (q : dot_S5000x56_S56x49_S5000x49_1_0_0_1_n_n.contr.Idx) :
    (dot_S5000x56_S56x49_S5000x49_1_0_0_1_n_n.rhsIdx i q 0).val = (q ⟨0, by decide⟩).val :=
  dot_S5000x56_S56x49_S5000x49_1_0_0_1_n_n.rhsIdx_val_of_single rfl i q

theorem lin0_rhs_1 (i : S5000x49.Idx) (q : dot_S5000x56_S56x49_S5000x49_1_0_0_1_n_n.contr.Idx) :
    (dot_S5000x56_S56x49_S5000x49_1_0_0_1_n_n.rhsIdx i q 1).val = (i 1).val := by
  unfold DotDims.rhsIdx
  rw [dif_neg (show ¬(1 : Fin S56x49.rank) ∈ dot_S5000x56_S56x49_S5000x49_1_0_0_1_n_n.rhsBatch by decide), dif_pos (show (1 : Fin S56x49.rank) ∈ dot_S5000x56_S56x49_S5000x49_1_0_0_1_n_n.rhsNonContracting by decide)]
  rfl

theorem lin0_mm (x : FVec Ideal S5000x56 .bf16) (w : FVec Ideal S56x49 .bf16) (p : Fin 5000) (q : Fin 49) :
    matmul dot_S5000x56_S56x49_S5000x49_1_0_0_1_n_n none x w (constant (F := Ideal) S5000x49 .f32 0x00000000#32) (ix2 p q)
      = ∑ k : Fin 56, x (ix2 p k) * w (ix2 k q) := by
  simp only [matmul]
  rw [Ideal.matmul_constant_zero_apply, ← Equiv.sum_comp (contrEquiv1 dot_S5000x56_S56x49_S5000x49_1_0_0_1_n_n 56 rfl rfl).symm]
  refine Finset.sum_congr rfl fun k _ => ?_
  have hk := contrEquiv1_symm_val dot_S5000x56_S56x49_S5000x49_1_0_0_1_n_n 56 rfl rfl k
  have el : dot_S5000x56_S56x49_S5000x49_1_0_0_1_n_n.lhsIdx (ix2 p q) ((contrEquiv1 dot_S5000x56_S56x49_S5000x49_1_0_0_1_n_n 56 rfl rfl).symm k) = ix2 p k := funext fun a => Fin.ext (by
    match a with
    | ⟨0, _⟩ => exact lin0_lhs_0 _ _
    | ⟨1, _⟩ => exact (lin0_lhs_1 _ _).trans hk)
  have er : dot_S5000x56_S56x49_S5000x49_1_0_0_1_n_n.rhsIdx (ix2 p q) ((contrEquiv1 dot_S5000x56_S56x49_S5000x49_1_0_0_1_n_n 56 rfl rfl).symm k) = ix2 k q := funext fun a => Fin.ext (by
    match a with
    | ⟨0, _⟩ => exact (lin0_rhs_0 _ _).trans hk
    | ⟨1, _⟩ => exact lin0_rhs_1 _ _)
  rw [el, er]

theorem lin0_pay (x : Vec Ideal S5000x56 .f32) (w : Vec Ideal S56x49 .f32) (b : Vec Ideal S1x49 .f32) (p : Fin 5000) (q : Fin 49) :
    k0_pay1 (F := Ideal) x w b (ix2 p q) = (∑ k : Fin 56, x (ix2 p k) * w (ix2 k q)) + b (ix2 0 q) := by
  unfold k0_pay1
  simp only [addf_apply, shapeCast_self, broadcastTo_1b_ab_apply]
  refine congrArg (· + b (ix2 0 q)) ?_
  exact lin0_mm _ _ p q

theorem lin0_pay_at (x : Vec Ideal S5000x56 .f32) (w : Vec Ideal S56x49 .f32) (b : Vec Ideal S1x49 .f32) (p : Fin 5000) (q : Fin 49)
    (X : S100000x56.Idx → EReal) (W : S56x49.Idx → EReal) (B : S1x49.Idx → EReal) (r : Fin 100000)
    (hx : ∀ k : Fin 56, x (ix2 p k) = X (ix2 r k)) (hw : ∀ k : Fin 56, w (ix2 k q) = W (ix2 k q)) (hb : b (ix2 0 q) = B (ix2 0 q)) :
    k0_pay1 (F := Ideal) x w b (ix2 p q) = (∑ k : Fin 56, X (ix2 r k) * W (ix2 k q)) + B (ix2 0 q) := by
  rw [lin0_pay, hb]
  exact congrArg (· + B (ix2 0 q)) (Finset.sum_congr rfl fun k _ => by rw [hx k, hw k])

theorem lin0_spec (z : GIN.Arr ⟨2, ![100000, 56]⟩) (w : GIN.Arr ⟨2, ![56, 49]⟩) (b : Fin 49 → EReal) (r : Fin 100000) (q : Fin 49) :
    GIN.lin z w b (ix2 r q) = (∑ kk : Fin 56, z (ix2 r kk) * w (ix2 kk q)) + b q := rfl

theorem lin0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lin0_read0 (c : Dev nD) (t : Fin cfg0.N) (p : Fin 5000) (k : Fin 56) (r : Fin 100000)
    (hr : r.val = 5000 * t.val + p.val) :
    (iblk0 V c 0 t : Vec Ideal S5000x56 .f32) (ix2 p k) = (V c (Pipeline.arrRef spec0 0) : S100000x56.Idx → EReal) (ix2 r k) := by
  obtain ⟨e0, e1, -⟩ := lin0_idx t
  show V c (Pipeline.arrRef spec0 0) (((cfg0.win 0).blk t).view.emb (ix2 p k)) = V c (Pipeline.arrRef spec0 0) (ix2 r k)
  refine congrArg _ ?_
  funext a
  apply Fin.ext
  match a with
  | ⟨0, _⟩ => show win0_0.index t (0 : Fin 2) * 5000 + 1 * p.val = r.val; omega
  | ⟨1, _⟩ => show win0_0.index t (1 : Fin 2) * 56 + 1 * k.val = k.val; omega

theorem lin0_read1 (c : Dev nD) (t : Fin cfg0.N) (k : Fin 56) (q : Fin 49) :
    (iblk0 V c 1 t : Vec Ideal S56x49 .f32) (ix2 k q) = (V c (Pipeline.arrRef spec0 1) : S56x49.Idx → EReal) (ix2 k q) := by
  obtain ⟨-, -, e0, e1, -⟩ := lin0_idx t
  show V c (Pipeline.arrRef spec0 1) (((cfg0.win 1).blk t).view.emb (ix2 k q)) = V c (Pipeline.arrRef spec0 1) (ix2 k q)
  refine congrArg _ ?_
  funext a
  apply Fin.ext
  match a with
  | ⟨0, _⟩ => show win0_1.index t (0 : Fin 2) * 56 + 1 * k.val = k.val; omega
  | ⟨1, _⟩ => show win0_1.index t (1 : Fin 2) * 49 + 1 * q.val = q.val; omega

theorem lin0_read2 (c : Dev nD) (t : Fin cfg0.N) (q : Fin 49) :
    (iblk0 V c 2 t : Vec Ideal S1x49 .f32) (ix2 0 q) = (V c (Pipeline.arrRef spec0 2) : S1x49.Idx → EReal) (ix2 0 q) := by
  obtain ⟨-, -, -, -, e0, e1, -⟩ := lin0_idx t
  show V c (Pipeline.arrRef spec0 2) (((cfg0.win 2).blk t).view.emb (ix2 0 q)) = V c (Pipeline.arrRef spec0 2) (ix2 0 q)
  refine congrArg _ ?_
  funext a
  apply Fin.ext
  match a with
  | ⟨0, _⟩ => show win0_2.index t (0 : Fin 2) * 1 + 1 * 0 = 0; omega
  | ⟨1, _⟩ => show win0_2.index t (1 : Fin 2) * 49 + 1 * q.val = q.val; omega

theorem lin0_read3 (t : Fin cfg0.N) (G : S100000x49.Idx → EReal) (p : Fin 5000) (q : Fin 49) (r : Fin 100000)
    (hr : r.val = 5000 * t.val + p.val) :
    ((cfg0.win 3).blk t).view.read (Elt Ideal) G (ix2 p q) = G (ix2 r q) := by
  obtain ⟨-, -, -, -, -, -, e0, e1⟩ := lin0_idx t
  show G (((cfg0.win 3).blk t).view.emb (ix2 p q)) = G (ix2 r q)
  refine congrArg G ?_
  funext a
  apply Fin.ext
  match a with
  | ⟨0, _⟩ => show win0_3.index t (0 : Fin 2) * 5000 + 1 * p.val = r.val; omega
  | ⟨1, _⟩ => show win0_3.index t (1 : Fin 2) * 49 + 1 * q.val = q.val; omega

theorem lin0_block (c : Dev nD) (t : Fin cfg0.N) :
    (k0_pay1 (iblk0 V c 0 t) (iblk0 V c 1 t) (iblk0 V c 2 t) : Vec Ideal S5000x49 .f32)
      = ((cfg0.win 3).blk t).view.read (Elt Ideal)
          (GIN.lin (K := 56) (V c (Pipeline.arrRef spec0 0)) (V c (Pipeline.arrRef spec0 1))
            (fun d => V c (Pipeline.arrRef spec0 2) (ix2 0 d))) := by
  funext j
  obtain ⟨p, q, rfl⟩ : ∃ (p : Fin 5000) (q : Fin 49), j = ix2 p q := ⟨j 0, j 1, eq_ix2 j⟩
  have hN : cfg0.N = 20 := N_0
  have ht : t.val < 20 := Nat.lt_of_lt_of_eq t.isLt hN
  have hp : p.val < 5000 := p.isLt
  obtain ⟨r, hr⟩ : ∃ r : Fin 100000, r.val = 5000 * t.val + p.val := ⟨⟨5000 * t.val + p.val, by omega⟩, rfl⟩
  refine (lin0_pay_at (iblk0 V c 0 t) (iblk0 V c 1 t) (iblk0 V c 2 t) p q
    (V c (Pipeline.arrRef spec0 0)) (V c (Pipeline.arrRef spec0 1)) (V c (Pipeline.arrRef spec0 2)) r
    (fun k => lin0_read0 V c t p k r hr) (fun k => lin0_read1 V c t k q) (lin0_read2 V c t q)).trans ?_
  refine Eq.trans ?_ (lin0_read3 t _ p q r hr).symm
  symm
  exact lin0_spec _ _ _ r q

theorem lin0_flushed (c : Dev nD) (t : Fin cfg0.N) :
    (dat0 (F := Ideal) V c).flushed 3 t = ((cfg0.win 3).blk t).view.read (Elt Ideal)
      (GIN.lin (K := 56) (V c (Pipeline.arrRef spec0 0)) (V c (Pipeline.arrRef spec0 1))
        (fun d => V c (Pipeline.arrRef spec0 2) (ix2 0 d))) := by
  show (cfg0.win 3).cut (grid0.coords t) ((dat0 (F := Ideal) V c).after 3 t) = _
  rw [after0_3]
  unfold out0_3
  rw [View.canon_unit_zero lin0_off]
  simp only [View.ld_unit_zero (S := S5000x56) lin0_off, View.ld_unit_zero (S := S56x49) lin0_off, View.ld_unit_zero (S := S1x49) lin0_off]
  exact lin0_block V c t

theorem lin0_mem (t : Fin cfg0.N) (i : S100000x49.Idx) :
    i ∈ ((cfg0.win 3).blk t).view.set ↔ ∀ a : Fin 2, win0_3.index t a * S5000x49.size a ≤ (i a).val ∧ (i a).val < win0_3.index t a * S5000x49.size a + S5000x49.size a := by
  show i ∈ ((View.whole main_v5).slice (win0_3.rect t)).set ↔ _
  rw [View.set_slice_whole, Rect.mem_set_unit]
  exact Iff.rfl

theorem lin0_cover (i : S100000x49.Idx) :
    ∃ t : Fin cfg0.N, (cfg0.win 3).flush t = true ∧ i ∈ ((cfg0.win 3).blk t).view.set := by
  have hi0 : (i 0).val < 100000 := (i 0).isLt
  have hi1 : (i 1).val < 49 := (i 1).isLt
  have hN : cfg0.N = 20 := N_0
  let t : Fin cfg0.N := ⟨(i 0).val / 5000, by rw [hN]; omega⟩
  refine ⟨t, flush0_3 t, ?_⟩
  rw [lin0_mem]
  obtain ⟨-, -, -, -, -, -, e0, e1⟩ := lin0_idx t
  have ht : t.val = (i 0).val / 5000 := rfl
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 49 ≤ (i 1).val ∧ (i 1).val < win0_3.index t (1 : Fin 2) * 49 + 49; omega

theorem final0 (c : Dev nD) :
    (dat0 (F := Ideal) V c).arrAt 3 cfg0.N
      = GIN.lin (K := 56) (V c (Pipeline.arrRef spec0 0)) (V c (Pipeline.arrRef spec0 1))
          (fun d => V c (Pipeline.arrRef spec0 2) (ix2 0 d)) :=
  (dat0 (F := Ideal) V c).arrAt_eq_of_cover 3 _ (fun t _ => lin0_flushed V c t) lin0_cover

end Cert.KernelIdeal.Val

end
-- ==== Proof.KPool.lean ====
/- The pooling region leaves, per graph, the sum of its nodes' rows and the number of its nodes. -/
import proofs.«425467_j63101659513266_1_alg».proof.Proof.Gen.KernelIdeal.Frame
import proofs.«425467_j63101659513266_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.Tactic
import Idealize.ShloMosaic.PureOps.Ideal.Laws
import Mathlib.Algebra.BigOperators.Fin
import Mathlib.Algebra.BigOperators.Intervals

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace KPool

section Blocks
variable {M : Type} [AddCommMonoid M]

def ext0 (f : Fin 100000 → M) : ℕ → M := fun k => if h : k < 100000 then f ⟨k, h⟩ else 0

theorem ext0_of_lt (f : Fin 100000 → M) (k : ℕ) (h : k < 100000) : ext0 f k = f ⟨k, h⟩ := dif_pos h

def upto (f : Fin 100000 → M) (n : ℕ) : M := ∑ k ∈ Finset.range (5000 * n), ext0 f k

theorem upto_zero (f : Fin 100000 → M) : upto f 0 = 0 := by
  unfold upto; rw [Nat.mul_zero, Finset.range_zero, Finset.sum_empty]

theorem upto_succ (f : Fin 100000 → M) (n : ℕ) :
    upto f (n + 1) = upto f n + ∑ r : Fin 5000, ext0 f (5000 * n + r.val) := by
  unfold upto
  rw [Nat.mul_succ, Finset.sum_range_add, Fin.sum_univ_eq_sum_range (fun r => ext0 f (5000 * n + r)) 5000]

theorem upto_all (f : Fin 100000 → M) : upto f 20 = ∑ i : Fin 100000, f i := by
  unfold upto
  rw [show 5000 * 20 = 100000 from rfl, ← Fin.sum_univ_eq_sum_range (ext0 f) 100000]
  exact Finset.sum_congr rfl fun i _ => ext0_of_lt f i.val i.isLt

end Blocks

theorem bcast_col {α : Type} (v : S5000x1.Idx → α) (h : S5000x1.Broadcasts S5000x512) (r : Fin 5000) (g : Fin 512) :
    broadcastTo S5000x512 v h (ix2 r g) = v (ix2 r (0 : Fin 1)) := by
  refine broadcastTo_apply v h (ix2 r g) (ix2 r (0 : Fin 1)) fun ax => ?_
  match ax with
  | ⟨0, _⟩ => rfl
  | ⟨1, _⟩ => rfl

theorem eq_bit_real (a b : BitVec 32) :
    ((((IntOp.cmpi .eq a b).setWidth 32).toInt : ℝ) : EReal) = if a = b then (1 : EReal) else 0 := by
  by_cases h : a = b
  · have e : IntOp.cmpi .eq a b = 1#1 := by simp [IntOp.cmpi, h]
    have e1 : ((1#1 : BitVec 1).setWidth 32).toInt = 1 := by decide
    rw [if_pos h, e, e1]; norm_num
  · have hb : (a == b) = false := beq_eq_false_iff_ne.mpr h
    have e : IntOp.cmpi .eq a b = 0#1 := by simp only [IntOp.cmpi, hb]; rfl
    have e0 : ((0#1 : BitVec 1).setWidth 32).toInt = 0 := by decide
    rw [if_neg h, e, e0]; norm_num

theorem pay3_apply (v3 : Vec Ideal S5000x1 .i32) (r : Fin 5000) (g : Fin 512) :
    k13_pay3 (F := Ideal) v3 (ix2 r g) = if v3 (ix2 r (0 : Fin 1)) = BitVec.ofNat 32 g.val then (1 : EReal) else 0 := by
  unfold k13_pay3
  show ((((IntOp.cmpi .eq (broadcastTo S5000x512 (shapeCast S5000x1 v3 shapeCasts_S5000x1_S5000x1) broadcasts_S5000x1_S5000x512 (ix2 r g))
          (broadcastTo S5000x512 (iota Kind.tc S1x512 32 [1] iota_S1x512_d1_w32) broadcasts_S1x512_S5000x512 (ix2 r g))).setWidth 32).toInt : ℝ) : EReal) = _
  rw [bcast_col, broadcastTo_1b_ab_apply, shapeCast_self, iota_single_apply, eq_bit_real]

theorem lhs_dot_0 (j : S512x49.Idx) (k : dot_S5000x512_S5000x49_S512x49_0_0_1_1_n_n.contr.Idx) :
    (dot_S5000x512_S5000x49_S512x49_0_0_1_1_n_n.lhsIdx j k 0).val = (k ⟨0, by decide⟩).val :=
  dot_S5000x512_S5000x49_S512x49_0_0_1_1_n_n.lhsIdx_val_of_single (cl := 0) rfl j k

theorem rhs_dot_0 (j : S512x49.Idx) (k : dot_S5000x512_S5000x49_S512x49_0_0_1_1_n_n.contr.Idx) :
    (dot_S5000x512_S5000x49_S512x49_0_0_1_1_n_n.rhsIdx j k 0).val = (k ⟨0, by decide⟩).val :=
  dot_S5000x512_S5000x49_S512x49_0_0_1_1_n_n.rhsIdx_val_of_single (cr := 0) rfl j k

theorem lhs_dot_1 (j : S512x49.Idx) (k : dot_S5000x512_S5000x49_S512x49_0_0_1_1_n_n.contr.Idx) :
    (dot_S5000x512_S5000x49_S512x49_0_0_1_1_n_n.lhsIdx j k 1).val = (j 0).val := by
  unfold DotDims.lhsIdx
  rw [dif_neg (show ¬(1 : Fin S5000x512.rank) ∈ dot_S5000x512_S5000x49_S512x49_0_0_1_1_n_n.lhsBatch by decide),
    dif_pos (show (1 : Fin S5000x512.rank) ∈ dot_S5000x512_S5000x49_S512x49_0_0_1_1_n_n.lhsNonContracting by decide)]
  rfl

theorem rhs_dot_1 (j : S512x49.Idx) (k : dot_S5000x512_S5000x49_S512x49_0_0_1_1_n_n.contr.Idx) :
    (dot_S5000x512_S5000x49_S512x49_0_0_1_1_n_n.rhsIdx j k 1).val = (j 1).val := by
  unfold DotDims.rhsIdx
  rw [dif_neg (show ¬(1 : Fin S5000x49.rank) ∈ dot_S5000x512_S5000x49_S512x49_0_0_1_1_n_n.rhsBatch by decide),
    dif_pos (show (1 : Fin S5000x49.rank) ∈ dot_S5000x512_S5000x49_S512x49_0_0_1_1_n_n.rhsNonContracting by decide)]
  rfl

theorem matmul_gd (A : FVec Ideal S5000x512 .bf16) (B : FVec Ideal S5000x49 .bf16) (g : Fin 512) (d : Fin 49) :
    matmul dot_S5000x512_S5000x49_S512x49_0_0_1_1_n_n none A B (constant S512x49 .f32 0x00000000#32) (ix2 g d)
      = ∑ r : Fin 5000, A (ix2 r g) * B (ix2 r d) := by
  refine (Ideal.matmul_constant_zero_apply dot_S5000x512_S5000x49_S512x49_0_0_1_1_n_n none A B (ix2 g d)).trans ?_
  rw [← Equiv.sum_comp (contrEquiv1 dot_S5000x512_S5000x49_S512x49_0_0_1_1_n_n 5000 rfl rfl).symm]
  refine Finset.sum_congr rfl fun r _ => ?_
  have eA : dot_S5000x512_S5000x49_S512x49_0_0_1_1_n_n.lhsIdx (ix2 g d)
      ((contrEquiv1 dot_S5000x512_S5000x49_S512x49_0_0_1_1_n_n 5000 rfl rfl).symm r) = ix2 r g :=
    funext fun a => Fin.ext (by
      match a with
      | ⟨0, _⟩ => exact (lhs_dot_0 _ _).trans (contrEquiv1_symm_val _ 5000 rfl rfl r)
      | ⟨1, _⟩ => exact lhs_dot_1 _ _)
  have eB : dot_S5000x512_S5000x49_S512x49_0_0_1_1_n_n.rhsIdx (ix2 g d)
      ((contrEquiv1 dot_S5000x512_S5000x49_S512x49_0_0_1_1_n_n 5000 rfl rfl).symm r) = ix2 r d :=
    funext fun a => Fin.ext (by
      match a with
      | ⟨0, _⟩ => exact (rhs_dot_0 _ _).trans (contrEquiv1_symm_val _ 5000 rfl rfl r)
      | ⟨1, _⟩ => exact rhs_dot_1 _ _)
  rw [eA, eB]

theorem lift_rg (h : S5000x512.Reduces [0] S512) (g : Fin 512) (k : Fin (S5000x512.size 0)) :
    h.lift (ix1 g) k = ix2 (⟨k.val, k.isLt⟩ : Fin 5000) g := by
  funext c; apply Fin.ext
  fin_cases c <;> rfl

theorem colsum_g (X : FVec Ideal S5000x512 .f32) (h : S5000x512.Reduces [0] S512) (hφ : FKind.Formats FTy.f32)
    (hacc : (0x00000000#32 : BitVec FTy.f32.bits) = FKind.add.neutral FTy.f32 hφ) (g : Fin 512) :
    multiReduction .add [0] S512 X 0x00000000#32 h hφ hacc (ix1 g) = ∑ r : Fin 5000, X (ix2 r g) := by
  refine (Ideal.multiReduction_add_single X 0x00000000#32 h hφ hacc (ix1 g)).trans ?_
  exact Finset.sum_congr rfl fun k _ => congrArg X (lift_rg h g k)

theorem pay4_apply (v3 : Vec Ideal S5000x1 .i32) (v12 : Vec Ideal S5000x49 .f32) (v15 : Vec Ideal S512x49 .f32) (g : Fin 512) (d : Fin 49) :
    k13_pay4 (F := Ideal) v3 v12 v15 (ix2 g d) = v15 (ix2 g d) + ∑ r : Fin 5000, k13_pay3 (F := Ideal) v3 (ix2 r g) * v12 (ix2 r d) := by
  unfold k13_pay4
  refine (addf_apply _ _ (ix2 g d)).trans ?_
  refine congrArg₂ (· + ·) (congrFun (shapeCast_self v15 _) (ix2 g d)) ?_
  refine (matmul_gd _ _ g d).trans ?_
  refine Finset.sum_congr rfl fun r _ => ?_
  exact congrArg (k13_pay3 (F := Ideal) v3 (ix2 r g) * ·) (congrFun (shapeCast_self v12 _) (ix2 r d))

theorem pay5_apply (v3 : Vec Ideal S5000x1 .i32) (v20 : Vec Ideal S1x512 .f32) (g : Fin 512) :
    k13_pay5 (F := Ideal) v3 v20 (ix2 (0 : Fin 1) g) = v20 (ix2 (0 : Fin 1) g) + ∑ r : Fin 5000, k13_pay3 (F := Ideal) v3 (ix2 r g) := by
  unfold k13_pay5
  refine (addf_apply _ _ (ix2 (0 : Fin 1) g)).trans ?_
  refine congrArg₂ (· + ·) (congrFun (shapeCast_self v20 _) (ix2 (0 : Fin 1) g)) ?_
  refine (shapeCast_addUnit_apply ![512] _ _ (ix2 (0 : Fin 1) g)).trans ?_
  have e : (fun a : Fin 1 => (ix2 (0 : Fin 1) g) a.succ) = ix1 g := funext fun a => by match a with | ⟨0, _⟩ => rfl
  rw [e]
  exact colsum_g _ _ _ _ g

theorem pay1_apply (j : S512x49.Idx) : k13_pay1 (F := Ideal) j = 0 := Ideal.ofBits_zero_f32
theorem pay2_apply (j : S1x512.Idx) : k13_pay2 (F := Ideal) j = 0 := Ideal.ofBits_zero_f32

section Pieces
variable {F : FTy → Type} [FloatOps F]

theorem hz : (![0, 0] : Fin 2 → Nat) = fun _ => 0 := funext fun a => by fin_cases a <;> rfl

theorem outB2 (c : Dev nD) (i : grid13.Coords) (a1 : Memref sig .tc .vmem S5000x49 .f32) (h1 : a1.IsWhole) (a2 : Memref sig .tc .vmem S5000x1 .i32) (h2 : a2.IsWhole)
    (a3 : Memref sig .tc .vmem S512x49 .f32) (h3 : a3.IsWhole) (a4 : Memref sig .tc .vmem S1x512 .f32) (h4 : a4.IsWhole) (hc : ¬cond13_0 i)
    (x0 : Vec F S5000x49 .f32) (x1 : Vec F S5000x1 .i32) (xo2 : Vec F S512x49 .f32) (xo3 : Vec F S1x512 .f32) :
    out13_B_2 c i a1 h1 a2 h2 a3 h3 a4 h4 hc x0 x1 xo2 xo3 = k13_pay4 x1 x0 xo2 := by
  unfold out13_B_2
  rw [View.read_writes_eq_canon _ _ _ (cover13_B_2 c i a1 h1 a2 h2 a3 h3 a4 h4 hc x0 x1 xo2 xo3)]
  unfold kernelRun13_B
  dsimp only
  try sl_unfold_words
  rw [View.canon_unit_zero hz]
  simp only [View.readAt_eq_ld, h1.read_unread, h2.read_unread, h3.read_unread, h4.read_unread,
    View.ld_unit_zero (S := S5000x49) hz, View.ld_unit_zero (S := S5000x1) hz, View.ld_unit_zero (S := S512x49) hz,
    View.ld_unit_zero (S := S1x512) hz]

theorem outB3 (c : Dev nD) (i : grid13.Coords) (a1 : Memref sig .tc .vmem S5000x49 .f32) (h1 : a1.IsWhole) (a2 : Memref sig .tc .vmem S5000x1 .i32) (h2 : a2.IsWhole)
    (a3 : Memref sig .tc .vmem S512x49 .f32) (h3 : a3.IsWhole) (a4 : Memref sig .tc .vmem S1x512 .f32) (h4 : a4.IsWhole) (hc : ¬cond13_0 i)
    (x0 : Vec F S5000x49 .f32) (x1 : Vec F S5000x1 .i32) (xo2 : Vec F S512x49 .f32) (xo3 : Vec F S1x512 .f32) :
    out13_B_3 c i a1 h1 a2 h2 a3 h3 a4 h4 hc x0 x1 xo2 xo3 = k13_pay5 x1 xo3 := by
  unfold out13_B_3
  rw [View.read_writes_eq_canon _ _ _ (cover13_B_3 c i a1 h1 a2 h2 a3 h3 a4 h4 hc x0 x1 xo2 xo3)]
  unfold kernelRun13_B
  dsimp only
  try sl_unfold_words
  rw [View.canon_unit_zero hz]
  simp only [View.readAt_eq_ld, h1.read_unread, h2.read_unread, h3.read_unread, h4.read_unread,
    View.ld_unit_zero (S := S5000x49) hz, View.ld_unit_zero (S := S5000x1) hz, View.ld_unit_zero (S := S512x49) hz,
    View.ld_unit_zero (S := S1x512) hz]

theorem outA2 (c : Dev nD) (i : grid13.Coords) (a1 : Memref sig .tc .vmem S5000x49 .f32) (h1 : a1.IsWhole) (a2 : Memref sig .tc .vmem S5000x1 .i32) (h2 : a2.IsWhole)
    (a3 : Memref sig .tc .vmem S512x49 .f32) (h3 : a3.IsWhole) (a4 : Memref sig .tc .vmem S1x512 .f32) (h4 : a4.IsWhole) (hc : cond13_0 i)
    (x0 : Vec F S5000x49 .f32) (x1 : Vec F S5000x1 .i32) :
    out13_A_2 c i a1 h1 a2 h2 a3 h3 a4 h4 hc x0 x1 = k13_pay4 x1 x0 (k13_pay1 (F := F)) := by
  unfold out13_A_2
  rw [View.read_writes_eq_canon _ _ _ (cover13_A_2 c i a1 h1 a2 h2 a3 h3 a4 h4 hc x0 x1)]
  unfold kernelRun13_A
  dsimp only
  try sl_unfold_words
  rw [View.canon_cons_unit_zero (S := S512x49) hz]
  simp only [View.readAt_eq_ld, h1.read_unread, h2.read_unread, View.readCov_unit_zero (S := S512x49) _ hz,
    View.readCov_unit_zero (S := S1x512) _ hz,
    View.ld_unit_zero (S := S5000x49) hz, View.ld_unit_zero (S := S5000x1) hz, View.ld_unit_zero (S := S512x49) hz,
    View.ld_unit_zero (S := S1x512) hz]

theorem outA3 (c : Dev nD) (i : grid13.Coords) (a1 : Memref sig .tc .vmem S5000x49 .f32) (h1 : a1.IsWhole) (a2 : Memref sig .tc .vmem S5000x1 .i32) (h2 : a2.IsWhole)
    (a3 : Memref sig .tc .vmem S512x49 .f32) (h3 : a3.IsWhole) (a4 : Memref sig .tc .vmem S1x512 .f32) (h4 : a4.IsWhole) (hc : cond13_0 i)
    (x0 : Vec F S5000x49 .f32) (x1 : Vec F S5000x1 .i32) :
    out13_A_3 c i a1 h1 a2 h2 a3 h3 a4 h4 hc x0 x1 = k13_pay5 x1 (k13_pay2 (F := F)) := by
  unfold out13_A_3
  rw [View.read_writes_eq_canon _ _ _ (cover13_A_3 c i a1 h1 a2 h2 a3 h3 a4 h4 hc x0 x1)]
  unfold kernelRun13_A
  dsimp only
  try sl_unfold_words
  rw [View.canon_cons_unit_zero (S := S1x512) hz]
  simp only [View.readAt_eq_ld, h1.read_unread, h2.read_unread, View.readCov_unit_zero (S := S512x49) _ hz,
    View.readCov_unit_zero (S := S1x512) _ hz,
    View.ld_unit_zero (S := S5000x49) hz, View.ld_unit_zero (S := S5000x1) hz, View.ld_unit_zero (S := S512x49) hz,
    View.ld_unit_zero (S := S1x512) hz]

end Pieces

variable (V : (c : Dev nD) → (b : Ref sig .tc) → Buf (Elt Ideal) ((c : Thread nD τ).loc b))

abbrev harr (c : Dev nD) : Vec Ideal S100000x49 .f32 := V c (Pipeline.arrRef spec13 0)
abbrev barr (c : Dev nD) : Vec Ideal S100000x1 .i32 := V c (Pipeline.arrRef spec13 1)
abbrev hblk (c : Dev nD) (t : Fin cfg13.N) : Vec Ideal S5000x49 .f32 := iblk13 V c 0 t
abbrev bblk (c : Dev nD) (t : Fin cfg13.N) : Vec Ideal S5000x1 .i32 := iblk13 V c 1 t

theorem idx_in : ∀ t : Fin cfg13.N, (win13_0.index t 0 = t.val ∧ win13_0.index t 1 = 0) ∧ (win13_1.index t 0 = t.val ∧ win13_1.index t 1 = 0) :=
  (by decide +kernel : ∀ t : Fin grid13.N, (win13_0.index t 0 = t.val ∧ win13_0.index t 1 = 0) ∧ (win13_1.index t 0 = t.val ∧ win13_1.index t 1 = 0))

theorem hblk_apply (c : Dev nD) (t : Fin cfg13.N) (r : Fin 5000) (d : Fin 49) (k : Fin 100000) (hk : k.val = 5000 * t.val + r.val) :
    hblk V c t (ix2 r d) = harr V c (ix2 k d) := by
  have hi := (idx_in t).1
  show ((cfg13.win 0).blk t).view.read (Elt Ideal) (V c (Pipeline.arrRef spec13 0)) (ix2 r d) = _
  rw [View.read_apply]
  refine congrArg (harr V c) (funext fun a => Fin.ext ?_)
  match a with
  | ⟨0, _⟩ => show win13_0.index t 0 * 5000 + 1 * r.val = k.val; rw [hi.1, hk]; omega
  | ⟨1, _⟩ => show win13_0.index t 1 * 49 + 1 * d.val = d.val; rw [hi.2]; omega

theorem bblk_apply (c : Dev nD) (t : Fin cfg13.N) (r : Fin 5000) (k : Fin 100000) (hk : k.val = 5000 * t.val + r.val) :
    bblk V c t (ix2 r (0 : Fin 1)) = barr V c (ix2 k (0 : Fin 1)) := by
  have hi := (idx_in t).2
  show ((cfg13.win 1).blk t).view.read (Elt Ideal) (V c (Pipeline.arrRef spec13 1)) (ix2 r (0 : Fin 1)) = _
  rw [View.read_apply]
  refine congrArg (barr V c) (funext fun a => Fin.ext ?_)
  match a with
  | ⟨0, _⟩ => show win13_1.index t 0 * 5000 + 1 * r.val = k.val; rw [hi.1, hk]; omega
  | ⟨1, _⟩ => show win13_1.index t 1 * 1 + 1 * 0 = 0; rw [hi.2]

def mem (c : Dev nD) (t : Fin 100000) (g : Fin 512) : EReal :=
  if barr V c (ix2 t (0 : Fin 1)) = BitVec.ofNat 32 g.val then 1 else 0
def fS (c : Dev nD) (g : Fin 512) (d : Fin 49) : Fin 100000 → EReal := fun t => mem V c t g * harr V c (ix2 t d)
def fC (c : Dev nD) (g : Fin 512) : Fin 100000 → EReal := fun t => mem V c t g

theorem lt20 (t : Fin cfg13.N) : t.val < 20 := lt_of_lt_of_eq t.isLt (show cfg13.N = 20 from N_13)

theorem mem_blk (c : Dev nD) (t : Fin cfg13.N) (r : Fin 5000) (g : Fin 512) (hlt : 5000 * t.val + r.val < 100000) :
    k13_pay3 (F := Ideal) (bblk V c t) (ix2 r g) = mem V c ⟨5000 * t.val + r.val, hlt⟩ g := by
  refine (pay3_apply (bblk V c t) r g).trans ?_
  unfold mem
  rw [bblk_apply V c t r ⟨5000 * t.val + r.val, hlt⟩ rfl]

theorem sums_step (c : Dev nD) (t : Fin cfg13.N) (acc : Vec Ideal S512x49 .f32) (g : Fin 512) (d : Fin 49) :
    k13_pay4 (F := Ideal) (bblk V c t) (hblk V c t) acc (ix2 g d)
      = acc (ix2 g d) + ∑ r : Fin 5000, ext0 (fS V c g d) (5000 * t.val + r.val) := by
  refine (pay4_apply (bblk V c t) (hblk V c t) acc g d).trans ?_
  refine congrArg (acc (ix2 g d) + ·) (Finset.sum_congr rfl fun r _ => ?_)
  have hN := lt20 t
  have hlt : 5000 * t.val + r.val < 100000 := by have := r.isLt; omega
  rw [ext0_of_lt _ _ hlt]
  exact congrArg₂ (· * ·) (mem_blk V c t r g hlt) (hblk_apply V c t r d ⟨5000 * t.val + r.val, hlt⟩ rfl)

theorem counts_step (c : Dev nD) (t : Fin cfg13.N) (acc : Vec Ideal S1x512 .f32) (g : Fin 512) :
    k13_pay5 (F := Ideal) (bblk V c t) acc (ix2 (0 : Fin 1) g)
      = acc (ix2 (0 : Fin 1) g) + ∑ r : Fin 5000, ext0 (fC V c g) (5000 * t.val + r.val) := by
  refine (pay5_apply (bblk V c t) acc g).trans ?_
  refine congrArg (acc (ix2 (0 : Fin 1) g) + ·) (Finset.sum_congr rfl fun r _ => ?_)
  have hN := lt20 t
  have hlt : 5000 * t.val + r.val < 100000 := by have := r.isLt; omega
  rw [ext0_of_lt _ _ hlt]
  exact mem_blk V c t r g hlt

theorem stepA (c : Dev nD) (t : Fin cfg13.N) (h0 : t.val % 20 = 0) :
    outsAt13 V c t.val t.isLt = (k13_pay4 (bblk V c t) (hblk V c t) (k13_pay1 (F := Ideal)), k13_pay5 (bblk V c t) (k13_pay2 (F := Ideal))) := by
  rw [outsAt13_A V c t h0]
  exact congrArg₂ Prod.mk
    (outA2 (F := Ideal) c (grid13.coords t) (ms13_0 t) (hs13_0 t) (ms13_1 t) (hs13_1 t) (ms13_2 t) (hs13_2 t) (ms13_3 t) (hs13_3 t) ((hcond13_0 t).mpr h0) (iblk13 V c 0 t) (iblk13 V c 1 t))
    (outA3 (F := Ideal) c (grid13.coords t) (ms13_0 t) (hs13_0 t) (ms13_1 t) (hs13_1 t) (ms13_2 t) (hs13_2 t) (ms13_3 t) (hs13_3 t) ((hcond13_0 t).mpr h0) (iblk13 V c 0 t) (iblk13 V c 1 t))

theorem stepB (c : Dev nD) (t : Fin cfg13.N) (h0 : ¬t.val % 20 = 0) :
    outsAt13 V c t.val t.isLt
      = (k13_pay4 (bblk V c t) (hblk V c t) (outsAt13 V c (t.val - 1) (Nat.lt_of_le_of_lt (Nat.sub_le _ _) t.isLt)).1,
         k13_pay5 (bblk V c t) (outsAt13 V c (t.val - 1) (Nat.lt_of_le_of_lt (Nat.sub_le _ _) t.isLt)).2) := by
  rw [outsAt13_B V c t h0]
  exact congrArg₂ Prod.mk
    (outB2 (F := Ideal) c (grid13.coords t) (ms13_0 t) (hs13_0 t) (ms13_1 t) (hs13_1 t) (ms13_2 t) (hs13_2 t) (ms13_3 t) (hs13_3 t) (fun h => h0 ((hcond13_0 t).mp h)) (iblk13 V c 0 t) (iblk13 V c 1 t)
      (outsAt13 V c (t.val - 1) (Nat.lt_of_le_of_lt (Nat.sub_le _ _) t.isLt)).1 (outsAt13 V c (t.val - 1) (Nat.lt_of_le_of_lt (Nat.sub_le _ _) t.isLt)).2)
    (outB3 (F := Ideal) c (grid13.coords t) (ms13_0 t) (hs13_0 t) (ms13_1 t) (hs13_1 t) (ms13_2 t) (hs13_2 t) (ms13_3 t) (hs13_3 t) (fun h => h0 ((hcond13_0 t).mp h)) (iblk13 V c 0 t) (iblk13 V c 1 t)
      (outsAt13 V c (t.val - 1) (Nat.lt_of_le_of_lt (Nat.sub_le _ _) t.isLt)).1 (outsAt13 V c (t.val - 1) (Nat.lt_of_le_of_lt (Nat.sub_le _ _) t.isLt)).2)

theorem sums_at (c : Dev nD) : ∀ (n : ℕ) (hn : n < cfg13.N) (g : Fin 512) (d : Fin 49),
    (outsAt13 V c n hn).1 (ix2 g d) = upto (fS V c g d) (n + 1)
  | 0, hn, g, d => by
    rw [show outsAt13 V c 0 hn = _ from stepA V c ⟨0, hn⟩ rfl]
    dsimp only
    refine (sums_step V c ⟨0, hn⟩ (k13_pay1 (F := Ideal)) g d).trans ?_
    rw [upto_succ, upto_zero, pay1_apply]
  | n + 1, hn, g, d => by
    have hN : n + 1 < 20 := lt_of_lt_of_eq hn (show cfg13.N = 20 from N_13)
    have hB : ¬(⟨n + 1, hn⟩ : Fin cfg13.N).val % 20 = 0 := by dsimp only; omega
    rw [show outsAt13 V c (n + 1) hn = _ from stepB V c ⟨n + 1, hn⟩ hB]
    dsimp only
    refine (sums_step V c ⟨n + 1, hn⟩ _ g d).trans ?_
    rw [upto_succ (fS V c g d) (n + 1)]
    exact congrArg (· + _) (sums_at c n _ g d)

theorem counts_at (c : Dev nD) : ∀ (n : ℕ) (hn : n < cfg13.N) (g : Fin 512),
    (outsAt13 V c n hn).2 (ix2 (0 : Fin 1) g) = upto (fC V c g) (n + 1)
  | 0, hn, g => by
    rw [show outsAt13 V c 0 hn = _ from stepA V c ⟨0, hn⟩ rfl]
    dsimp only
    refine (counts_step V c ⟨0, hn⟩ (k13_pay2 (F := Ideal)) g).trans ?_
    rw [upto_succ, upto_zero, pay2_apply]
  | n + 1, hn, g => by
    have hN : n + 1 < 20 := lt_of_lt_of_eq hn (show cfg13.N = 20 from N_13)
    have hB : ¬(⟨n + 1, hn⟩ : Fin cfg13.N).val % 20 = 0 := by dsimp only; omega
    rw [show outsAt13 V c (n + 1) hn = _ from stepB V c ⟨n + 1, hn⟩ hB]
    dsimp only
    refine (counts_step V c ⟨n + 1, hn⟩ _ g).trans ?_
    rw [upto_succ (fC V c g) (n + 1)]
    exact congrArg (· + _) (counts_at c n _ g)

theorem mem_eq (c : Dev nD) (t : Fin 100000) (g : Fin 512) :
    mem V c t g = GIN.onehot (fun j => V c (Pipeline.arrRef spec13 1) (ix2 (j 0) 0)) t g := by
  unfold mem GIN.onehot GIN.cOne GIN.cZero
  rw [Ideal.ofBits_one_f32, Ideal.ofBits_zero_f32]

theorem last_lt : 19 < cfg13.N := by rw [show cfg13.N = 20 from N_13]; decide

theorem idx_out : ∀ t : Fin cfg13.N,
    (win13_2.index t 0 = 0 ∧ win13_2.index t 1 = 0 ∧ win13_2.xsize (grid13.coords t) 0 = 512 ∧ win13_2.xsize (grid13.coords t) 1 = 49)
    ∧ (win13_3.index t 0 = 0 ∧ win13_3.index t 1 = 0 ∧ win13_3.xsize (grid13.coords t) 0 = 1 ∧ win13_3.xsize (grid13.coords t) 1 = 512) :=
  (by decide +kernel : ∀ t : Fin grid13.N,
    (win13_2.index t 0 = 0 ∧ win13_2.index t 1 = 0 ∧ win13_2.xsize (grid13.coords t) 0 = 512 ∧ win13_2.xsize (grid13.coords t) 1 = 49)
    ∧ (win13_3.index t 0 = 0 ∧ win13_3.index t 1 = 0 ∧ win13_3.xsize (grid13.coords t) 0 = 1 ∧ win13_3.xsize (grid13.coords t) 1 = 512))

theorem sums_last (c : Dev nD) : (outsAt13 V c 19 last_lt).1
    = fun i => ∑ t : Fin 100000, GIN.onehot (fun j => V c (Pipeline.arrRef spec13 1) (ix2 (j 0) 0)) t (i 0)
        * V c (Pipeline.arrRef spec13 0) (ix2 t (i 1)) :=
  funext fun i => by
    obtain ⟨g, d, rfl⟩ : ∃ (g : Fin 512) (d : Fin 49), i = ix2 g d := ⟨i 0, i 1, eq_ix2 i⟩
    refine (sums_at V c 19 last_lt g d).trans ?_
    rw [upto_all]
    exact Finset.sum_congr rfl fun t _ => congrArg (· * harr V c (ix2 t d)) (mem_eq V c t g)

theorem counts_last (c : Dev nD) : (outsAt13 V c 19 last_lt).2
    = fun i => ∑ t : Fin 100000, GIN.onehot (fun j => V c (Pipeline.arrRef spec13 1) (ix2 (j 0) 0)) t (i 1) :=
  funext fun i => by
    obtain ⟨z, g, rfl⟩ : ∃ (z : Fin 1) (g : Fin 512), i = ix2 z g := ⟨i 0, i 1, eq_ix2 i⟩
    obtain rfl : z = 0 := Subsingleton.elim _ _
    refine (counts_at V c 19 last_lt g).trans ?_
    rw [upto_all]
    exact Finset.sum_congr rfl fun t _ => mem_eq V c t g

end KPool

open KPool

variable (V : (c : Dev nD) → (b : Ref sig .tc) → Buf (Elt Ideal) ((c : Thread nD τ).loc b))

theorem final13_sums (c : Dev nD) :
    (dat13 (F := Ideal) V c).arrAt 2 cfg13.N
      = fun i => ∑ t : Fin 100000, GIN.onehot (fun j => V c (Pipeline.arrRef spec13 1) (ix2 (j 0) 0)) t (i 0)
          * V c (Pipeline.arrRef spec13 0) (ix2 t (i 1)) := by
  refine (dat13 V c).arrAt_eq_of_cover 2 _ (fun t hf => ?_) (fun (i : S512x49.Idx) => ?_)
  · have h19 : t.val = 19 := by have := (flush13_2 t).mp hf; have := lt20 t; omega
    obtain rfl : t = ⟨19, last_lt⟩ := Fin.ext h19
    obtain ⟨e0, e1, -, -⟩ := (idx_out ⟨19, last_lt⟩).1
    show (cfg13.win 2).cut (grid13.coords ⟨19, last_lt⟩) ((dat13 V c).after 2 ⟨19, last_lt⟩) = _
    rw [after13_2, sums_last]
    have hz' : (fun a => win13_2.index ⟨19, last_lt⟩ a * main_v187_0.ty.shape.size a) = fun _ => 0 := funext fun a => by
      match a with
      | ⟨0, _⟩ => show win13_2.index ⟨19, last_lt⟩ 0 * 512 = 0; rw [e0]
      | ⟨1, _⟩ => show win13_2.index ⟨19, last_lt⟩ 1 * 49 = 0; rw [e1]
    exact (Memref.read_access_unit_zero (Elt Ideal) main_v187_0 hz' (fun a => by rw [congrFun hz' a]; simp) _).symm
  · refine ⟨⟨19, last_lt⟩, (flush13_2 _).mpr rfl, ?_⟩
    obtain ⟨e0, e1, e2, e3⟩ := (idx_out ⟨19, last_lt⟩).1
    show i ∈ ((View.whole main_v187_0).slice (win13_2.rect ⟨19, last_lt⟩)).set
    rw [View.set_slice_whole, Rect.mem_set_unit]
    intro a
    have h0 : (i 0 : Nat) < 512 := idx2_lt0 i
    have h1 : (i 1 : Nat) < 49 := idx2_lt1 i
    match a with
    | ⟨0, _⟩ => show win13_2.index ⟨19, last_lt⟩ 0 * 512 ≤ (i 0 : Nat) ∧ (i 0 : Nat) < win13_2.index ⟨19, last_lt⟩ 0 * 512 + win13_2.xsize (grid13.coords ⟨19, last_lt⟩) 0
                rw [e0, e2]; omega
    | ⟨1, _⟩ => show win13_2.index ⟨19, last_lt⟩ 1 * 49 ≤ (i 1 : Nat) ∧ (i 1 : Nat) < win13_2.index ⟨19, last_lt⟩ 1 * 49 + win13_2.xsize (grid13.coords ⟨19, last_lt⟩) 1
                rw [e1, e3]; omega

theorem final13_counts (c : Dev nD) :
    (dat13 (F := Ideal) V c).arrAt 3 cfg13.N
      = fun i => ∑ t : Fin 100000, GIN.onehot (fun j => V c (Pipeline.arrRef spec13 1) (ix2 (j 0) 0)) t (i 1) := by
  refine (dat13 V c).arrAt_eq_of_cover 3 _ (fun t hf => ?_) (fun (i : S1x512.Idx) => ?_)
  · have h19 : t.val = 19 := by have := (flush13_3 t).mp hf; have := lt20 t; omega
    obtain rfl : t = ⟨19, last_lt⟩ := Fin.ext h19
    obtain ⟨e0, e1, -, -⟩ := (idx_out ⟨19, last_lt⟩).2
    show (cfg13.win 3).cut (grid13.coords ⟨19, last_lt⟩) ((dat13 V c).after 3 ⟨19, last_lt⟩) = _
    rw [after13_3, counts_last]
    have hz' : (fun a => win13_3.index ⟨19, last_lt⟩ a * main_v187_1.ty.shape.size a) = fun _ => 0 := funext fun a => by
      match a with
      | ⟨0, _⟩ => show win13_3.index ⟨19, last_lt⟩ 0 * 1 = 0; rw [e0]
      | ⟨1, _⟩ => show win13_3.index ⟨19, last_lt⟩ 1 * 512 = 0; rw [e1]
    exact (Memref.read_access_unit_zero (Elt Ideal) main_v187_1 hz' (fun a => by rw [congrFun hz' a]; simp) _).symm
  · refine ⟨⟨19, last_lt⟩, (flush13_3 _).mpr rfl, ?_⟩
    obtain ⟨e0, e1, e2, e3⟩ := (idx_out ⟨19, last_lt⟩).2
    show i ∈ ((View.whole main_v187_1).slice (win13_3.rect ⟨19, last_lt⟩)).set
    rw [View.set_slice_whole, Rect.mem_set_unit]
    intro a
    have h0 : (i 0 : Nat) < 1 := idx2_lt0 i
    have h1 : (i 1 : Nat) < 512 := idx2_lt1 i
    match a with
    | ⟨0, _⟩ => show win13_3.index ⟨19, last_lt⟩ 0 * 1 ≤ (i 0 : Nat) ∧ (i 0 : Nat) < win13_3.index ⟨19, last_lt⟩ 0 * 1 + win13_3.xsize (grid13.coords ⟨19, last_lt⟩) 0
                rw [e0, e2]; omega
    | ⟨1, _⟩ => show win13_3.index ⟨19, last_lt⟩ 1 * 512 ≤ (i 1 : Nat) ∧ (i 1 : Nat) < win13_3.index ⟨19, last_lt⟩ 1 * 512 + win13_3.xsize (grid13.coords ⟨19, last_lt⟩) 1
                rw [e1, e3]; omega

end Cert.KernelIdeal.Val

end
-- ==== Proof.KWalk.lean ====
/- Which buffers survive from the first region's exit to the end of the kernel program, what the first region leaves, and what the closing host operations compute. -/
import proofs.«425467_j63101659513266_1_alg».proof.Proof.Gen.KernelIdeal.Frame
import proofs.«425467_j63101659513266_1_alg».proof.Proof.Spec
import proofs.«425467_j63101659513266_1_alg».proof.Proof.KLin
import proofs.«425467_j63101659513266_1_alg».proof.Proof.KPool
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

theorem flatRow (o : Nat) (k : Fin 2) (hk : k.val = o) (x : (⟨2, ![2, 1600000]⟩ : Shape).Idx → BitVec 32)
    (h1 : (⟨2, ![2, 1600000]⟩ : Shape).Slices ![o, 0] ⟨2, ![1, 1600000]⟩)
    (h2 : (⟨2, ![1, 1600000]⟩ : Shape).ShapeCasts ⟨1, ![1600000]⟩) :
    shapeCast ⟨1, ![1600000]⟩ (extractStridedSlice ⟨2, ![1, 1600000]⟩ ![o, 0] x h1) h2 = GIN.edgeRow k x := by
  funext i
  obtain ⟨j, rfl⟩ : ∃ j, i = ix1 j := ⟨i 0, eq_ix1 i⟩
  exact (shapeCast_1a_a_apply _ h2 j).trans (slice2_axis0_apply o x h1 (0 : Fin 1) j k (by show k.val = o + 0; omega))

theorem colOfVec {α : Type} {n : Nat} (x : (⟨1, ![n]⟩ : Shape).Idx → α) (h : (⟨1, ![n]⟩ : Shape).ShapeCasts ⟨2, ![n, 1]⟩)
    (i : (⟨2, ![n, 1]⟩ : Shape).Idx) : shapeCast ⟨2, ![n, 1]⟩ x h i = x (ix1 (i 0)) :=
  shapeCast_apply x h i (ix1 (i 0)) (by
    have h0 : (i 1).val < 1 := (i 1).isLt
    rw [Shape.rowMajor_val_two, Shape.rowMajor_val_one]
    show (i 0).val = (i 0).val * 1 + (i 1).val
    omega)

theorem colOfRow {α : Type} {n : Nat} (x : (⟨2, ![1, n]⟩ : Shape).Idx → α) (h : (⟨2, ![1, n]⟩ : Shape).ShapeCasts ⟨2, ![n, 1]⟩)
    (g : Fin n) : shapeCast ⟨2, ![n, 1]⟩ x h (ix2 g (0 : Fin 1)) = x (ix2 (0 : Fin 1) g) :=
  shapeCast_apply x h _ _ (by
    rw [Shape.rowMajor_val_two, Shape.rowMajor_val_two]
    show 0 * n + g.val = g.val * 1 + 0
    omega)

theorem clipDiv (s : (⟨2, ![512, 49]⟩ : Shape).Idx → EReal) (cnt : (⟨2, ![1, 512]⟩ : Shape).Idx → EReal)
    (hb1 : (⟨0, ![]⟩ : Shape).BroadcastsInDim ⟨2, ![512, 1]⟩ (![] : Fin 0 → Fin 2))
    (hb2 : (⟨2, ![512, 1]⟩ : Shape).BroadcastsInDim ⟨2, ![512, 49]⟩ (![0, 1] : Fin 2 → Fin 2))
    (hsc : (⟨2, ![1, 512]⟩ : Shape).ShapeCasts ⟨2, ![512, 1]⟩) :
    Host.divf (F := Ideal) (φ := .f32) s (broadcastInDim ⟨2, ![512, 49]⟩ ![0, 1] hb2
        (maximumf (F := Ideal) (φ := .f32) (broadcastInDim ⟨2, ![512, 1]⟩ ![] hb1 (constant (F := Ideal) ⟨0, ![]⟩ .f32 0x3F800000#32))
          (shapeCast ⟨2, ![512, 1]⟩ cnt hsc)))
      = fun i => Ideal.div (s i) (max GIN.cOne (cnt (ix2 0 (i 0)))) := by
  funext i
  show Ideal.div (s i) _ = _
  congr 1
  refine (broadcastInDim_apply _ hb2 _ i (ix2 (i 0) (0 : Fin 1)) (fun a => by
    match a with
    | ⟨0, _⟩ => rfl
    | ⟨1, _⟩ => rfl)).trans ?_
  show max _ _ = _
  congr 1
  exact colOfRow cnt hsc (i 0)

theorem pool_of (h : GIN.Arr GIN.SH) (bcol : IVec GIN.SBT1 32) (batch : IVec GIN.SBT 32)
    (hb : ∀ t : Fin 100000, bcol (ix2 t 0) = batch (ix1 t))
    (sums : GIN.Arr GIN.SO) (counts : GIN.Arr GIN.SC)
    (hs : sums = fun i => ∑ t : Fin 100000, GIN.onehot (fun j => bcol (ix2 (j 0) 0)) t (i 0) * h (ix2 t (i 1)))
    (hc : counts = fun i => ∑ t : Fin 100000, GIN.onehot (fun j => bcol (ix2 (j 0) 0)) t (i 1)) :
    (fun i => Ideal.div (sums i) (max GIN.cOne (counts (ix2 0 (i 0))))) = GIN.poolK h batch := by
  subst hs hc
  have e : (fun j : GIN.SBT.Idx => bcol (ix2 (j 0) 0)) = batch :=
    funext fun j => (hb (j 0)).trans (congrArg batch (eq_ix1 j).symm)
  rw [e]
  rfl

section Host
variable (V : Valuation τ sig (Elt Ideal))

theorem host0_v1 : StableHlo.after (hostOps0 (F := Ideal)) V (Proc.devRef .tc main_v1) = GIN.edgeRow 0 (V (Proc.devRef .tc main_arg12)) := by
  after_results
  exact flatRow 0 0 rfl _ _ _

theorem host0_v3 : StableHlo.after (hostOps0 (F := Ideal)) V (Proc.devRef .tc main_v3) = GIN.edgeRow 1 (V (Proc.devRef .tc main_arg12)) := by
  after_results
  exact flatRow 1 1 rfl _ _ _

theorem host0_v4 (d : Fin 49) :
    StableHlo.after (hostOps0 (F := Ideal)) V (Proc.devRef .tc main_v4) (ix2 0 d) = V (Proc.devRef .tc main_arg2) (ix1 d) := by
  after_results
  exact shapeCast_a_1a_apply (V (Proc.devRef .tc main_arg2)) shapeCasts_S49_S1x49 0 d

theorem host13_v186 :
    StableHlo.after (hostOps13 (F := Ideal)) V (Proc.devRef .tc main_v186) = fun i => V (Proc.devRef .tc main_arg13) (ix1 (i 0)) := by
  after_results
  funext i
  exact colOfVec (V (Proc.devRef .tc main_arg13)) shapeCasts_S100000_S100000x1 i

theorem hostTail :
    StableHlo.after (hostOps14_2 (F := Ideal)) (StableHlo.after hostOps14_1 (StableHlo.after hostOps14 V)) (Proc.devRef .tc main_v191)
      = fun i => Ideal.div (V (Proc.devRef .tc main_v187_0) i) (max GIN.cOne (V (Proc.devRef .tc main_v187_1) (ix2 0 (i 0)))) := by
  after_results
  exact clipDiv (V (Proc.devRef .tc main_v187_0)) (V (Proc.devRef .tc main_v187_1)) bcast_S_S512x1 bcast_S512x1_S512x49_0_1
    shapeCasts_S1x512_S512x1

abbrev keepList : List (Ref sig .tc) :=
  [main_arg3, main_arg4, main_arg5, main_arg6, main_arg7, main_arg8, main_arg9, main_arg10, main_arg11, main_arg12,
   main_arg13, main_v1, main_v3]

abbrev argList : List (Ref sig .tc) :=
  [main_arg0, main_arg1, main_arg2, main_arg3, main_arg4, main_arg5, main_arg6, main_arg7, main_arg8, main_arg9, main_arg10,
   main_arg11, main_arg12, main_arg13]

theorem ne_of_mem_list {L : List (Ref sig .tc)} {b y : Ref sig .tc} (hb : b ∈ L) (hy : y ∉ L) : b ≠ y :=
  fun e => hy (e ▸ hb)

local macro "keep_host " ops:ident hb:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (ne_of_mem_list $hb (by decide))))

theorem host0_arg (b : Ref sig .tc) (hb : b ∈ argList) :
    StableHlo.after (hostOps0 (F := Ideal)) V (Proc.devRef .tc b) = V (Proc.devRef .tc b) := by
  keep_host hostOps0 hb
theorem host1_keep (b : Ref sig .tc) (hb : b ∈ keepList) :
    StableHlo.after (hostOps1 (F := Ideal)) V (Proc.devRef .tc b) = V (Proc.devRef .tc b) := by
  keep_host hostOps1 hb
theorem host2_keep (b : Ref sig .tc) (hb : b ∈ keepList) :
    StableHlo.after (hostOps2 (F := Ideal)) V (Proc.devRef .tc b) = V (Proc.devRef .tc b) := by
  keep_host hostOps2 hb
theorem host3_keep (b : Ref sig .tc) (hb : b ∈ keepList) :
    StableHlo.after (hostOps3 (F := Ideal)) V (Proc.devRef .tc b) = V (Proc.devRef .tc b) := by
  keep_host hostOps3 hb
theorem host4_keep (b : Ref sig .tc) (hb : b ∈ keepList) :
    StableHlo.after (hostOps4 (F := Ideal)) V (Proc.devRef .tc b) = V (Proc.devRef .tc b) := by
  keep_host hostOps4 hb
theorem host5_keep (b : Ref sig .tc) (hb : b ∈ keepList) :
    StableHlo.after (hostOps5 (F := Ideal)) V (Proc.devRef .tc b) = V (Proc.devRef .tc b) := by
  keep_host hostOps5 hb
theorem host6_keep (b : Ref sig .tc) (hb : b ∈ keepList) :
    StableHlo.after (hostOps6 (F := Ideal)) V (Proc.devRef .tc b) = V (Proc.devRef .tc b) := by
  keep_host hostOps6 hb
theorem host7_keep (b : Ref sig .tc) (hb : b ∈ keepList) :
    StableHlo.after (hostOps7 (F := Ideal)) V (Proc.devRef .tc b) = V (Proc.devRef .tc b) := by
  keep_host hostOps7 hb
theorem host8_keep (b : Ref sig .tc) (hb : b ∈ keepList) :
    StableHlo.after (hostOps8 (F := Ideal)) V (Proc.devRef .tc b) = V (Proc.devRef .tc b) := by
  keep_host hostOps8 hb
theorem host9_keep (b : Ref sig .tc) (hb : b ∈ keepList) :
    StableHlo.after (hostOps9 (F := Ideal)) V (Proc.devRef .tc b) = V (Proc.devRef .tc b) := by
  keep_host hostOps9 hb
theorem host10_keep (b : Ref sig .tc) (hb : b ∈ keepList) :
    StableHlo.after (hostOps10 (F := Ideal)) V (Proc.devRef .tc b) = V (Proc.devRef .tc b) := by
  keep_host hostOps10 hb
theorem host11_keep (b : Ref sig .tc) (hb : b ∈ keepList) :
    StableHlo.after (hostOps11 (F := Ideal)) V (Proc.devRef .tc b) = V (Proc.devRef .tc b) := by
  keep_host hostOps11 hb
theorem host12_keep (b : Ref sig .tc) (hb : b ∈ keepList) :
    StableHlo.after (hostOps12 (F := Ideal)) V (Proc.devRef .tc b) = V (Proc.devRef .tc b) := by
  keep_host hostOps12 hb

theorem host13_v185 : StableHlo.after (hostOps13 (F := Ideal)) V (Proc.devRef .tc main_v185) = V (Proc.devRef .tc main_v185) := by
  refine StableHlo.after_of_forall_not_mem _ _ (List.forall_iff_forall_mem.mp ?_)
  simp only [hostOps13, List.Forall, StableHlo.reshape_writes, Finset.mem_singleton]
  exact StableHlo.devRef_ne_of_ne (by decide)

end Host

variable (m : (ℓ : Loc nD τ sig) → Buf (Elt Ideal) ℓ) (ρ : Dev nD → PrngReg)

theorem not_arr {n r : ℕ} (spec : Fin n → Pipeline.WinSpec sig r) {L : List (Ref sig .tc)}
    (h : ∀ w, Pipeline.arrRef spec w ∉ L) {b : Ref sig .tc} (hb : b ∈ L) (w : Fin n) : Pipeline.arrRef spec w ≠ b :=
  fun e => h w (e ▸ hb)

theorem keep6 (c : Dev nD) (b : Ref sig .tc) (hb : b ∈ keepList) :
    W6 m ρ c (Proc.devRef .tc b) = W2 m ρ c (Proc.devRef .tc b) :=
  (W6_of_ne m ρ c b (not_arr spec2 (by decide) hb)).trans <| (host2_keep (W4 m ρ c) b hb).trans <|
    (W4_of_ne m ρ c b (not_arr spec1 (by decide) hb)).trans <| host1_keep (W2 m ρ c) b hb
theorem keep10 (c : Dev nD) (b : Ref sig .tc) (hb : b ∈ keepList) :
    W10 m ρ c (Proc.devRef .tc b) = W2 m ρ c (Proc.devRef .tc b) :=
  (W10_of_ne m ρ c b (not_arr spec4 (by decide) hb)).trans <| (host4_keep (W8 m ρ c) b hb).trans <|
    (W8_of_ne m ρ c b (not_arr spec3 (by decide) hb)).trans <| (host3_keep (W6 m ρ c) b hb).trans (keep6 m ρ c b hb)
theorem keep14 (c : Dev nD) (b : Ref sig .tc) (hb : b ∈ keepList) :
    W14 m ρ c (Proc.devRef .tc b) = W2 m ρ c (Proc.devRef .tc b) :=
  (W14_of_ne m ρ c b (not_arr spec6 (by decide) hb)).trans <| (host6_keep (W12 m ρ c) b hb).trans <|
    (W12_of_ne m ρ c b (not_arr spec5 (by decide) hb)).trans <| (host5_keep (W10 m ρ c) b hb).trans (keep10 m ρ c b hb)
theorem keep18 (c : Dev nD) (b : Ref sig .tc) (hb : b ∈ keepList) :
    W18 m ρ c (Proc.devRef .tc b) = W2 m ρ c (Proc.devRef .tc b) :=
  (W18_of_ne m ρ c b (not_arr spec8 (by decide) hb)).trans <| (host8_keep (W16 m ρ c) b hb).trans <|
    (W16_of_ne m ρ c b (not_arr spec7 (by decide) hb)).trans <| (host7_keep (W14 m ρ c) b hb).trans (keep14 m ρ c b hb)
theorem keep22 (c : Dev nD) (b : Ref sig .tc) (hb : b ∈ keepList) :
    W22 m ρ c (Proc.devRef .tc b) = W2 m ρ c (Proc.devRef .tc b) :=
  (W22_of_ne m ρ c b (not_arr spec10 (by decide) hb)).trans <| (host10_keep (W20 m ρ c) b hb).trans <|
    (W20_of_ne m ρ c b (not_arr spec9 (by decide) hb)).trans <| (host9_keep (W18 m ρ c) b hb).trans (keep18 m ρ c b hb)
theorem keep26 (c : Dev nD) (b : Ref sig .tc) (hb : b ∈ keepList) :
    W26 m ρ c (Proc.devRef .tc b) = W2 m ρ c (Proc.devRef .tc b) :=
  (W26_of_ne m ρ c b (not_arr spec12 (by decide) hb)).trans <| (host12_keep (W24 m ρ c) b hb).trans <|
    (W24_of_ne m ρ c b (not_arr spec11 (by decide) hb)).trans <| (host11_keep (W22 m ρ c) b hb).trans (keep22 m ρ c b hb)

abbrev parList : List (Ref sig .tc) :=
  [main_arg3, main_arg4, main_arg5, main_arg6, main_arg7, main_arg8, main_arg9, main_arg10, main_arg11, main_arg12, main_arg13]

theorem head_par (c : Dev nD) (b : Ref sig .tc) (hb : b ∈ parList) :
    W2 m ρ c (Proc.devRef .tc b) = m ((c : Thread nD τ).loc b) :=
  (W2_of_ne m ρ c b (not_arr spec0 (by decide) hb)).trans
    (host0_arg (W0 m ρ c) b ((by decide : ∀ b ∈ parList, b ∈ argList) b hb))

theorem head_src (c : Dev nD) : W2 m ρ c (Proc.devRef .tc main_v1) = GIN.edgeRow 0 (m ((c : Thread nD τ).loc main_arg12)) :=
  (W2_of_ne m ρ c main_v1 (by decide)).trans (host0_v1 (W0 m ρ c))

theorem head_dst (c : Dev nD) : W2 m ρ c (Proc.devRef .tc main_v3) = GIN.edgeRow 1 (m ((c : Thread nD τ).loc main_arg12)) :=
  (W2_of_ne m ρ c main_v3 (by decide)).trans (host0_v3 (W0 m ρ c))

theorem head_h (c : Dev nD) :
    W2 m ρ c (Proc.devRef .tc main_v5)
      = GIN.h0 (m ((c : Thread nD τ).loc main_arg0)) (m ((c : Thread nD τ).loc main_arg1)) (m ((c : Thread nD τ).loc main_arg2)) := by
  refine (W2_arr m ρ c 3).trans ((final0 (V1 m ρ) c).trans ?_)
  have e0 : V1 m ρ c main_arg0 = m ((c : Thread nD τ).loc main_arg0) := host0_arg (W0 m ρ c) main_arg0 (by decide)
  have e1 : V1 m ρ c main_arg1 = m ((c : Thread nD τ).loc main_arg1) := host0_arg (W0 m ρ c) main_arg1 (by decide)
  have e2 : (fun d : Fin 49 => V1 m ρ c main_v4 (ix2 0 d)) = fun d => m ((c : Thread nD τ).loc main_arg2) (ix1 d) :=
    funext fun d => host0_v4 (W0 m ρ c) d
  show GIN.lin (K := 56) (V1 m ρ c main_arg0) (V1 m ρ c main_arg1) (fun d : Fin 49 => V1 m ρ c main_v4 (ix2 0 d)) = _
  rw [e0, e1, e2]
  rfl

theorem tail (c : Dev nD) :
    W31 m ρ c (Proc.devRef .tc main_v191)
      = GIN.poolK (W26 m ρ c (Proc.devRef .tc main_v185)) (W26 m ρ c (Proc.devRef .tc main_arg13)) := by
  refine (hostTail (W28 m ρ c)).trans ?_
  have es : W28 m ρ c (Proc.devRef .tc main_v187_0)
      = fun i => ∑ t : Fin 100000, GIN.onehot (fun j => V27 m ρ c main_v186 (ix2 (j 0) 0)) t (i 0) * V27 m ρ c main_v185 (ix2 t (i 1)) :=
    (W28_arr m ρ c 2).trans (final13_sums (V27 m ρ) c)
  have ec : W28 m ρ c (Proc.devRef .tc main_v187_1)
      = fun i => ∑ t : Fin 100000, GIN.onehot (fun j => V27 m ρ c main_v186 (ix2 (j 0) 0)) t (i 1) :=
    (W28_arr m ρ c 3).trans (final13_counts (V27 m ρ) c)
  have eh : V27 m ρ c main_v185 = W26 m ρ c (Proc.devRef .tc main_v185) := host13_v185 (W26 m ρ c)
  refine (pool_of (V27 m ρ c main_v185) (V27 m ρ c main_v186) (W26 m ρ c (Proc.devRef .tc main_arg13))
    (fun t => congrFun (host13_v186 (W26 m ρ c)) (ix2 t 0)) _ _ es ec).trans ?_
  exact congrArg (fun h => GIN.poolK h (W26 m ρ c (Proc.devRef .tc main_arg13))) eh

end Cert.KernelIdeal.Val

end
-- ==== Proof.KHalf.lean ====
import proofs.«425467_j63101659513266_1_alg».proof.Proof.Gen.KernelIdeal
import proofs.«425467_j63101659513266_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Val.Half

open Cert.KernelIdeal Cert.KernelIdeal.Gen
open Idealize.ShloMosaic Idealize.ShloMosaic.TcCoe Idealize.ShloMosaic.ValueIdx

theorem gDims_eq : gather_S100000x49_S1600000x1_S1600000x49_1_0_n_n_0_1_149 = GIN.gDims := rfl
theorem sDims_eq : scatter_S100000x49_S1600000x1_S1600000x49_1_0_0_1 = GIN.sDims := rfl

/-- Broadcasting along axis 0 into a single column only forgets the column index. -/
theorem col_read {w : Nat} (v : IVec S1600000 w) :
    broadcastInDim S1600000x1 ![0] bcast_S1600000_S1600000x1_0 v = fun i => v (ix1 (i 0)) :=
  funext fun i => broadcastInDim_apply _ _ v i (ix1 (i 0)) (fun a => by
    match a with
    | ⟨0, _⟩ =>
      show (i 0).val = if (1600000 : Nat) = 1 then 0 else (i 0).val
      rw [if_neg (by decide)])

/-- With the index columns read as vectors (col_read) the program's gather and scatter-add are the specification's. -/
theorem agg_read (h : FVec Ideal S100000x49 .f32) (src dst : IVec S1600000 32) :
    Host.scatterAdd scatter_S100000x49_S1600000x1_S1600000x49_1_0_0_1
        (broadcastInDim S100000x49 ![] bcast_S_S100000x49 (constant (F := Ideal) S_ FTy.f32 0#32))
        (broadcastInDim S1600000x1 ![0] bcast_S1600000_S1600000x1_0 dst)
        (Host.gather gather_S100000x49_S1600000x1_S1600000x49_1_0_n_n_0_1_149 h
          (broadcastInDim S1600000x1 ![0] bcast_S1600000_S1600000x1_0
            (select (cmpi CmpIPredicate.slt src (broadcastInDim S1600000 ![] bcast_S_S1600000 (constantI S_ 32 0#32)))
              (addi src (broadcastInDim S1600000 ![] bcast_S_S1600000 (constantI S_ 32 100000#32))) src)))
      = GIN.agg h src dst := by
  have hz : broadcastInDim S100000x49 ![] bcast_S_S100000x49 (constant (F := Ideal) S_ FTy.f32 0#32)
      = (fun _ => GIN.cZero : GIN.Arr GIN.SH) := by
    funext j
    rw [broadcastInDim_scalar_apply, constant_apply]
    unfold GIN.cZero
    rfl
  rw [hz, col_read, col_read, gDims_eq, sDims_eq]
  show Host.scatterAdd _ _ _ (Host.gather _ h (GIN.srcNorm src)) = _
  unfold GIN.agg Host.scatterAdd
  exact Ideal.hostScatterAdd_def _ _ _ _ _

/-- Entrywise: the scalar slot reads entry r of the ε vector (the slice starts at r), the sum is agg_read. -/
theorem gin_read {o : Nat} (r : Fin 3) (hs : S3.Slices ![o] S1) (h : FVec Ideal S100000x49 .f32)
    (src dst : IVec S1600000 32) (e : FVec Ideal S3 .f32) (hr : r.val = o) :
    addf
      (mulf
        (broadcastInDim S100000x49 ![] bcast_S_S100000x49
          (addf (constant (F := Ideal) S_ FTy.f32 1065353216#32)
            (shapeCast S_ (extractStridedSlice S1 ![o] e hs) shapeCasts_S1_S_)))
        h)
      (Host.scatterAdd scatter_S100000x49_S1600000x1_S1600000x49_1_0_0_1
        (broadcastInDim S100000x49 ![] bcast_S_S100000x49 (constant (F := Ideal) S_ FTy.f32 0#32))
        (broadcastInDim S1600000x1 ![0] bcast_S1600000_S1600000x1_0 dst)
        (Host.gather gather_S100000x49_S1600000x1_S1600000x49_1_0_n_n_0_1_149 h
          (broadcastInDim S1600000x1 ![0] bcast_S1600000_S1600000x1_0
            (select (cmpi CmpIPredicate.slt src (broadcastInDim S1600000 ![] bcast_S_S1600000 (constantI S_ 32 0#32)))
              (addi src (broadcastInDim S1600000 ![] bcast_S_S1600000 (constantI S_ 32 100000#32))) src))))
      = GIN.gin h src dst (GIN.sliceE r e) := by
  have he : shapeCast S_ (extractStridedSlice S1 ![o] e hs) shapeCasts_S1_S_ ix0 = GIN.sliceE r e := by
    refine (shapeCast_apply _ _ ix0 (ix1 (0 : Fin 1)) ?_).trans ?_
    · have h0 : (Shape.rowMajor S_ ix0).val < 1 := (Shape.rowMajor S_ ix0).isLt
      rw [Shape.rowMajor_val_one]
      show (0 : Nat) = (Shape.rowMajor S_ ix0).val
      omega
    · exact extractStridedSlice_apply _ _ _ (ix1 (0 : Fin 1)) (ix1 r) (fun a => by
        match a with
        | ⟨0, _⟩ => exact hr)
  rw [agg_read]
  funext j
  rw [addf_apply, mulf_apply, broadcastInDim_scalar_apply, addf_apply, constant_apply, he]
  unfold GIN.gin GIN.cOne
  rfl

/-- A slice starting at r on axis 0, its unit axis reshaped away, is matrix r of the stack. -/
theorem sliceW_read {o : Nat} (r : Fin 3) (hs : S3x49x49.Slices ![o, 0, 0] S1x49x49) (W : FVec Ideal S3x49x49 .f32)
    (hr : r.val = o) :
    shapeCast S49x49 (extractStridedSlice S1x49x49 ![o, 0, 0] W hs) shapeCasts_S1x49x49_S49x49 = GIN.sliceW r W := by
  funext i
  refine (congrArg _ (eq_ix2 i)).trans ?_
  refine (shapeCast_1ab_ab_apply _ _ (i 0) (i 1)).trans ?_
  exact extractStridedSlice_apply _ _ _ (ix3 (0 : Fin 1) (i 0) (i 1)) (ix3 r (i 0) (i 1)) (fun a => by
    match a with
    | ⟨0, _⟩ => exact hr
    | ⟨1, _⟩ => exact (Nat.zero_add _).symm
    | ⟨2, _⟩ => exact (Nat.zero_add _).symm)

/-- For a stack of rows the two reshapes cancel and the slice starting at r reads row r. -/
theorem sliceP_read {o : Nat} (r : Fin 3) (hs : S3x49.Slices ![o, 0] S1x49) (p : FVec Ideal S3x49 .f32) (hr : r.val = o) :
    (fun d : Fin 49 =>
        shapeCast S1x49 (shapeCast S49 (extractStridedSlice S1x49 ![o, 0] p hs) shapeCasts_S1x49_S49)
          shapeCasts_S49_S1x49 (ix2 (0 : Fin 1) d))
      = GIN.sliceP r p := by
  funext d
  refine (shapeCast_a_1a_apply _ _ (0 : Fin 1) d).trans ?_
  refine (shapeCast_1a_a_apply _ _ d).trans ?_
  exact slice2_axis0_apply _ p _ (0 : Fin 1) d r hr

/-- The divisor is the constant 100000 at every entry. -/
theorem mean_read (s1 : FVec Ideal S1x49 .f32) (d : Fin 49) :
    Host.divf s1 (broadcastInDim S1x49 ![] bcast_S_S1x49 (constant (F := Ideal) S_ FTy.f32 1203982336#32)) (ix2 (0 : Fin 1) d)
      = Ideal.div (s1 (ix2 (0 : Fin 1) d)) GIN.cN := by
  rw [hostDivf_apply, broadcastInDim_scalar_apply, constant_apply]
  unfold GIN.cN
  rfl

/-- Every operation here acts entrywise; both quotients are mean_read. -/
theorem istd_read (s1 s2 : FVec Ideal S1x49 .f32) (d : Fin 49) :
    Host.rsqrt
        (addf
          (subf (Host.divf s2 (broadcastInDim S1x49 ![] bcast_S_S1x49 (constant (F := Ideal) S_ FTy.f32 1203982336#32)))
            (mulf (Host.divf s1 (broadcastInDim S1x49 ![] bcast_S_S1x49 (constant (F := Ideal) S_ FTy.f32 1203982336#32)))
              (Host.divf s1 (broadcastInDim S1x49 ![] bcast_S_S1x49 (constant (F := Ideal) S_ FTy.f32 1203982336#32)))))
          (broadcastInDim S1x49 ![] bcast_S_S1x49 (constant (F := Ideal) S_ FTy.f32 925353388#32)))
        (ix2 (0 : Fin 1) d)
      = Ideal.rsqrt (Ideal.div (s2 (ix2 (0 : Fin 1) d)) GIN.cN
          - Ideal.div (s1 (ix2 (0 : Fin 1) d)) GIN.cN * Ideal.div (s1 (ix2 (0 : Fin 1) d)) GIN.cN + GIN.cEps) := by
  show Ideal.rsqrt _ = _
  rw [addf_apply, subf_apply, mulf_apply, mean_read, mean_read, broadcastInDim_scalar_apply, constant_apply]
  unfold GIN.cEps
  rfl

/-- The first host stretch of a half: the round's weight matrix and bias row cut out of their stacks, the other two stacks kept. -/
structure Cut (r : Fin 3) (xw : GIN.Arr GIN.SW) (xb pg pb : GIN.Arr GIN.SP) (yw : GIN.Arr GIN.SM) (yb : GIN.Arr GIN.SR)
    (yg ybe : GIN.Arr GIN.SP) : Prop where
  w : yw = GIN.sliceW r xw
  b : (fun d => yb (ix2 0 d)) = GIN.sliceP r xb
  g : yg = pg
  be : ybe = pb

/-- The statistics region: the linear map, its column sums, the column sums of its squares. -/
structure Sums (y : GIN.Arr GIN.SH) (yw : GIN.Arr GIN.SM) (yb : GIN.Arr GIN.SR) (a : GIN.Arr GIN.SH) (s1 s2 : GIN.Arr GIN.SR) :
    Prop where
  lin : a = GIN.lin (K := 49) y yw fun d => yb (ix2 0 d)
  sum : s1 = fun j => GIN.csum (GIN.lin (K := 49) y yw fun d => yb (ix2 0 d)) (j 1)
  sumsq : s2 = fun j => GIN.csumsq (GIN.lin (K := 49) y yw fun d => yb (ix2 0 d)) (j 1)

/-- The second host stretch: mean and 1 / sqrt (variance + 1e-5) from the two rows of sums, the round's scale and shift rows cut out. -/
structure Moments (r : Fin 3) (a : GIN.Arr GIN.SH) (s1 s2 : GIN.Arr GIN.SR) (zg zbe : GIN.Arr GIN.SP) (a' : GIN.Arr GIN.SH)
    (mu sd tg tbe : GIN.Arr GIN.SR) : Prop where
  keep : a' = a
  mean : ∀ d : Fin 49, mu (ix2 0 d) = Ideal.div (s1 (ix2 0 d)) GIN.cN
  istd : ∀ d : Fin 49, sd (ix2 0 d) = Ideal.rsqrt (Ideal.div (s2 (ix2 0 d)) GIN.cN
    - Ideal.div (s1 (ix2 0 d)) GIN.cN * Ideal.div (s1 (ix2 0 d)) GIN.cN + GIN.cEps)
  g : (fun d => tg (ix2 0 d)) = GIN.sliceP r zg
  be : (fun d => tbe (ix2 0 d)) = GIN.sliceP r zbe

/-- Half a round is one block: what the second stretch forms from the sums is the mean and (mean of squares) − (mean)² of the linear map's result. -/
theorem half_block {r : Fin 3} {out z y a a' : GIN.Arr GIN.SH} {xw : GIN.Arr GIN.SW} {yw : GIN.Arr GIN.SM}
    {yb s1 s2 mu sd tg tbe : GIN.Arr GIN.SR} {xb pg pb yg ybe zg zbe : GIN.Arr GIN.SP}
    (hy : y = z) (hc : Cut r xw xb pg pb yw yb yg ybe) (hs : Sums y yw yb a s1 s2) (hzg : zg = yg) (hzbe : zbe = ybe)
    (hn : Moments r a s1 s2 zg zbe a' mu sd tg tbe)
    (hout : out = GIN.bnrelu a' (fun d => mu (ix2 0 d)) (fun d => sd (ix2 0 d)) (fun d => tg (ix2 0 d)) fun d => tbe (ix2 0 d)) :
    out = GIN.block GIN.varK z (GIN.sliceW r xw) (GIN.sliceP r xb) (GIN.sliceP r pg) (GIN.sliceP r pb) := by
  have e1 : (fun d => mu (ix2 0 d)) = GIN.mean a := by
    funext d
    rw [hn.mean, hs.sum, ← hs.lin]
    rfl
  have e2 : (fun d => sd (ix2 0 d)) = GIN.istd (GIN.varK a) := by
    funext d
    rw [hn.istd, hs.sum, hs.sumsq, ← hs.lin]
    rfl
  rw [hout, e1, e2, hn.g, hn.be, hzg, hzbe, hc.g, hc.be, hn.keep, hs.lin, hy, hc.w, hc.b]
  rfl

end Cert.KernelIdeal.Val.Half

end
-- ==== Proof.KStatsCore.lean ====
import proofs.«425467_j63101659513266_1_alg».proof.Proof.Gen.KernelIdeal.Frame
import proofs.«425467_j63101659513266_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Stats

open Cert.KernelIdeal Cert.KernelIdeal.Gen
open Idealize.ShloMosaic Idealize.ShloMosaic.TcCoe Idealize.ShloMosaic.ValueIdx Idealize.SL.Sem

/-- The sum of `f` over the rows below `n`; a row past the end counts as nothing. -/
def rowsBelow {N : ℕ} (f : Fin N → EReal) (n : ℕ) : EReal :=
  ∑ i ∈ Finset.range n, if h : i < N then f ⟨i, h⟩ else 0

theorem rowsBelow_zero {N : ℕ} (f : Fin N → EReal) : rowsBelow f 0 = 0 := Finset.sum_range_zero _

-- the rows below B·s + B are the rows below B·s and the B rows of block s
theorem rowsBelow_block {N : ℕ} (f : Fin N → EReal) (B s : ℕ) (hs : B * s + B ≤ N) (g : Fin B → EReal)
    (hg : ∀ (r : Fin B) (i : Fin N), i.val = B * s + r.val → g r = f i) :
    rowsBelow f (B * s + B) = rowsBelow f (B * s) + ∑ r : Fin B, g r := by
  unfold rowsBelow
  rw [Finset.sum_range_add]
  refine congrArg _ ((Finset.sum_range _).trans (Finset.sum_congr rfl fun r _ => ?_))
  have hlt : B * s + r.val < N := Nat.lt_of_lt_of_le (Nat.add_lt_add_left r.isLt _) hs
  rw [dif_pos hlt]
  exact (hg r ⟨B * s + r.val, hlt⟩ rfl).symm

theorem rowsBelow_all {N : ℕ} (f : Fin N → EReal) : rowsBelow f N = ∑ i : Fin N, f i := by
  unfold rowsBelow
  rw [Finset.sum_range]
  exact Finset.sum_congr rfl fun i _ => dif_pos i.isLt

theorem lhs_mm_0 (i : S5000x49.Idx) (q : dot_S5000x49_S49x49_S5000x49_1_0_0_1_n_n.contr.Idx) : (dot_S5000x49_S49x49_S5000x49_1_0_0_1_n_n.lhsIdx i q 0).val = (i 0).val := by
  unfold DotDims.lhsIdx
  rw [dif_neg (show ¬(0 : Fin S5000x49.rank) ∈ dot_S5000x49_S49x49_S5000x49_1_0_0_1_n_n.lhsBatch by decide),
    dif_pos (show (0 : Fin S5000x49.rank) ∈ dot_S5000x49_S49x49_S5000x49_1_0_0_1_n_n.lhsNonContracting by decide)]
  rfl

theorem rhs_mm_1 (i : S5000x49.Idx) (q : dot_S5000x49_S49x49_S5000x49_1_0_0_1_n_n.contr.Idx) : (dot_S5000x49_S49x49_S5000x49_1_0_0_1_n_n.rhsIdx i q 1).val = (i 1).val := by
  unfold DotDims.rhsIdx
  rw [dif_neg (show ¬(1 : Fin S49x49.rank) ∈ dot_S5000x49_S49x49_S5000x49_1_0_0_1_n_n.rhsBatch by decide),
    dif_pos (show (1 : Fin S49x49.rank) ∈ dot_S5000x49_S49x49_S5000x49_1_0_0_1_n_n.rhsNonContracting by decide)]
  rfl

-- entry (p, q) of the block product into the zero accumulator is the sum over the 49 contracted columns
theorem mm_apply (A : FVec Ideal S5000x49 .bf16) (B : FVec Ideal S49x49 .bf16) (p : Fin 5000) (q : Fin 49) :
    matmul dot_S5000x49_S49x49_S5000x49_1_0_0_1_n_n none A B (constant S5000x49 .f32 0x00000000#32) (ix2 p q) = ∑ k : Fin 49, A (ix2 p k) * B (ix2 k q) := by
  simp only [matmul]
  rw [Ideal.matmul_constant_zero_apply, ← Equiv.sum_comp (contrEquiv1 dot_S5000x49_S49x49_S5000x49_1_0_0_1_n_n 49 rfl rfl).symm]
  refine Finset.sum_congr rfl fun k _ => ?_
  have hk := contrEquiv1_symm_val dot_S5000x49_S49x49_S5000x49_1_0_0_1_n_n 49 rfl rfl k
  have el : dot_S5000x49_S49x49_S5000x49_1_0_0_1_n_n.lhsIdx (ix2 p q) ((contrEquiv1 dot_S5000x49_S49x49_S5000x49_1_0_0_1_n_n 49 rfl rfl).symm k) = ix2 p k := funext fun a => Fin.ext (by
    match a with
    | ⟨0, _⟩ => exact lhs_mm_0 _ _
    | ⟨1, _⟩ => exact (dot_S5000x49_S49x49_S5000x49_1_0_0_1_n_n.lhsIdx_val_of_single rfl _ _).trans hk)
  have er : dot_S5000x49_S49x49_S5000x49_1_0_0_1_n_n.rhsIdx (ix2 p q) ((contrEquiv1 dot_S5000x49_S49x49_S5000x49_1_0_0_1_n_n 49 rfl rfl).symm k) = ix2 k q := funext fun a => Fin.ext (by
    match a with
    | ⟨0, _⟩ => exact (dot_S5000x49_S49x49_S5000x49_1_0_0_1_n_n.rhsIdx_val_of_single rfl _ _).trans hk
    | ⟨1, _⟩ => exact rhs_mm_1 _ _)
  rw [el, er]

-- the six regions' bodies are one term; region 1's names stand for all of them
theorem pay3_apply (xa : FVec Ideal S5000x49 .f32) (xb : FVec Ideal S49x49 .f32) (xc : FVec Ideal S1x49 .f32)
    (p : Fin 5000) (q : Fin 49) :
    k1_pay3 (F := Ideal) xa xb xc (ix2 p q) = (∑ k : Fin 49, xa (ix2 p k) * xb (ix2 k q)) + xc (ix2 (0 : Fin 1) q) := by
  unfold k1_pay3
  refine (addf_apply _ _ _).trans ?_
  refine congrArg₂ (· + ·) ((mm_apply _ _ p q).trans ?_) ((broadcastTo_1b_ab_apply _ _ p q).trans ?_)
  · simp only [truncf_apply, shapeCast_self]
  · simp only [shapeCast_self]

-- the sum over a block's 5000 rows at column q: the reduction along axis 0 read at the one-row index
theorem rowsum_apply (src : FVec Ideal S5000x49 .f32) (u : Fin 1) (q : Fin 49) :
    shapeCast S1x49 (multiReduction .add [0] S49 src 0x00000000#32 reduces_S5000x49_S49 (.inl rfl) rfl) shapeCasts_S49_S1x49 (ix2 u q)
      = ∑ r : Fin 5000, src (ix2 r q) := by
  refine (shapeCast_a_1a_apply _ _ u q).trans ?_
  refine (Ideal.multiReduction_add_single src 0x00000000#32 reduces_S5000x49_S49 (.inl rfl) rfl (ix1 q)).trans ?_
  show ∑ r : Fin 5000, src (reduces_S5000x49_S49.lift (ix1 q) r) = _
  refine Finset.sum_congr rfl fun r _ => congrArg src (funext fun a => Fin.ext ?_)
  match a with
  | ⟨0, _⟩ => rfl
  | ⟨1, _⟩ => rfl

theorem pay4_apply (xa : FVec Ideal S5000x49 .f32) (xb : FVec Ideal S49x49 .f32) (xc xo : FVec Ideal S1x49 .f32)
    (u : Fin 1) (q : Fin 49) :
    k1_pay4 (F := Ideal) xa xb xc xo (ix2 u q) = xo (ix2 u q) + ∑ r : Fin 5000, k1_pay3 (F := Ideal) xa xb xc (ix2 r q) := by
  unfold k1_pay4
  refine (addf_apply _ _ _).trans (congrArg₂ (· + ·) ?_ (rowsum_apply _ u q))
  simp only [shapeCast_self]

theorem pay5_apply (xa : FVec Ideal S5000x49 .f32) (xb : FVec Ideal S49x49 .f32) (xc xo : FVec Ideal S1x49 .f32)
    (u : Fin 1) (q : Fin 49) :
    k1_pay5 (F := Ideal) xa xb xc xo (ix2 u q)
      = xo (ix2 u q) + ∑ r : Fin 5000, k1_pay3 (F := Ideal) xa xb xc (ix2 r q) * k1_pay3 (F := Ideal) xa xb xc (ix2 r q) := by
  unfold k1_pay5
  refine (addf_apply _ _ _).trans (congrArg₂ (· + ·) ?_ ((rowsum_apply _ u q).trans rfl))
  simp only [shapeCast_self]

theorem pay1_apply (j : S1x49.Idx) : k1_pay1 (F := Ideal) j = 0 := by
  unfold k1_pay1
  exact Ideal.ofBits_zero_f32

theorem pay2_apply (j : S1x49.Idx) : k1_pay2 (F := Ideal) j = 0 := by
  unfold k1_pay2
  exact Ideal.ofBits_zero_f32

theorem hz : (![0, 0] : Fin 2 → Nat) = fun _ => 0 := funext fun a => by fin_cases a <;> rfl

section Blocks

-- a block that moves down the rows with the point sits at rows r·t … of its array
theorem emb_rows {N r R C : ℕ} (emb : Fin N → (⟨2, ![r, C]⟩ : Shape).Idx → (⟨2, ![R, C]⟩ : Shape).Idx)
    (idx : Fin N → Fin 2 → ℕ) (he : ∀ t y a, (emb t y a : ℕ) = idx t a * ![r, C] a + y a)
    (hi : ∀ t, idx t = ![t.val, 0]) (t : Fin N) (y : (⟨2, ![r, C]⟩ : Shape).Idx) :
    (emb t y 0).val = r * t.val + (y 0).val ∧ (emb t y 1).val = (y 1).val := by
  constructor
  · rw [he, hi]; show t.val * r + _ = _; rw [Nat.mul_comm]
  · rw [he, hi]; show 0 * C + _ = _; rw [Nat.zero_mul, Nat.zero_add]

-- a block that is its whole array at every point
theorem emb_fixed {N : ℕ} {S : Shape} (emb : Fin N → S.Idx → S.Idx) (idx : Fin N → Fin S.rank → ℕ)
    (he : ∀ t y a, (emb t y a : ℕ) = idx t a * S.size a + y a) (hi : ∀ t, idx t = fun _ => 0) (t : Fin N) (y : S.Idx) :
    emb t y = y :=
  funext fun a => Fin.ext (by rw [he, hi, Nat.zero_mul, Nat.zero_add])

-- row i of the array lies in the block of point i / 5000
theorem cover_rows {N : ℕ} (hN : N = 20) (emb : Fin N → S5000x49.Idx → S100000x49.Idx)
    (he : ∀ t y, (emb t y 0).val = 5000 * t.val + (y 0).val ∧ (emb t y 1).val = (y 1).val) (i : S100000x49.Idx) :
    ∃ t y, emb t y = i := by
  have hi0 : (i 0).val < 100000 := (i 0).isLt
  obtain ⟨e0, e1⟩ := he ⟨(i 0).val / 5000, by omega⟩ (ix2 ⟨(i 0).val % 5000, Nat.mod_lt _ (by decide)⟩ (i 1))
  exact ⟨_, _, Shape.idx_ext₂ (e0.trans (Nat.div_add_mod _ _)) e1⟩

end Blocks

section Acc

variable {N : ℕ} (hN : N = 20)
  (zB : Fin N → Vec Ideal S5000x49 .f32) (wB : Fin N → Vec Ideal S49x49 .f32) (bB : Fin N → Vec Ideal S1x49 .f32)
  (Z : GIN.Arr ⟨2, ![100000, 49]⟩) (W : GIN.Arr ⟨2, ![49, 49]⟩) (b : Fin 49 → EReal)
  (hZ : ∀ (t : Fin N) (p : Fin 5000) (k : Fin 49) (i : Fin 100000), i.val = 5000 * t.val + p.val →
    zB t (ix2 p k) = Z (ix2 i k))
  (hW : ∀ t, wB t = W) (hb : ∀ t q, bB t (ix2 (0 : Fin 1) q) = b q)
  (outs : (n : ℕ) → n < N → Vec Ideal S5000x49 .f32 × Vec Ideal S1x49 .f32 × Vec Ideal S1x49 .f32)
  (hA : ∀ t : Fin N, t.val % 20 = 0 → outs t.val t.isLt
    = (k1_pay3 (zB t) (wB t) (bB t), k1_pay4 (zB t) (wB t) (bB t) (k1_pay1 (F := Ideal)),
        k1_pay5 (zB t) (wB t) (bB t) (k1_pay2 (F := Ideal))))
  (hB : ∀ t : Fin N, ¬t.val % 20 = 0 → outs t.val t.isLt
    = (k1_pay3 (zB t) (wB t) (bB t),
        k1_pay4 (zB t) (wB t) (bB t) (outs (t.val - 1) (Nat.lt_of_le_of_lt (Nat.sub_le _ _) t.isLt)).2.1,
        k1_pay5 (zB t) (wB t) (bB t) (outs (t.val - 1) (Nat.lt_of_le_of_lt (Nat.sub_le _ _) t.isLt)).2.2))

local notation "𝓛" => GIN.lin (K := 49) Z W b

include hZ hW hb in
-- the body's linear map of the block at point t is rows 5000·t … of the linear map of the whole array
theorem pay3_blk (t : Fin N) (p : Fin 5000) (q : Fin 49) (i : Fin 100000) (hi : i.val = 5000 * t.val + p.val) :
    k1_pay3 (F := Ideal) (zB t) (wB t) (bB t) (ix2 p q) = 𝓛 (ix2 i q) := by
  refine (pay3_apply _ _ _ p q).trans ?_
  show _ = (∑ k : Fin 49, Z (ix2 i k) * W (ix2 k q)) + b q
  refine congrArg₂ (· + ·) (Finset.sum_congr rfl fun k _ => ?_) (hb t q)
  rw [hZ t p k i hi, hW t]

include hN hZ hW hb in
-- adding block t's column sums of φ ∘ (linear map) to the sum over the rows below 5000·t gives the rows below 5000·t + 5000
theorem step (φ : EReal → EReal) (t : Fin N) (q : Fin 49) (s : EReal)
    (hs : s = rowsBelow (fun i => φ (𝓛 (ix2 i q))) (5000 * t.val)) :
    s + ∑ r : Fin 5000, φ (k1_pay3 (F := Ideal) (zB t) (wB t) (bB t) (ix2 r q))
      = rowsBelow (fun i => φ (𝓛 (ix2 i q))) (5000 * t.val + 5000) := by
  have ht := t.isLt
  rw [hs]
  exact (rowsBelow_block _ 5000 t.val (by omega) _ (fun r i hi => congrArg φ (pay3_blk zB wB bB Z W b hZ hW hb t r q i hi))).symm

include hN hZ hW hb hA hB in
-- after point n the accumulators hold the sums of the linear map's entries and of their squares over the rows below 5000·n + 5000
theorem acc_inv : ∀ (n : ℕ) (hn : n < N) (u : Fin 1) (q : Fin 49),
    (outs n hn).2.1 (ix2 u q) = rowsBelow (fun i => 𝓛 (ix2 i q)) (5000 * n + 5000)
      ∧ (outs n hn).2.2 (ix2 u q) = rowsBelow (fun i => 𝓛 (ix2 i q) * 𝓛 (ix2 i q)) (5000 * n + 5000)
  | 0, hn, u, q => by
    rw [show outs 0 hn = _ from hA ⟨0, hn⟩ rfl]
    dsimp only
    exact ⟨(pay4_apply _ _ _ _ u q).trans (step hN zB wB bB Z W b hZ hW hb (fun x => x) ⟨0, hn⟩ q _ ((pay1_apply _).trans (rowsBelow_zero _).symm)),
      (pay5_apply _ _ _ _ u q).trans (step hN zB wB bB Z W b hZ hW hb (fun x => x * x) ⟨0, hn⟩ q _ ((pay2_apply _).trans (rowsBelow_zero _).symm))⟩
  | n + 1, hn, u, q => by
    have hB' : ¬(⟨n + 1, hn⟩ : Fin N).val % 20 = 0 := by dsimp only; omega
    have ih := acc_inv n (Nat.lt_of_succ_lt hn) u q
    rw [show outs (n + 1) hn = _ from hB ⟨n + 1, hn⟩ hB']
    dsimp only
    exact ⟨(pay4_apply _ _ _ _ u q).trans (step hN zB wB bB Z W b hZ hW hb (fun x => x) ⟨n + 1, hn⟩ q _
        (ih.1.trans (congrArg _ (Nat.mul_succ 5000 n).symm))),
      (pay5_apply _ _ _ _ u q).trans (step hN zB wB bB Z W b hZ hW hb (fun x => x * x) ⟨n + 1, hn⟩ q _
        (ih.2.trans (congrArg _ (Nat.mul_succ 5000 n).symm)))⟩

include hZ hW hb hA hB in
-- at every point the first output block is the point's rows of the linear map
theorem outs_lin (t : Fin N) (j : S5000x49.Idx) (i : S100000x49.Idx)
    (h0 : (i 0).val = 5000 * t.val + (j 0).val) (h1 : (i 1).val = (j 1).val) : (outs t.val t.isLt).1 j = 𝓛 i := by
  have e : (outs t.val t.isLt).1 = k1_pay3 (zB t) (wB t) (bB t) := by
    by_cases h : t.val % 20 = 0
    · rw [hA t h]
    · rw [hB t h]
  obtain ⟨p, q, rfl⟩ : ∃ (p : Fin 5000) (q : Fin 49), j = ix2 p q := ⟨j 0, j 1, eq_ix2 j⟩
  obtain ⟨i0, q', rfl⟩ : ∃ (i0 : Fin 100000) (q' : Fin 49), i = ix2 i0 q' := ⟨i 0, i 1, eq_ix2 i⟩
  obtain rfl : q' = q := Fin.ext h1
  rw [e]
  exact pay3_blk zB wB bB Z W b hZ hW hb t p q' i0 h0

include hN hZ hW hb hA hB in
-- after the last point the accumulators hold the sums over all 100000 rows
theorem outs_sum (t : Fin N) (h19 : t.val = 19) (j j' : S1x49.Idx) (h1 : (j' 1).val = (j 1).val) :
    (outs t.val t.isLt).2.1 j = GIN.csum 𝓛 (j' 1) ∧ (outs t.val t.isLt).2.2 j = GIN.csumsq 𝓛 (j' 1) := by
  obtain ⟨u, q, rfl⟩ : ∃ (u : Fin 1) (q : Fin 49), j = ix2 u q := ⟨j 0, j 1, eq_ix2 j⟩
  have h := acc_inv hN zB wB bB Z W b hZ hW hb outs hA hB t.val t.isLt u q
  rw [show j' 1 = q from Fin.ext h1, h.1, h.2, h19]
  exact ⟨rowsBelow_all _, rowsBelow_all _⟩

end Acc

section Region

variable {N : ℕ} (Z : GIN.Arr ⟨2, ![100000, 49]⟩) (W : GIN.Arr ⟨2, ![49, 49]⟩) (B : GIN.Arr ⟨2, ![1, 49]⟩)
  (e0 e3 : Fin N → S5000x49.Idx → S100000x49.Idx) (e1 : Fin N → S49x49.Idx → S49x49.Idx)
  (e2 e4 e5 : Fin N → S1x49.Idx → S1x49.Idx)
  (outs : (n : ℕ) → n < N → Vec Ideal S5000x49 .f32 × Vec Ideal S1x49 .f32 × Vec Ideal S1x49 .f32)

local notation "𝓛" => GIN.lin (K := 49) Z W fun d => B (ix2 0 d)

/-- What a region of this family proves of its three outputs, through the embeddings of its output blocks into the arrays: the first holds
    the linear map block by block, the other two hold the column sums after the last point, and the blocks cover the arrays. -/
structure Region : Prop where
  lin : ∀ (t : Fin N) y, (outs t.val t.isLt).1 y = 𝓛 (e3 t y)
  sums : ∀ t : Fin N, t.val = 19 → ∀ y,
    (outs t.val t.isLt).2.1 y = GIN.csum 𝓛 (e4 t y 1) ∧ (outs t.val t.isLt).2.2 y = GIN.csumsq 𝓛 (e5 t y 1)
  cover : ∀ i, ∃ t y, e3 t y = i
  cover4 : ∀ i, ∃ t : Fin N, t.val = 19 ∧ ∃ y, e4 t y = i
  cover5 : ∀ i, ∃ t : Fin N, t.val = 19 ∧ ∃ y, e5 t y = i

-- from the six embeddings' offsets (two advance by 5000 rows a point, four are the identity) and the outputs' two recurrences
theorem region (hN : N = 20) (i0 i1 i2 i3 i4 i5 : Fin N → Fin 2 → ℕ)
    (he0 : ∀ t y a, (e0 t y a : ℕ) = i0 t a * ![5000, 49] a + y a) (hi0 : ∀ t, i0 t = ![t.val, 0])
    (he1 : ∀ t y a, (e1 t y a : ℕ) = i1 t a * S49x49.size a + y a) (hi1 : ∀ t, i1 t = fun _ => 0)
    (he2 : ∀ t y a, (e2 t y a : ℕ) = i2 t a * S1x49.size a + y a) (hi2 : ∀ t, i2 t = fun _ => 0)
    (he3 : ∀ t y a, (e3 t y a : ℕ) = i3 t a * ![5000, 49] a + y a) (hi3 : ∀ t, i3 t = ![t.val, 0])
    (he4 : ∀ t y a, (e4 t y a : ℕ) = i4 t a * S1x49.size a + y a) (hi4 : ∀ t, i4 t = fun _ => 0)
    (he5 : ∀ t y a, (e5 t y a : ℕ) = i5 t a * S1x49.size a + y a) (hi5 : ∀ t, i5 t = fun _ => 0)
    (hA : ∀ t : Fin N, t.val % 20 = 0 → outs t.val t.isLt
      = (k1_pay3 (F := Ideal) (fun y => Z (e0 t y)) (fun y => W (e1 t y)) (fun y => B (e2 t y)),
          k1_pay4 (F := Ideal) (fun y => Z (e0 t y)) (fun y => W (e1 t y)) (fun y => B (e2 t y)) (k1_pay1 (F := Ideal)),
          k1_pay5 (F := Ideal) (fun y => Z (e0 t y)) (fun y => W (e1 t y)) (fun y => B (e2 t y)) (k1_pay2 (F := Ideal))))
    (hB : ∀ t : Fin N, ¬t.val % 20 = 0 → outs t.val t.isLt
      = (k1_pay3 (F := Ideal) (fun y => Z (e0 t y)) (fun y => W (e1 t y)) (fun y => B (e2 t y)),
          k1_pay4 (F := Ideal) (fun y => Z (e0 t y)) (fun y => W (e1 t y)) (fun y => B (e2 t y))
            (outs (t.val - 1) (Nat.lt_of_le_of_lt (Nat.sub_le _ _) t.isLt)).2.1,
          k1_pay5 (F := Ideal) (fun y => Z (e0 t y)) (fun y => W (e1 t y)) (fun y => B (e2 t y))
            (outs (t.val - 1) (Nat.lt_of_le_of_lt (Nat.sub_le _ _) t.isLt)).2.2)) :
    Region Z W B e3 e4 e5 outs := by
  have h0 := emb_rows e0 i0 he0 hi0
  have h3 := emb_rows e3 i3 he3 hi3
  have h4 := emb_fixed e4 i4 he4 hi4
  have h5 := emb_fixed e5 i5 he5 hi5
  have hZ : ∀ (t : Fin N) (p : Fin 5000) (k : Fin 49) (i : Fin 100000), i.val = 5000 * t.val + p.val →
      Z (e0 t (ix2 p k)) = Z (ix2 i k) :=
    fun t p k i hi => congrArg Z (Shape.idx_ext₂ ((h0 t _).1.trans hi.symm) (h0 t _).2)
  have hW : ∀ t : Fin N, (fun y => W (e1 t y)) = W := fun t => funext fun y => congrArg W (emb_fixed e1 i1 he1 hi1 t y)
  have hb : ∀ (t : Fin N) (q : Fin 49), B (e2 t (ix2 (0 : Fin 1) q)) = B (ix2 0 q) :=
    fun t q => congrArg B (emb_fixed e2 i2 he2 hi2 t _)
  refine ⟨fun t y => outs_lin (fun t y => Z (e0 t y)) (fun t y => W (e1 t y)) (fun t y => B (e2 t y)) Z W
      (fun d => B (ix2 0 d)) hZ hW hb outs hA hB t y _ (h3 t y).1 (h3 t y).2, fun t h19 y => ?_, cover_rows hN e3 h3,
    fun i => ⟨⟨19, by omega⟩, rfl, i, h4 _ i⟩, fun i => ⟨⟨19, by omega⟩, rfl, i, h5 _ i⟩⟩
  rw [h4, h5]
  exact outs_sum hN (fun t y => Z (e0 t y)) (fun t y => W (e1 t y)) (fun t y => B (e2 t y)) Z W (fun d => B (ix2 0 d)) hZ hW hb
    outs hA hB t h19 y y rfl

end Region

end Cert.KernelIdeal.Val.Stats

end
-- ==== Proof.KStats1.lean ====
import proofs.«425467_j63101659513266_1_alg».proof.Proof.KStatsCore

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Stats1

section Body

variable {c : Dev nD} {i : grid1.Coords} {m1 : Memref sig .tc .vmem S5000x49 .f32} {w1 : m1.IsWhole}
  {m2 : Memref sig .tc .vmem S49x49 .f32} {w2 : m2.IsWhole} {m3 : Memref sig .tc .vmem S1x49 .f32} {w3 : m3.IsWhole}
  {m4 : Memref sig .tc .vmem S5000x49 .f32} {w4 : m4.IsWhole} {m5 : Memref sig .tc .vmem S1x49 .f32} {w5 : m5.IsWhole}
  {m6 : Memref sig .tc .vmem S1x49 .f32} {w6 : m6.IsWhole}
  {xa : Vec Ideal S5000x49 .f32} {xb : Vec Ideal S49x49 .f32} {xc ya yb : Vec Ideal S1x49 .f32}

-- at the first point: the linear map of the block, and the two accumulators started from the zero block just stored
theorem outA_eq {hc : cond1_0 i} :
    (out1_A_3 c i m1 w1 m2 w2 m3 w3 m4 w4 m5 w5 m6 w6 hc xa xb xc, out1_A_4 c i m1 w1 m2 w2 m3 w3 m4 w4 m5 w5 m6 w6 hc xa xb xc, out1_A_5 c i m1 w1 m2 w2 m3 w3 m4 w4 m5 w5 m6 w6 hc xa xb xc)
      = (k1_pay3 xa xb xc, k1_pay4 xa xb xc (k1_pay1 (F := Ideal)), k1_pay5 xa xb xc (k1_pay2 (F := Ideal))) := by
  unfold out1_A_3 out1_A_4 out1_A_5
  rw [View.read_writes_eq_canon _ _ _ (cover1_A_3 c i m1 w1 m2 w2 m3 w3 m4 w4 m5 w5 m6 w6 hc xa xb xc), View.read_writes_eq_canon _ _ _ (cover1_A_4 c i m1 w1 m2 w2 m3 w3 m4 w4 m5 w5 m6 w6 hc xa xb xc),
    View.read_writes_eq_canon _ _ _ (cover1_A_5 c i m1 w1 m2 w2 m3 w3 m4 w4 m5 w5 m6 w6 hc xa xb xc)]
  unfold kernelRun1_A
  dsimp only
  sl_unfold_words
  simp only [View.canon_unit_zero (S := S5000x49) Stats.hz, View.canon_cons_unit_zero (S := S1x49) Stats.hz,
    View.readCov_unit_zero (S := S1x49) _ Stats.hz, View.readAt_eq_ld, w1.read_unread, w2.read_unread, w3.read_unread,
    View.ld_unit_zero (S := S5000x49) Stats.hz, View.ld_unit_zero (S := S49x49) Stats.hz, View.ld_unit_zero (S := S1x49) Stats.hz]

-- at a later point: the same over what the point before left in the accumulators
theorem outB_eq {hc : ¬cond1_0 i} :
    (out1_B_3 c i m1 w1 m2 w2 m3 w3 m4 w4 m5 w5 m6 w6 hc xa xb xc ya yb, out1_B_4 c i m1 w1 m2 w2 m3 w3 m4 w4 m5 w5 m6 w6 hc xa xb xc ya yb, out1_B_5 c i m1 w1 m2 w2 m3 w3 m4 w4 m5 w5 m6 w6 hc xa xb xc ya yb)
      = (k1_pay3 xa xb xc, k1_pay4 xa xb xc ya, k1_pay5 xa xb xc yb) := by
  unfold out1_B_3 out1_B_4 out1_B_5
  rw [View.read_writes_eq_canon _ _ _ (cover1_B_3 c i m1 w1 m2 w2 m3 w3 m4 w4 m5 w5 m6 w6 hc xa xb xc ya yb), View.read_writes_eq_canon _ _ _ (cover1_B_4 c i m1 w1 m2 w2 m3 w3 m4 w4 m5 w5 m6 w6 hc xa xb xc ya yb),
    View.read_writes_eq_canon _ _ _ (cover1_B_5 c i m1 w1 m2 w2 m3 w3 m4 w4 m5 w5 m6 w6 hc xa xb xc ya yb)]
  unfold kernelRun1_B
  dsimp only
  sl_unfold_words
  simp only [View.canon_unit_zero (S := S5000x49) Stats.hz, View.canon_unit_zero (S := S1x49) Stats.hz, View.readAt_eq_ld, w1.read_unread, w2.read_unread, w3.read_unread, w5.read_unread,
    w6.read_unread, View.ld_unit_zero (S := S5000x49) Stats.hz, View.ld_unit_zero (S := S49x49) Stats.hz,
    View.ld_unit_zero (S := S1x49) Stats.hz]

end Body

theorem idx : ∀ t : Fin cfg1.N, win1_0.index t = ![t.val, 0] ∧ win1_1.index t = (fun _ => 0) ∧ win1_2.index t = (fun _ => 0)
    ∧ win1_3.index t = ![t.val, 0] ∧ win1_4.index t = (fun _ => 0) ∧ win1_5.index t = (fun _ => 0) :=
  (by decide +kernel : ∀ t : Fin grid1.N, _)

variable (V : (c : Dev nD) → (b : Ref sig .tc) → Buf (Elt Ideal) ((c : Thread nD τ).loc b)) (c : Dev nD)

abbrev emb (w : Fin cfg1.W) (t : Fin cfg1.N) (y : ((cfg1.win w).xblock (grid1.coords t)).Idx) := ((cfg1.win w).blk t).view.emb y

theorem read4 (t : Fin cfg1.N) (G : S1x49.Idx → EReal) (y : ((cfg1.win 4).xblock (grid1.coords t)).Idx) :
    ((cfg1.win 4).blk t).view.read (Elt Ideal) G y = G (emb 4 t y) := rfl

theorem read5 (t : Fin cfg1.N) (G : S1x49.Idx → EReal) (y : ((cfg1.win 5).xblock (grid1.coords t)).Idx) :
    ((cfg1.win 5).blk t).view.read (Elt Ideal) G y = G (emb 5 t y) := rfl

theorem reg : Stats.Region (V c (Pipeline.arrRef spec1 0)) (V c (Pipeline.arrRef spec1 1)) (V c (Pipeline.arrRef spec1 2))
    (emb 3) (emb 4) (emb 5) (outsAt1 V c) :=
  Stats.region _ _ _ (emb 0) _ (emb 1) (emb 2) _ _ _ N_1 win1_0.index win1_1.index win1_2.index win1_3.index win1_4.index
    win1_5.index win1_0.rect_emb_val (fun t => (idx t).1) win1_1.rect_emb_val (fun t => (idx t).2.1)
    win1_2.rect_emb_val (fun t => (idx t).2.2.1) win1_3.rect_emb_val (fun t => (idx t).2.2.2.1)
    win1_4.rect_emb_val (fun t => (idx t).2.2.2.2.1) win1_5.rect_emb_val (fun t => (idx t).2.2.2.2.2)
    (fun t h => (outsAt1_A V c t h).trans outA_eq) fun t h => (outsAt1_B V c t h).trans outB_eq

end Stats1

variable (V : (c : Dev nD) → (b : Ref sig .tc) → Buf (Elt Ideal) ((c : Thread nD τ).loc b))

theorem final1_lin (c : Dev nD) :
    (dat1 (F := Ideal) V c).arrAt 3 cfg1.N
      = GIN.lin (K := 49) (V c (Pipeline.arrRef spec1 0)) (V c (Pipeline.arrRef spec1 1))
          (fun d => V c (Pipeline.arrRef spec1 2) (ix2 0 d)) :=
  (dat1 (F := Ideal) V c).arrAt_eq_of_cover 3 _
    (fun t _ => by
      show (cfg1.win 3).cut (grid1.coords t) ((dat1 V c).after 3 t) = _
      rw [after1_3]
      exact funext ((Stats1.reg V c).lin t))
    fun i => by
      obtain ⟨t, y, rfl⟩ := (Stats1.reg V c).cover i
      exact ⟨t, flush1_3 t, View.emb_mem_set _ y⟩

theorem final1_sum (c : Dev nD) :
    (dat1 (F := Ideal) V c).arrAt 4 cfg1.N
      = fun j => GIN.csum (GIN.lin (K := 49) (V c (Pipeline.arrRef spec1 0)) (V c (Pipeline.arrRef spec1 1))
          (fun d => V c (Pipeline.arrRef spec1 2) (ix2 0 d))) (j 1) :=
  (dat1 (F := Ideal) V c).arrAt_eq_of_cover 4 _
    (fun t hf => by
      have h19 : t.val = 19 := by have := (flush1_4 t).mp hf; have := t.isLt; have : cfg1.N = 20 := N_1; omega
      show (cfg1.win 4).cut (grid1.coords t) ((dat1 V c).after 4 t) = _
      rw [after1_4]
      exact funext fun y => ((Stats1.reg V c).sums t h19 y).1.trans (Stats1.read4 t (fun j => GIN.csum _ (j 1)) y).symm)
    fun i => by
      obtain ⟨t, h19, y, rfl⟩ := (Stats1.reg V c).cover4 i
      exact ⟨t, (flush1_4 t).mpr (by rw [h19]), View.emb_mem_set _ y⟩

theorem final1_sumsq (c : Dev nD) :
    (dat1 (F := Ideal) V c).arrAt 5 cfg1.N
      = fun j => GIN.csumsq (GIN.lin (K := 49) (V c (Pipeline.arrRef spec1 0)) (V c (Pipeline.arrRef spec1 1))
          (fun d => V c (Pipeline.arrRef spec1 2) (ix2 0 d))) (j 1) :=
  (dat1 (F := Ideal) V c).arrAt_eq_of_cover 5 _
    (fun t hf => by
      have h19 : t.val = 19 := by have := (flush1_5 t).mp hf; have := t.isLt; have : cfg1.N = 20 := N_1; omega
      show (cfg1.win 5).cut (grid1.coords t) ((dat1 V c).after 5 t) = _
      rw [after1_5]
      exact funext fun y => ((Stats1.reg V c).sums t h19 y).2.trans (Stats1.read5 t (fun j => GIN.csumsq _ (j 1)) y).symm)
    fun i => by
      obtain ⟨t, h19, y, rfl⟩ := (Stats1.reg V c).cover5 i
      exact ⟨t, (flush1_5 t).mpr (by rw [h19]), View.emb_mem_set _ y⟩

end Cert.KernelIdeal.Val

end
-- ==== Proof.KBn.lean ====
import proofs.«425467_j63101659513266_1_alg».proof.Proof.Gen.KernelIdeal.Frame
import proofs.«425467_j63101659513266_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem

theorem bn_off : (![0, 0] : Fin 2 → Nat) = fun _ => 0 := funext fun a => by fin_cases a <;> rfl

/-- Each parameter row is spread over the block's rows before the arithmetic. -/
theorem bn_pay (x : Vec Ideal S5000x49 .f32) (g mu s be : Vec Ideal S1x49 .f32) (p : Fin 5000) (q : Fin 49) :
    k2_pay1 (F := Ideal) x g mu s be (ix2 p q)
      = max (g (ix2 0 q) * (x (ix2 p q) - mu (ix2 0 q)) * s (ix2 0 q) + be (ix2 0 q)) GIN.cZero := by
  unfold k2_pay1
  simp only [maximumf_apply, addf_apply, mulf_apply, subf_apply, broadcast_apply, shapeCast_self, broadcastTo_1b_ab_apply]
  rfl

/-- A load of a whole block reads it, and the one store of the whole block leaves its payload. -/
theorem bn_out (x0 : Vec Ideal S5000x49 .f32) (x1 x2 x3 x4 : Vec Ideal S1x49 .f32) :
    out2_5 x0 x1 x2 x3 x4 = k2_pay1 x0 x3 x1 x2 x4 := by
  unfold out2_5
  rw [View.canon_unit_zero bn_off]
  simp only [View.ld_unit_zero (S := S5000x49) bn_off, View.ld_unit_zero (S := S1x49) bn_off]

variable {N : Nat}

/-- Entry y of block t lies in the array, on axis a, at i t a times the block's size plus y a. -/
def Tiles {b0 b1 a0 a1 : Nat} (e : Fin N → (⟨2, ![b0, b1]⟩ : Shape).Idx → (⟨2, ![a0, a1]⟩ : Shape).Idx)
    (i : Fin N → Fin 2 → Nat) : Prop :=
  ∀ t y a, (e t y a).val = i t a * ![b0, b1] a + (y a).val

/-- Blocks of b0 rows, one after the other: row p of block t is row b0·t + p. -/
theorem Tiles.row {b0 a0 n : Nat} {e : Fin N → (⟨2, ![b0, n]⟩ : Shape).Idx → (⟨2, ![a0, n]⟩ : Shape).Idx}
    {i : Fin N → Fin 2 → Nat} (h : Tiles e i) {t : Fin N} (h0 : i t 0 = t.val) (h1 : i t 1 = 0)
    (p : Fin b0) (q : Fin n) (r : Fin a0) (hr : r.val = b0 * t.val + p.val) : e t (ix2 p q) = ix2 r q := by
  funext a
  apply Fin.ext
  rw [h]
  match a with
  | ⟨0, _⟩ => show i t 0 * b0 + p.val = r.val; rw [h0, hr, Nat.mul_comm]
  | ⟨1, _⟩ => show i t 1 * n + q.val = q.val; rw [h1, Nat.zero_mul, Nat.zero_add]

/-- With block index zero on both axes an entry keeps its place. -/
theorem Tiles.fix {n0 n1 : Nat} {e : Fin N → (⟨2, ![n0, n1]⟩ : Shape).Idx → (⟨2, ![n0, n1]⟩ : Shape).Idx}
    {i : Fin N → Fin 2 → Nat} (h : Tiles e i) {t : Fin N} (hi : ∀ a, i t a = 0) (y) : e t y = y :=
  funext fun a => Fin.ext (by rw [h, hi, Nat.zero_mul, Nat.zero_add])

abbrev BnIdx (i0 i1 i2 i3 i4 i5 : Fin N → Fin 2 → Nat) : Prop :=
  ∀ t : Fin N, (i0 t 0 = t.val ∧ i0 t 1 = 0) ∧ (∀ a, i1 t a = 0) ∧ (∀ a, i2 t a = 0) ∧ (∀ a, i3 t a = 0)
    ∧ (∀ a, i4 t a = 0) ∧ i5 t 0 = t.val ∧ i5 t 1 = 0

variable {e0 e5 : Fin N → S5000x49.Idx → S100000x49.Idx} {e1 e2 e3 e4 : Fin N → S1x49.Idx → S1x49.Idx}
  {i0 i1 i2 i3 i4 i5 : Fin N → Fin 2 → Nat}

/-- What point t leaves is its block of rows of the normalised, rectified array. -/
theorem bn_flushed (hN : N = 20) (h0 : Tiles e0 i0) (h1 : Tiles e1 i1) (h2 : Tiles e2 i2) (h3 : Tiles e3 i3)
    (h4 : Tiles e4 i4) (h5 : Tiles e5 i5) (hi : BnIdx i0 i1 i2 i3 i4 i5) (t : Fin N)
    {A : GIN.Arr GIN.SH} {P1 P2 P3 P4 : Vec Ideal S1x49 .f32}
    {x0 : Vec Ideal S5000x49 .f32} {x1 x2 x3 x4 : Vec Ideal S1x49 .f32}
    (hx0 : ∀ y, x0 y = A (e0 t y)) (hx1 : ∀ y, x1 y = P1 (e1 t y)) (hx2 : ∀ y, x2 y = P2 (e2 t y))
    (hx3 : ∀ y, x3 y = P3 (e3 t y)) (hx4 : ∀ y, x4 y = P4 (e4 t y)) :
    out2_5 (F := Ideal) x0 x1 x2 x3 x4
      = fun y => GIN.bnrelu A (fun d => P1 (ix2 0 d)) (fun d => P2 (ix2 0 d)) (fun d => P3 (ix2 0 d))
          (fun d => P4 (ix2 0 d)) (e5 t y) := by
  obtain ⟨⟨a0, b0⟩, z1, z2, z3, z4, a5, b5⟩ := hi t
  rw [bn_out]
  funext y
  obtain ⟨p, q, rfl⟩ : ∃ (p : Fin 5000) (q : Fin 49), y = ix2 p q := ⟨y 0, y 1, eq_ix2 y⟩
  have ht : t.val < 20 := hN ▸ t.isLt
  have hp := p.isLt
  obtain ⟨r, hr⟩ : ∃ r : Fin 100000, r.val = 5000 * t.val + p.val := ⟨⟨5000 * t.val + p.val, by omega⟩, rfl⟩
  rw [bn_pay, hx0, hx1, hx2, hx3, hx4, h0.row a0 b0 p q r hr, h5.row a5 b5 p q r hr, h1.fix z1, h2.fix z2, h3.fix z3,
    h4.fix z4]
  rfl

/-- Row r of the array is in the block of point r / 5000. -/
theorem bn_cover (hN : N = 20) (h5 : Tiles e5 i5) (hi : BnIdx i0 i1 i2 i3 i4 i5) {fl : Fin N → Bool}
    (hfl : ∀ t, fl t = true) {S : Fin N → Finset S100000x49.Idx} (hS : ∀ t y, e5 t y ∈ S t) (i : S100000x49.Idx) :
    ∃ t, fl t = true ∧ i ∈ S t := by
  have hi0 : (i 0).val < 100000 := (i 0).isLt
  let t : Fin N := ⟨(i 0).val / 5000, by rw [hN]; omega⟩
  obtain ⟨-, -, -, -, -, a5, b5⟩ := hi t
  have ht : t.val = (i 0).val / 5000 := rfl
  have e := (h5.row a5 b5 ⟨(i 0).val % 5000, Nat.mod_lt _ (by omega)⟩ (i 1) (i 0)
    (by show (i 0).val = 5000 * t.val + (i 0).val % 5000; omega)).trans (eq_ix2 i).symm
  exact ⟨t, hfl t, e ▸ hS t _⟩

end Cert.KernelIdeal.Val

end
-- ==== Proof.KBn2.lean ====
import proofs.«425467_j63101659513266_1_alg».proof.Proof.KBn

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem final2 (c : Dev nD) :
    (dat2 (F := Ideal) V c).arrAt 5 cfg2.N
      = GIN.bnrelu (V c (Pipeline.arrRef spec2 0)) (fun d => V c (Pipeline.arrRef spec2 1) (ix2 0 d))
          (fun d => V c (Pipeline.arrRef spec2 2) (ix2 0 d)) (fun d => V c (Pipeline.arrRef spec2 3) (ix2 0 d))
          (fun d => V c (Pipeline.arrRef spec2 4) (ix2 0 d)) := by
  have hi : BnIdx win2_0.index win2_1.index win2_2.index win2_3.index win2_4.index win2_5.index := by
    decide +kernel
  refine (dat2 (F := Ideal) V c).arrAt_eq_of_cover 5 _ (fun t _ => (after2_5 V c t).trans ?_)
    (bn_cover N_2 win2_5.rect_emb_val hi flush2_5 fun t y => ((cfg2.win 5).blk t).view.emb_mem_set y)
  exact bn_flushed N_2 win2_0.rect_emb_val win2_1.rect_emb_val win2_2.rect_emb_val win2_3.rect_emb_val
    win2_4.rect_emb_val win2_5.rect_emb_val hi t (fun _ => rfl) (fun _ => rfl) (fun _ => rfl) (fun _ => rfl)
    (fun _ => rfl)

end Cert.KernelIdeal.Val
-- ==== Proof.KHalfA0.lean ====
import proofs.«425467_j63101659513266_1_alg».proof.Proof.KHalf
import proofs.«425467_j63101659513266_1_alg».proof.Proof.Gen.KernelIdeal.Frame
import proofs.«425467_j63101659513266_1_alg».proof.Proof.KStats1
import proofs.«425467_j63101659513266_1_alg».proof.Proof.KBn2
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Half

section Host

variable (V : Valuation τ sig (Elt Ideal))

theorem hA0_y :
    (StableHlo.after hostOps1 V (Proc.devRef .tc main_v21) : GIN.Arr GIN.SH)
      = GIN.gin (V (Proc.devRef .tc main_v5)) (V (Proc.devRef .tc main_v1)) (V (Proc.devRef .tc main_v3))
          (GIN.sliceE (0 : Fin 3) (V (Proc.devRef .tc main_arg11))) := by
  after_results_simp
  exact gin_read 0 _ _ _ _ _ rfl

theorem hA0_cut :
    Cut 0 (V (Proc.devRef .tc main_arg3)) (V (Proc.devRef .tc main_arg4)) (V (Proc.devRef .tc main_arg5))
      (V (Proc.devRef .tc main_arg6)) (StableHlo.after hostOps1 V (Proc.devRef .tc main_v23))
      (StableHlo.after hostOps1 V (Proc.devRef .tc main_v26)) (StableHlo.after hostOps1 V (Proc.devRef .tc main_arg5))
      (StableHlo.after hostOps1 V (Proc.devRef .tc main_arg6)) :=
  ⟨by after_results_simp; exact sliceW_read 0 _ _ rfl, by after_results_simp; exact sliceP_read 0 _ _ rfl,
    by after_results_simp, by after_results_simp⟩

theorem hA0_norm :
    Moments 0 (V (Proc.devRef .tc main_v27_0)) (V (Proc.devRef .tc main_v27_1)) (V (Proc.devRef .tc main_v27_2))
      (V (Proc.devRef .tc main_arg5)) (V (Proc.devRef .tc main_arg6)) (StableHlo.after hostOps2 V (Proc.devRef .tc main_v27_0))
      (StableHlo.after hostOps2 V (Proc.devRef .tc main_v29)) (StableHlo.after hostOps2 V (Proc.devRef .tc main_v36))
      (StableHlo.after hostOps2 V (Proc.devRef .tc main_v39)) (StableHlo.after hostOps2 V (Proc.devRef .tc main_v42)) :=
  ⟨by after_results_simp, fun d => by after_results_simp; exact mean_read _ d,
    fun d => by after_results_simp; exact istd_read _ _ d, by after_results_simp; exact sliceP_read 0 _ _ rfl,
    by after_results_simp; exact sliceP_read 0 _ _ rfl⟩

end Host

variable (m : (ℓ : Loc nD τ sig) → Buf (Elt Ideal) ℓ) (ρ : Dev nD → PrngReg)

theorem halfA0 (c : Dev nD) :
    (W6 m ρ c (Proc.devRef .tc main_v43) : GIN.Arr GIN.SH) = GIN.block GIN.varK
      (GIN.gin (W2 m ρ c (Proc.devRef .tc main_v5)) (W2 m ρ c (Proc.devRef .tc main_v1)) (W2 m ρ c (Proc.devRef .tc main_v3))
        (GIN.sliceE (0 : Fin 3) (W2 m ρ c (Proc.devRef .tc main_arg11))))
      (GIN.sliceW (0 : Fin 3) (W2 m ρ c (Proc.devRef .tc main_arg3))) (GIN.sliceP (0 : Fin 3) (W2 m ρ c (Proc.devRef .tc main_arg4)))
      (GIN.sliceP (0 : Fin 3) (W2 m ρ c (Proc.devRef .tc main_arg5))) (GIN.sliceP (0 : Fin 3) (W2 m ρ c (Proc.devRef .tc main_arg6))) :=
  half_block (hA0_y (W2 m ρ c)) (hA0_cut (W2 m ρ c))
    ⟨(W4_arr m ρ c 3).trans (final1_lin (V3 m ρ) c), (W4_arr m ρ c 4).trans (final1_sum (V3 m ρ) c),
      (W4_arr m ρ c 5).trans (final1_sumsq (V3 m ρ) c)⟩
    (W4_of_ne m ρ c main_arg5 (by decide)) (W4_of_ne m ρ c main_arg6 (by decide)) (hA0_norm (W4 m ρ c))
    ((W6_arr m ρ c 5).trans (final2 (V5 m ρ) c))

end Cert.KernelIdeal.Val

end
-- ==== Proof.KStats3.lean ====
import proofs.«425467_j63101659513266_1_alg».proof.Proof.KStatsCore

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Stats3

section Body

variable {c : Dev nD} {i : grid3.Coords} {m1 : Memref sig .tc .vmem S5000x49 .f32} {w1 : m1.IsWhole}
  {m2 : Memref sig .tc .vmem S49x49 .f32} {w2 : m2.IsWhole} {m3 : Memref sig .tc .vmem S1x49 .f32} {w3 : m3.IsWhole}
  {m4 : Memref sig .tc .vmem S5000x49 .f32} {w4 : m4.IsWhole} {m5 : Memref sig .tc .vmem S1x49 .f32} {w5 : m5.IsWhole}
  {m6 : Memref sig .tc .vmem S1x49 .f32} {w6 : m6.IsWhole}
  {xa : Vec Ideal S5000x49 .f32} {xb : Vec Ideal S49x49 .f32} {xc ya yb : Vec Ideal S1x49 .f32}

-- at the first point: the linear map of the block, and the two accumulators started from the zero block just stored
theorem outA_eq {hc : cond3_0 i} :
    (out3_A_3 c i m1 w1 m2 w2 m3 w3 m4 w4 m5 w5 m6 w6 hc xa xb xc, out3_A_4 c i m1 w1 m2 w2 m3 w3 m4 w4 m5 w5 m6 w6 hc xa xb xc, out3_A_5 c i m1 w1 m2 w2 m3 w3 m4 w4 m5 w5 m6 w6 hc xa xb xc)
      = (k3_pay3 xa xb xc, k3_pay4 xa xb xc (k3_pay1 (F := Ideal)), k3_pay5 xa xb xc (k3_pay2 (F := Ideal))) := by
  unfold out3_A_3 out3_A_4 out3_A_5
  rw [View.read_writes_eq_canon _ _ _ (cover3_A_3 c i m1 w1 m2 w2 m3 w3 m4 w4 m5 w5 m6 w6 hc xa xb xc), View.read_writes_eq_canon _ _ _ (cover3_A_4 c i m1 w1 m2 w2 m3 w3 m4 w4 m5 w5 m6 w6 hc xa xb xc),
    View.read_writes_eq_canon _ _ _ (cover3_A_5 c i m1 w1 m2 w2 m3 w3 m4 w4 m5 w5 m6 w6 hc xa xb xc)]
  unfold kernelRun3_A
  dsimp only
  sl_unfold_words
  simp only [View.canon_unit_zero (S := S5000x49) Stats.hz, View.canon_cons_unit_zero (S := S1x49) Stats.hz,
    View.readCov_unit_zero (S := S1x49) _ Stats.hz, View.readAt_eq_ld, w1.read_unread, w2.read_unread, w3.read_unread,
    View.ld_unit_zero (S := S5000x49) Stats.hz, View.ld_unit_zero (S := S49x49) Stats.hz, View.ld_unit_zero (S := S1x49) Stats.hz]

-- at a later point: the same over what the point before left in the accumulators
theorem outB_eq {hc : ¬cond3_0 i} :
    (out3_B_3 c i m1 w1 m2 w2 m3 w3 m4 w4 m5 w5 m6 w6 hc xa xb xc ya yb, out3_B_4 c i m1 w1 m2 w2 m3 w3 m4 w4 m5 w5 m6 w6 hc xa xb xc ya yb, out3_B_5 c i m1 w1 m2 w2 m3 w3 m4 w4 m5 w5 m6 w6 hc xa xb xc ya yb)
      = (k3_pay3 xa xb xc, k3_pay4 xa xb xc ya, k3_pay5 xa xb xc yb) := by
  unfold out3_B_3 out3_B_4 out3_B_5
  rw [View.read_writes_eq_canon _ _ _ (cover3_B_3 c i m1 w1 m2 w2 m3 w3 m4 w4 m5 w5 m6 w6 hc xa xb xc ya yb), View.read_writes_eq_canon _ _ _ (cover3_B_4 c i m1 w1 m2 w2 m3 w3 m4 w4 m5 w5 m6 w6 hc xa xb xc ya yb),
    View.read_writes_eq_canon _ _ _ (cover3_B_5 c i m1 w1 m2 w2 m3 w3 m4 w4 m5 w5 m6 w6 hc xa xb xc ya yb)]
  unfold kernelRun3_B
  dsimp only
  sl_unfold_words
  simp only [View.canon_unit_zero (S := S5000x49) Stats.hz, View.canon_unit_zero (S := S1x49) Stats.hz, View.readAt_eq_ld, w1.read_unread, w2.read_unread, w3.read_unread, w5.read_unread,
    w6.read_unread, View.ld_unit_zero (S := S5000x49) Stats.hz, View.ld_unit_zero (S := S49x49) Stats.hz,
    View.ld_unit_zero (S := S1x49) Stats.hz]

end Body

theorem idx : ∀ t : Fin cfg3.N, win3_0.index t = ![t.val, 0] ∧ win3_1.index t = (fun _ => 0) ∧ win3_2.index t = (fun _ => 0)
    ∧ win3_3.index t = ![t.val, 0] ∧ win3_4.index t = (fun _ => 0) ∧ win3_5.index t = (fun _ => 0) :=
  (by decide +kernel : ∀ t : Fin grid3.N, _)

variable (V : (c : Dev nD) → (b : Ref sig .tc) → Buf (Elt Ideal) ((c : Thread nD τ).loc b)) (c : Dev nD)

abbrev emb (w : Fin cfg3.W) (t : Fin cfg3.N) (y : ((cfg3.win w).xblock (grid3.coords t)).Idx) := ((cfg3.win w).blk t).view.emb y

theorem read4 (t : Fin cfg3.N) (G : S1x49.Idx → EReal) (y : ((cfg3.win 4).xblock (grid3.coords t)).Idx) :
    ((cfg3.win 4).blk t).view.read (Elt Ideal) G y = G (emb 4 t y) := rfl

theorem read5 (t : Fin cfg3.N) (G : S1x49.Idx → EReal) (y : ((cfg3.win 5).xblock (grid3.coords t)).Idx) :
    ((cfg3.win 5).blk t).view.read (Elt Ideal) G y = G (emb 5 t y) := rfl

theorem reg : Stats.Region (V c (Pipeline.arrRef spec3 0)) (V c (Pipeline.arrRef spec3 1)) (V c (Pipeline.arrRef spec3 2))
    (emb 3) (emb 4) (emb 5) (outsAt3 V c) :=
  Stats.region _ _ _ (emb 0) _ (emb 1) (emb 2) _ _ _ N_3 win3_0.index win3_1.index win3_2.index win3_3.index win3_4.index
    win3_5.index win3_0.rect_emb_val (fun t => (idx t).1) win3_1.rect_emb_val (fun t => (idx t).2.1)
    win3_2.rect_emb_val (fun t => (idx t).2.2.1) win3_3.rect_emb_val (fun t => (idx t).2.2.2.1)
    win3_4.rect_emb_val (fun t => (idx t).2.2.2.2.1) win3_5.rect_emb_val (fun t => (idx t).2.2.2.2.2)
    (fun t h => (outsAt3_A V c t h).trans outA_eq) fun t h => (outsAt3_B V c t h).trans outB_eq

end Stats3

variable (V : (c : Dev nD) → (b : Ref sig .tc) → Buf (Elt Ideal) ((c : Thread nD τ).loc b))

theorem final3_lin (c : Dev nD) :
    (dat3 (F := Ideal) V c).arrAt 3 cfg3.N
      = GIN.lin (K := 49) (V c (Pipeline.arrRef spec3 0)) (V c (Pipeline.arrRef spec3 1))
          (fun d => V c (Pipeline.arrRef spec3 2) (ix2 0 d)) :=
  (dat3 (F := Ideal) V c).arrAt_eq_of_cover 3 _
    (fun t _ => by
      show (cfg3.win 3).cut (grid3.coords t) ((dat3 V c).after 3 t) = _
      rw [after3_3]
      exact funext ((Stats3.reg V c).lin t))
    fun i => by
      obtain ⟨t, y, rfl⟩ := (Stats3.reg V c).cover i
      exact ⟨t, flush3_3 t, View.emb_mem_set _ y⟩

theorem final3_sum (c : Dev nD) :
    (dat3 (F := Ideal) V c).arrAt 4 cfg3.N
      = fun j => GIN.csum (GIN.lin (K := 49) (V c (Pipeline.arrRef spec3 0)) (V c (Pipeline.arrRef spec3 1))
          (fun d => V c (Pipeline.arrRef spec3 2) (ix2 0 d))) (j 1) :=
  (dat3 (F := Ideal) V c).arrAt_eq_of_cover 4 _
    (fun t hf => by
      have h19 : t.val = 19 := by have := (flush3_4 t).mp hf; have := t.isLt; have : cfg3.N = 20 := N_3; omega
      show (cfg3.win 4).cut (grid3.coords t) ((dat3 V c).after 4 t) = _
      rw [after3_4]
      exact funext fun y => ((Stats3.reg V c).sums t h19 y).1.trans (Stats3.read4 t (fun j => GIN.csum _ (j 1)) y).symm)
    fun i => by
      obtain ⟨t, h19, y, rfl⟩ := (Stats3.reg V c).cover4 i
      exact ⟨t, (flush3_4 t).mpr (by rw [h19]), View.emb_mem_set _ y⟩

theorem final3_sumsq (c : Dev nD) :
    (dat3 (F := Ideal) V c).arrAt 5 cfg3.N
      = fun j => GIN.csumsq (GIN.lin (K := 49) (V c (Pipeline.arrRef spec3 0)) (V c (Pipeline.arrRef spec3 1))
          (fun d => V c (Pipeline.arrRef spec3 2) (ix2 0 d))) (j 1) :=
  (dat3 (F := Ideal) V c).arrAt_eq_of_cover 5 _
    (fun t hf => by
      have h19 : t.val = 19 := by have := (flush3_5 t).mp hf; have := t.isLt; have : cfg3.N = 20 := N_3; omega
      show (cfg3.win 5).cut (grid3.coords t) ((dat3 V c).after 5 t) = _
      rw [after3_5]
      exact funext fun y => ((Stats3.reg V c).sums t h19 y).2.trans (Stats3.read5 t (fun j => GIN.csumsq _ (j 1)) y).symm)
    fun i => by
      obtain ⟨t, h19, y, rfl⟩ := (Stats3.reg V c).cover5 i
      exact ⟨t, (flush3_5 t).mpr (by rw [h19]), View.emb_mem_set _ y⟩

end Cert.KernelIdeal.Val

end
-- ==== Proof.KBn4.lean ====
import proofs.«425467_j63101659513266_1_alg».proof.Proof.KBn

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem final4 (c : Dev nD) :
    (dat4 (F := Ideal) V c).arrAt 5 cfg4.N
      = GIN.bnrelu (V c (Pipeline.arrRef spec4 0)) (fun d => V c (Pipeline.arrRef spec4 1) (ix2 0 d))
          (fun d => V c (Pipeline.arrRef spec4 2) (ix2 0 d)) (fun d => V c (Pipeline.arrRef spec4 3) (ix2 0 d))
          (fun d => V c (Pipeline.arrRef spec4 4) (ix2 0 d)) := by
  have hi : BnIdx win4_0.index win4_1.index win4_2.index win4_3.index win4_4.index win4_5.index := by
    decide +kernel
  refine (dat4 (F := Ideal) V c).arrAt_eq_of_cover 5 _ (fun t _ => (after4_5 V c t).trans ?_)
    (bn_cover N_4 win4_5.rect_emb_val hi flush4_5 fun t y => ((cfg4.win 5).blk t).view.emb_mem_set y)
  exact bn_flushed N_4 win4_0.rect_emb_val win4_1.rect_emb_val win4_2.rect_emb_val win4_3.rect_emb_val
    win4_4.rect_emb_val win4_5.rect_emb_val hi t (fun _ => rfl) (fun _ => rfl) (fun _ => rfl) (fun _ => rfl)
    (fun _ => rfl)

end Cert.KernelIdeal.Val
-- ==== Proof.KHalfB0.lean ====
import proofs.«425467_j63101659513266_1_alg».proof.Proof.KHalf
import proofs.«425467_j63101659513266_1_alg».proof.Proof.Gen.KernelIdeal.Frame
import proofs.«425467_j63101659513266_1_alg».proof.Proof.KStats3
import proofs.«425467_j63101659513266_1_alg».proof.Proof.KBn4
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Half

section Host

variable (X : Valuation τ sig (Elt Ideal))

theorem B0_keep_in : StableHlo.after hostOps3 X (Proc.devRef .tc main_v43) = X (Proc.devRef .tc main_v43) := by
  after_results_simp

theorem B0_cut :
    Cut 0 (X (Proc.devRef .tc main_arg7)) (X (Proc.devRef .tc main_arg8)) (X (Proc.devRef .tc main_arg9))
      (X (Proc.devRef .tc main_arg10)) (StableHlo.after hostOps3 X (Proc.devRef .tc main_v45))
      (StableHlo.after hostOps3 X (Proc.devRef .tc main_v48)) (StableHlo.after hostOps3 X (Proc.devRef .tc main_arg9))
      (StableHlo.after hostOps3 X (Proc.devRef .tc main_arg10)) :=
  ⟨by after_results_simp; exact sliceW_read 0 _ _ rfl, by after_results_simp; exact sliceP_read 0 _ _ rfl,
    by after_results_simp, by after_results_simp⟩

theorem B0_norm :
    Moments 0 (X (Proc.devRef .tc main_v49_0)) (X (Proc.devRef .tc main_v49_1)) (X (Proc.devRef .tc main_v49_2))
      (X (Proc.devRef .tc main_arg9)) (X (Proc.devRef .tc main_arg10)) (StableHlo.after hostOps4 X (Proc.devRef .tc main_v49_0))
      (StableHlo.after hostOps4 X (Proc.devRef .tc main_v51)) (StableHlo.after hostOps4 X (Proc.devRef .tc main_v58))
      (StableHlo.after hostOps4 X (Proc.devRef .tc main_v61)) (StableHlo.after hostOps4 X (Proc.devRef .tc main_v64)) :=
  ⟨by after_results_simp, fun d => by after_results_simp; exact mean_read _ d,
    fun d => by after_results_simp; exact istd_read _ _ d, by after_results_simp; exact sliceP_read 0 _ _ rfl,
    by after_results_simp; exact sliceP_read 0 _ _ rfl⟩

end Host

variable (m : (ℓ : Loc nD τ sig) → Buf (Elt Ideal) ℓ) (ρ : Dev nD → PrngReg)

theorem halfB0 (c : Dev nD) :
    W10 m ρ c (Proc.devRef .tc main_v65)
      = GIN.block GIN.varK (W6 m ρ c (Proc.devRef .tc main_v43))
          (GIN.sliceW 0 (W6 m ρ c (Proc.devRef .tc main_arg7))) (GIN.sliceP 0 (W6 m ρ c (Proc.devRef .tc main_arg8)))
          (GIN.sliceP 0 (W6 m ρ c (Proc.devRef .tc main_arg9))) (GIN.sliceP 0 (W6 m ρ c (Proc.devRef .tc main_arg10))) :=
  half_block (B0_keep_in (W6 m ρ c)) (B0_cut (W6 m ρ c))
    ⟨(W8_arr m ρ c 3).trans (final3_lin (V7 m ρ) c), (W8_arr m ρ c 4).trans (final3_sum (V7 m ρ) c),
      (W8_arr m ρ c 5).trans (final3_sumsq (V7 m ρ) c)⟩
    (W8_of_ne m ρ c main_arg9 (by decide)) (W8_of_ne m ρ c main_arg10 (by decide)) (B0_norm (W8 m ρ c))
    ((W10_arr m ρ c 5).trans (final4 (V9 m ρ) c))

end Cert.KernelIdeal.Val

end
-- ==== Proof.KStats5.lean ====
import proofs.«425467_j63101659513266_1_alg».proof.Proof.KStatsCore

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Stats5

section Body

variable {c : Dev nD} {i : grid5.Coords} {m1 : Memref sig .tc .vmem S5000x49 .f32} {w1 : m1.IsWhole}
  {m2 : Memref sig .tc .vmem S49x49 .f32} {w2 : m2.IsWhole} {m3 : Memref sig .tc .vmem S1x49 .f32} {w3 : m3.IsWhole}
  {m4 : Memref sig .tc .vmem S5000x49 .f32} {w4 : m4.IsWhole} {m5 : Memref sig .tc .vmem S1x49 .f32} {w5 : m5.IsWhole}
  {m6 : Memref sig .tc .vmem S1x49 .f32} {w6 : m6.IsWhole}
  {xa : Vec Ideal S5000x49 .f32} {xb : Vec Ideal S49x49 .f32} {xc ya yb : Vec Ideal S1x49 .f32}

-- at the first point: the linear map of the block, and the two accumulators started from the zero block just stored
theorem outA_eq {hc : cond5_0 i} :
    (out5_A_3 c i m1 w1 m2 w2 m3 w3 m4 w4 m5 w5 m6 w6 hc xa xb xc, out5_A_4 c i m1 w1 m2 w2 m3 w3 m4 w4 m5 w5 m6 w6 hc xa xb xc, out5_A_5 c i m1 w1 m2 w2 m3 w3 m4 w4 m5 w5 m6 w6 hc xa xb xc)
      = (k5_pay3 xa xb xc, k5_pay4 xa xb xc (k5_pay1 (F := Ideal)), k5_pay5 xa xb xc (k5_pay2 (F := Ideal))) := by
  unfold out5_A_3 out5_A_4 out5_A_5
  rw [View.read_writes_eq_canon _ _ _ (cover5_A_3 c i m1 w1 m2 w2 m3 w3 m4 w4 m5 w5 m6 w6 hc xa xb xc), View.read_writes_eq_canon _ _ _ (cover5_A_4 c i m1 w1 m2 w2 m3 w3 m4 w4 m5 w5 m6 w6 hc xa xb xc),
    View.read_writes_eq_canon _ _ _ (cover5_A_5 c i m1 w1 m2 w2 m3 w3 m4 w4 m5 w5 m6 w6 hc xa xb xc)]
  unfold kernelRun5_A
  dsimp only
  sl_unfold_words
  simp only [View.canon_unit_zero (S := S5000x49) Stats.hz, View.canon_cons_unit_zero (S := S1x49) Stats.hz,
    View.readCov_unit_zero (S := S1x49) _ Stats.hz, View.readAt_eq_ld, w1.read_unread, w2.read_unread, w3.read_unread,
    View.ld_unit_zero (S := S5000x49) Stats.hz, View.ld_unit_zero (S := S49x49) Stats.hz, View.ld_unit_zero (S := S1x49) Stats.hz]

-- at a later point: the same over what the point before left in the accumulators
theorem outB_eq {hc : ¬cond5_0 i} :
    (out5_B_3 c i m1 w1 m2 w2 m3 w3 m4 w4 m5 w5 m6 w6 hc xa xb xc ya yb, out5_B_4 c i m1 w1 m2 w2 m3 w3 m4 w4 m5 w5 m6 w6 hc xa xb xc ya yb, out5_B_5 c i m1 w1 m2 w2 m3 w3 m4 w4 m5 w5 m6 w6 hc xa xb xc ya yb)
      = (k5_pay3 xa xb xc, k5_pay4 xa xb xc ya, k5_pay5 xa xb xc yb) := by
  unfold out5_B_3 out5_B_4 out5_B_5
  rw [View.read_writes_eq_canon _ _ _ (cover5_B_3 c i m1 w1 m2 w2 m3 w3 m4 w4 m5 w5 m6 w6 hc xa xb xc ya yb), View.read_writes_eq_canon _ _ _ (cover5_B_4 c i m1 w1 m2 w2 m3 w3 m4 w4 m5 w5 m6 w6 hc xa xb xc ya yb),
    View.read_writes_eq_canon _ _ _ (cover5_B_5 c i m1 w1 m2 w2 m3 w3 m4 w4 m5 w5 m6 w6 hc xa xb xc ya yb)]
  unfold kernelRun5_B
  dsimp only
  sl_unfold_words
  simp only [View.canon_unit_zero (S := S5000x49) Stats.hz, View.canon_unit_zero (S := S1x49) Stats.hz, View.readAt_eq_ld, w1.read_unread, w2.read_unread, w3.read_unread, w5.read_unread,
    w6.read_unread, View.ld_unit_zero (S := S5000x49) Stats.hz, View.ld_unit_zero (S := S49x49) Stats.hz,
    View.ld_unit_zero (S := S1x49) Stats.hz]

end Body

theorem idx : ∀ t : Fin cfg5.N, win5_0.index t = ![t.val, 0] ∧ win5_1.index t = (fun _ => 0) ∧ win5_2.index t = (fun _ => 0)
    ∧ win5_3.index t = ![t.val, 0] ∧ win5_4.index t = (fun _ => 0) ∧ win5_5.index t = (fun _ => 0) :=
  (by decide +kernel : ∀ t : Fin grid5.N, _)

variable (V : (c : Dev nD) → (b : Ref sig .tc) → Buf (Elt Ideal) ((c : Thread nD τ).loc b)) (c : Dev nD)

abbrev emb (w : Fin cfg5.W) (t : Fin cfg5.N) (y : ((cfg5.win w).xblock (grid5.coords t)).Idx) := ((cfg5.win w).blk t).view.emb y

theorem read4 (t : Fin cfg5.N) (G : S1x49.Idx → EReal) (y : ((cfg5.win 4).xblock (grid5.coords t)).Idx) :
    ((cfg5.win 4).blk t).view.read (Elt Ideal) G y = G (emb 4 t y) := rfl

theorem read5 (t : Fin cfg5.N) (G : S1x49.Idx → EReal) (y : ((cfg5.win 5).xblock (grid5.coords t)).Idx) :
    ((cfg5.win 5).blk t).view.read (Elt Ideal) G y = G (emb 5 t y) := rfl

theorem reg : Stats.Region (V c (Pipeline.arrRef spec5 0)) (V c (Pipeline.arrRef spec5 1)) (V c (Pipeline.arrRef spec5 2))
    (emb 3) (emb 4) (emb 5) (outsAt5 V c) :=
  Stats.region _ _ _ (emb 0) _ (emb 1) (emb 2) _ _ _ N_5 win5_0.index win5_1.index win5_2.index win5_3.index win5_4.index
    win5_5.index win5_0.rect_emb_val (fun t => (idx t).1) win5_1.rect_emb_val (fun t => (idx t).2.1)
    win5_2.rect_emb_val (fun t => (idx t).2.2.1) win5_3.rect_emb_val (fun t => (idx t).2.2.2.1)
    win5_4.rect_emb_val (fun t => (idx t).2.2.2.2.1) win5_5.rect_emb_val (fun t => (idx t).2.2.2.2.2)
    (fun t h => (outsAt5_A V c t h).trans outA_eq) fun t h => (outsAt5_B V c t h).trans outB_eq

end Stats5

variable (V : (c : Dev nD) → (b : Ref sig .tc) → Buf (Elt Ideal) ((c : Thread nD τ).loc b))

theorem final5_lin (c : Dev nD) :
    (dat5 (F := Ideal) V c).arrAt 3 cfg5.N
      = GIN.lin (K := 49) (V c (Pipeline.arrRef spec5 0)) (V c (Pipeline.arrRef spec5 1))
          (fun d => V c (Pipeline.arrRef spec5 2) (ix2 0 d)) :=
  (dat5 (F := Ideal) V c).arrAt_eq_of_cover 3 _
    (fun t _ => by
      show (cfg5.win 3).cut (grid5.coords t) ((dat5 V c).after 3 t) = _
      rw [after5_3]
      exact funext ((Stats5.reg V c).lin t))
    fun i => by
      obtain ⟨t, y, rfl⟩ := (Stats5.reg V c).cover i
      exact ⟨t, flush5_3 t, View.emb_mem_set _ y⟩

theorem final5_sum (c : Dev nD) :
    (dat5 (F := Ideal) V c).arrAt 4 cfg5.N
      = fun j => GIN.csum (GIN.lin (K := 49) (V c (Pipeline.arrRef spec5 0)) (V c (Pipeline.arrRef spec5 1))
          (fun d => V c (Pipeline.arrRef spec5 2) (ix2 0 d))) (j 1) :=
  (dat5 (F := Ideal) V c).arrAt_eq_of_cover 4 _
    (fun t hf => by
      have h19 : t.val = 19 := by have := (flush5_4 t).mp hf; have := t.isLt; have : cfg5.N = 20 := N_5; omega
      show (cfg5.win 4).cut (grid5.coords t) ((dat5 V c).after 4 t) = _
      rw [after5_4]
      exact funext fun y => ((Stats5.reg V c).sums t h19 y).1.trans (Stats5.read4 t (fun j => GIN.csum _ (j 1)) y).symm)
    fun i => by
      obtain ⟨t, h19, y, rfl⟩ := (Stats5.reg V c).cover4 i
      exact ⟨t, (flush5_4 t).mpr (by rw [h19]), View.emb_mem_set _ y⟩

theorem final5_sumsq (c : Dev nD) :
    (dat5 (F := Ideal) V c).arrAt 5 cfg5.N
      = fun j => GIN.csumsq (GIN.lin (K := 49) (V c (Pipeline.arrRef spec5 0)) (V c (Pipeline.arrRef spec5 1))
          (fun d => V c (Pipeline.arrRef spec5 2) (ix2 0 d))) (j 1) :=
  (dat5 (F := Ideal) V c).arrAt_eq_of_cover 5 _
    (fun t hf => by
      have h19 : t.val = 19 := by have := (flush5_5 t).mp hf; have := t.isLt; have : cfg5.N = 20 := N_5; omega
      show (cfg5.win 5).cut (grid5.coords t) ((dat5 V c).after 5 t) = _
      rw [after5_5]
      exact funext fun y => ((Stats5.reg V c).sums t h19 y).2.trans (Stats5.read5 t (fun j => GIN.csumsq _ (j 1)) y).symm)
    fun i => by
      obtain ⟨t, h19, y, rfl⟩ := (Stats5.reg V c).cover5 i
      exact ⟨t, (flush5_5 t).mpr (by rw [h19]), View.emb_mem_set _ y⟩

end Cert.KernelIdeal.Val

end
-- ==== Proof.KBn6.lean ====
import proofs.«425467_j63101659513266_1_alg».proof.Proof.KBn

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem final6 (c : Dev nD) :
    (dat6 (F := Ideal) V c).arrAt 5 cfg6.N
      = GIN.bnrelu (V c (Pipeline.arrRef spec6 0)) (fun d => V c (Pipeline.arrRef spec6 1) (ix2 0 d))
          (fun d => V c (Pipeline.arrRef spec6 2) (ix2 0 d)) (fun d => V c (Pipeline.arrRef spec6 3) (ix2 0 d))
          (fun d => V c (Pipeline.arrRef spec6 4) (ix2 0 d)) := by
  have hi : BnIdx win6_0.index win6_1.index win6_2.index win6_3.index win6_4.index win6_5.index := by
    decide +kernel
  refine (dat6 (F := Ideal) V c).arrAt_eq_of_cover 5 _ (fun t _ => (after6_5 V c t).trans ?_)
    (bn_cover N_6 win6_5.rect_emb_val hi flush6_5 fun t y => ((cfg6.win 5).blk t).view.emb_mem_set y)
  exact bn_flushed N_6 win6_0.rect_emb_val win6_1.rect_emb_val win6_2.rect_emb_val win6_3.rect_emb_val
    win6_4.rect_emb_val win6_5.rect_emb_val hi t (fun _ => rfl) (fun _ => rfl) (fun _ => rfl) (fun _ => rfl)
    (fun _ => rfl)

end Cert.KernelIdeal.Val
-- ==== Proof.KHalfA1.lean ====
import proofs.«425467_j63101659513266_1_alg».proof.Proof.KHalf
import proofs.«425467_j63101659513266_1_alg».proof.Proof.Gen.KernelIdeal.Frame
import proofs.«425467_j63101659513266_1_alg».proof.Proof.KStats5
import proofs.«425467_j63101659513266_1_alg».proof.Proof.KBn6
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Half

section Host

variable (V : Valuation τ sig (Elt Ideal))

theorem hA1_y :
    (StableHlo.after hostOps5 V (Proc.devRef .tc main_v81) : GIN.Arr GIN.SH)
      = GIN.gin (V (Proc.devRef .tc main_v65)) (V (Proc.devRef .tc main_v1)) (V (Proc.devRef .tc main_v3))
          (GIN.sliceE (1 : Fin 3) (V (Proc.devRef .tc main_arg11))) := by
  after_results_simp
  exact gin_read 1 _ _ _ _ _ rfl

theorem hA1_cut :
    Cut 1 (V (Proc.devRef .tc main_arg3)) (V (Proc.devRef .tc main_arg4)) (V (Proc.devRef .tc main_arg5))
      (V (Proc.devRef .tc main_arg6)) (StableHlo.after hostOps5 V (Proc.devRef .tc main_v83))
      (StableHlo.after hostOps5 V (Proc.devRef .tc main_v86)) (StableHlo.after hostOps5 V (Proc.devRef .tc main_arg5))
      (StableHlo.after hostOps5 V (Proc.devRef .tc main_arg6)) :=
  ⟨by after_results_simp; exact sliceW_read 1 _ _ rfl, by after_results_simp; exact sliceP_read 1 _ _ rfl,
    by after_results_simp, by after_results_simp⟩

theorem hA1_norm :
    Moments 1 (V (Proc.devRef .tc main_v87_0)) (V (Proc.devRef .tc main_v87_1)) (V (Proc.devRef .tc main_v87_2))
      (V (Proc.devRef .tc main_arg5)) (V (Proc.devRef .tc main_arg6)) (StableHlo.after hostOps6 V (Proc.devRef .tc main_v87_0))
      (StableHlo.after hostOps6 V (Proc.devRef .tc main_v89)) (StableHlo.after hostOps6 V (Proc.devRef .tc main_v96))
      (StableHlo.after hostOps6 V (Proc.devRef .tc main_v99)) (StableHlo.after hostOps6 V (Proc.devRef .tc main_v102)) :=
  ⟨by after_results_simp, fun d => by after_results_simp; exact mean_read _ d,
    fun d => by after_results_simp; exact istd_read _ _ d, by after_results_simp; exact sliceP_read 1 _ _ rfl,
    by after_results_simp; exact sliceP_read 1 _ _ rfl⟩

end Host

variable (m : (ℓ : Loc nD τ sig) → Buf (Elt Ideal) ℓ) (ρ : Dev nD → PrngReg)

theorem halfA1 (c : Dev nD) :
    (W14 m ρ c (Proc.devRef .tc main_v103) : GIN.Arr GIN.SH) = GIN.block GIN.varK
      (GIN.gin (W10 m ρ c (Proc.devRef .tc main_v65)) (W10 m ρ c (Proc.devRef .tc main_v1)) (W10 m ρ c (Proc.devRef .tc main_v3))
        (GIN.sliceE (1 : Fin 3) (W10 m ρ c (Proc.devRef .tc main_arg11))))
      (GIN.sliceW (1 : Fin 3) (W10 m ρ c (Proc.devRef .tc main_arg3))) (GIN.sliceP (1 : Fin 3) (W10 m ρ c (Proc.devRef .tc main_arg4)))
      (GIN.sliceP (1 : Fin 3) (W10 m ρ c (Proc.devRef .tc main_arg5))) (GIN.sliceP (1 : Fin 3) (W10 m ρ c (Proc.devRef .tc main_arg6))) :=
  half_block (hA1_y (W10 m ρ c)) (hA1_cut (W10 m ρ c))
    ⟨(W12_arr m ρ c 3).trans (final5_lin (V11 m ρ) c), (W12_arr m ρ c 4).trans (final5_sum (V11 m ρ) c),
      (W12_arr m ρ c 5).trans (final5_sumsq (V11 m ρ) c)⟩
    (W12_of_ne m ρ c main_arg5 (by decide)) (W12_of_ne m ρ c main_arg6 (by decide)) (hA1_norm (W12 m ρ c))
    ((W14_arr m ρ c 5).trans (final6 (V13 m ρ) c))

end Cert.KernelIdeal.Val

end
-- ==== Proof.KStats7.lean ====
import proofs.«425467_j63101659513266_1_alg».proof.Proof.KStatsCore

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Stats7

section Body

variable {c : Dev nD} {i : grid7.Coords} {m1 : Memref sig .tc .vmem S5000x49 .f32} {w1 : m1.IsWhole}
  {m2 : Memref sig .tc .vmem S49x49 .f32} {w2 : m2.IsWhole} {m3 : Memref sig .tc .vmem S1x49 .f32} {w3 : m3.IsWhole}
  {m4 : Memref sig .tc .vmem S5000x49 .f32} {w4 : m4.IsWhole} {m5 : Memref sig .tc .vmem S1x49 .f32} {w5 : m5.IsWhole}
  {m6 : Memref sig .tc .vmem S1x49 .f32} {w6 : m6.IsWhole}
  {xa : Vec Ideal S5000x49 .f32} {xb : Vec Ideal S49x49 .f32} {xc ya yb : Vec Ideal S1x49 .f32}

-- at the first point: the linear map of the block, and the two accumulators started from the zero block just stored
theorem outA_eq {hc : cond7_0 i} :
    (out7_A_3 c i m1 w1 m2 w2 m3 w3 m4 w4 m5 w5 m6 w6 hc xa xb xc, out7_A_4 c i m1 w1 m2 w2 m3 w3 m4 w4 m5 w5 m6 w6 hc xa xb xc, out7_A_5 c i m1 w1 m2 w2 m3 w3 m4 w4 m5 w5 m6 w6 hc xa xb xc)
      = (k7_pay3 xa xb xc, k7_pay4 xa xb xc (k7_pay1 (F := Ideal)), k7_pay5 xa xb xc (k7_pay2 (F := Ideal))) := by
  unfold out7_A_3 out7_A_4 out7_A_5
  rw [View.read_writes_eq_canon _ _ _ (cover7_A_3 c i m1 w1 m2 w2 m3 w3 m4 w4 m5 w5 m6 w6 hc xa xb xc), View.read_writes_eq_canon _ _ _ (cover7_A_4 c i m1 w1 m2 w2 m3 w3 m4 w4 m5 w5 m6 w6 hc xa xb xc),
    View.read_writes_eq_canon _ _ _ (cover7_A_5 c i m1 w1 m2 w2 m3 w3 m4 w4 m5 w5 m6 w6 hc xa xb xc)]
  unfold kernelRun7_A
  dsimp only
  sl_unfold_words
  simp only [View.canon_unit_zero (S := S5000x49) Stats.hz, View.canon_cons_unit_zero (S := S1x49) Stats.hz,
    View.readCov_unit_zero (S := S1x49) _ Stats.hz, View.readAt_eq_ld, w1.read_unread, w2.read_unread, w3.read_unread,
    View.ld_unit_zero (S := S5000x49) Stats.hz, View.ld_unit_zero (S := S49x49) Stats.hz, View.ld_unit_zero (S := S1x49) Stats.hz]

-- at a later point: the same over what the point before left in the accumulators
theorem outB_eq {hc : ¬cond7_0 i} :
    (out7_B_3 c i m1 w1 m2 w2 m3 w3 m4 w4 m5 w5 m6 w6 hc xa xb xc ya yb, out7_B_4 c i m1 w1 m2 w2 m3 w3 m4 w4 m5 w5 m6 w6 hc xa xb xc ya yb, out7_B_5 c i m1 w1 m2 w2 m3 w3 m4 w4 m5 w5 m6 w6 hc xa xb xc ya yb)
      = (k7_pay3 xa xb xc, k7_pay4 xa xb xc ya, k7_pay5 xa xb xc yb) := by
  unfold out7_B_3 out7_B_4 out7_B_5
  rw [View.read_writes_eq_canon _ _ _ (cover7_B_3 c i m1 w1 m2 w2 m3 w3 m4 w4 m5 w5 m6 w6 hc xa xb xc ya yb), View.read_writes_eq_canon _ _ _ (cover7_B_4 c i m1 w1 m2 w2 m3 w3 m4 w4 m5 w5 m6 w6 hc xa xb xc ya yb),
    View.read_writes_eq_canon _ _ _ (cover7_B_5 c i m1 w1 m2 w2 m3 w3 m4 w4 m5 w5 m6 w6 hc xa xb xc ya yb)]
  unfold kernelRun7_B
  dsimp only
  sl_unfold_words
  simp only [View.canon_unit_zero (S := S5000x49) Stats.hz, View.canon_unit_zero (S := S1x49) Stats.hz, View.readAt_eq_ld, w1.read_unread, w2.read_unread, w3.read_unread, w5.read_unread,
    w6.read_unread, View.ld_unit_zero (S := S5000x49) Stats.hz, View.ld_unit_zero (S := S49x49) Stats.hz,
    View.ld_unit_zero (S := S1x49) Stats.hz]

end Body

theorem idx : ∀ t : Fin cfg7.N, win7_0.index t = ![t.val, 0] ∧ win7_1.index t = (fun _ => 0) ∧ win7_2.index t = (fun _ => 0)
    ∧ win7_3.index t = ![t.val, 0] ∧ win7_4.index t = (fun _ => 0) ∧ win7_5.index t = (fun _ => 0) :=
  (by decide +kernel : ∀ t : Fin grid7.N, _)

variable (V : (c : Dev nD) → (b : Ref sig .tc) → Buf (Elt Ideal) ((c : Thread nD τ).loc b)) (c : Dev nD)

abbrev emb (w : Fin cfg7.W) (t : Fin cfg7.N) (y : ((cfg7.win w).xblock (grid7.coords t)).Idx) := ((cfg7.win w).blk t).view.emb y

theorem read4 (t : Fin cfg7.N) (G : S1x49.Idx → EReal) (y : ((cfg7.win 4).xblock (grid7.coords t)).Idx) :
    ((cfg7.win 4).blk t).view.read (Elt Ideal) G y = G (emb 4 t y) := rfl

theorem read5 (t : Fin cfg7.N) (G : S1x49.Idx → EReal) (y : ((cfg7.win 5).xblock (grid7.coords t)).Idx) :
    ((cfg7.win 5).blk t).view.read (Elt Ideal) G y = G (emb 5 t y) := rfl

theorem reg : Stats.Region (V c (Pipeline.arrRef spec7 0)) (V c (Pipeline.arrRef spec7 1)) (V c (Pipeline.arrRef spec7 2))
    (emb 3) (emb 4) (emb 5) (outsAt7 V c) :=
  Stats.region _ _ _ (emb 0) _ (emb 1) (emb 2) _ _ _ N_7 win7_0.index win7_1.index win7_2.index win7_3.index win7_4.index
    win7_5.index win7_0.rect_emb_val (fun t => (idx t).1) win7_1.rect_emb_val (fun t => (idx t).2.1)
    win7_2.rect_emb_val (fun t => (idx t).2.2.1) win7_3.rect_emb_val (fun t => (idx t).2.2.2.1)
    win7_4.rect_emb_val (fun t => (idx t).2.2.2.2.1) win7_5.rect_emb_val (fun t => (idx t).2.2.2.2.2)
    (fun t h => (outsAt7_A V c t h).trans outA_eq) fun t h => (outsAt7_B V c t h).trans outB_eq

end Stats7

variable (V : (c : Dev nD) → (b : Ref sig .tc) → Buf (Elt Ideal) ((c : Thread nD τ).loc b))

theorem final7_lin (c : Dev nD) :
    (dat7 (F := Ideal) V c).arrAt 3 cfg7.N
      = GIN.lin (K := 49) (V c (Pipeline.arrRef spec7 0)) (V c (Pipeline.arrRef spec7 1))
          (fun d => V c (Pipeline.arrRef spec7 2) (ix2 0 d)) :=
  (dat7 (F := Ideal) V c).arrAt_eq_of_cover 3 _
    (fun t _ => by
      show (cfg7.win 3).cut (grid7.coords t) ((dat7 V c).after 3 t) = _
      rw [after7_3]
      exact funext ((Stats7.reg V c).lin t))
    fun i => by
      obtain ⟨t, y, rfl⟩ := (Stats7.reg V c).cover i
      exact ⟨t, flush7_3 t, View.emb_mem_set _ y⟩

theorem final7_sum (c : Dev nD) :
    (dat7 (F := Ideal) V c).arrAt 4 cfg7.N
      = fun j => GIN.csum (GIN.lin (K := 49) (V c (Pipeline.arrRef spec7 0)) (V c (Pipeline.arrRef spec7 1))
          (fun d => V c (Pipeline.arrRef spec7 2) (ix2 0 d))) (j 1) :=
  (dat7 (F := Ideal) V c).arrAt_eq_of_cover 4 _
    (fun t hf => by
      have h19 : t.val = 19 := by have := (flush7_4 t).mp hf; have := t.isLt; have : cfg7.N = 20 := N_7; omega
      show (cfg7.win 4).cut (grid7.coords t) ((dat7 V c).after 4 t) = _
      rw [after7_4]
      exact funext fun y => ((Stats7.reg V c).sums t h19 y).1.trans (Stats7.read4 t (fun j => GIN.csum _ (j 1)) y).symm)
    fun i => by
      obtain ⟨t, h19, y, rfl⟩ := (Stats7.reg V c).cover4 i
      exact ⟨t, (flush7_4 t).mpr (by rw [h19]), View.emb_mem_set _ y⟩

theorem final7_sumsq (c : Dev nD) :
    (dat7 (F := Ideal) V c).arrAt 5 cfg7.N
      = fun j => GIN.csumsq (GIN.lin (K := 49) (V c (Pipeline.arrRef spec7 0)) (V c (Pipeline.arrRef spec7 1))
          (fun d => V c (Pipeline.arrRef spec7 2) (ix2 0 d))) (j 1) :=
  (dat7 (F := Ideal) V c).arrAt_eq_of_cover 5 _
    (fun t hf => by
      have h19 : t.val = 19 := by have := (flush7_5 t).mp hf; have := t.isLt; have : cfg7.N = 20 := N_7; omega
      show (cfg7.win 5).cut (grid7.coords t) ((dat7 V c).after 5 t) = _
      rw [after7_5]
      exact funext fun y => ((Stats7.reg V c).sums t h19 y).2.trans (Stats7.read5 t (fun j => GIN.csumsq _ (j 1)) y).symm)
    fun i => by
      obtain ⟨t, h19, y, rfl⟩ := (Stats7.reg V c).cover5 i
      exact ⟨t, (flush7_5 t).mpr (by rw [h19]), View.emb_mem_set _ y⟩

end Cert.KernelIdeal.Val

end
-- ==== Proof.KBn8.lean ====
import proofs.«425467_j63101659513266_1_alg».proof.Proof.KBn

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem final8 (c : Dev nD) :
    (dat8 (F := Ideal) V c).arrAt 5 cfg8.N
      = GIN.bnrelu (V c (Pipeline.arrRef spec8 0)) (fun d => V c (Pipeline.arrRef spec8 1) (ix2 0 d))
          (fun d => V c (Pipeline.arrRef spec8 2) (ix2 0 d)) (fun d => V c (Pipeline.arrRef spec8 3) (ix2 0 d))
          (fun d => V c (Pipeline.arrRef spec8 4) (ix2 0 d)) := by
  have hi : BnIdx win8_0.index win8_1.index win8_2.index win8_3.index win8_4.index win8_5.index := by
    decide +kernel
  refine (dat8 (F := Ideal) V c).arrAt_eq_of_cover 5 _ (fun t _ => (after8_5 V c t).trans ?_)
    (bn_cover N_8 win8_5.rect_emb_val hi flush8_5 fun t y => ((cfg8.win 5).blk t).view.emb_mem_set y)
  exact bn_flushed N_8 win8_0.rect_emb_val win8_1.rect_emb_val win8_2.rect_emb_val win8_3.rect_emb_val
    win8_4.rect_emb_val win8_5.rect_emb_val hi t (fun _ => rfl) (fun _ => rfl) (fun _ => rfl) (fun _ => rfl)
    (fun _ => rfl)

end Cert.KernelIdeal.Val
-- ==== Proof.KHalfB1.lean ====
import proofs.«425467_j63101659513266_1_alg».proof.Proof.KHalf
import proofs.«425467_j63101659513266_1_alg».proof.Proof.Gen.KernelIdeal.Frame
import proofs.«425467_j63101659513266_1_alg».proof.Proof.KStats7
import proofs.«425467_j63101659513266_1_alg».proof.Proof.KBn8
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Half

section Host

variable (X : Valuation τ sig (Elt Ideal))

theorem B1_keep_in : StableHlo.after hostOps7 X (Proc.devRef .tc main_v103) = X (Proc.devRef .tc main_v103) := by
  after_results_simp

theorem B1_cut :
    Cut 1 (X (Proc.devRef .tc main_arg7)) (X (Proc.devRef .tc main_arg8)) (X (Proc.devRef .tc main_arg9))
      (X (Proc.devRef .tc main_arg10)) (StableHlo.after hostOps7 X (Proc.devRef .tc main_v105))
      (StableHlo.after hostOps7 X (Proc.devRef .tc main_v108)) (StableHlo.after hostOps7 X (Proc.devRef .tc main_arg9))
      (StableHlo.after hostOps7 X (Proc.devRef .tc main_arg10)) :=
  ⟨by after_results_simp; exact sliceW_read 1 _ _ rfl, by after_results_simp; exact sliceP_read 1 _ _ rfl,
    by after_results_simp, by after_results_simp⟩

theorem B1_norm :
    Moments 1 (X (Proc.devRef .tc main_v109_0)) (X (Proc.devRef .tc main_v109_1)) (X (Proc.devRef .tc main_v109_2))
      (X (Proc.devRef .tc main_arg9)) (X (Proc.devRef .tc main_arg10)) (StableHlo.after hostOps8 X (Proc.devRef .tc main_v109_0))
      (StableHlo.after hostOps8 X (Proc.devRef .tc main_v111)) (StableHlo.after hostOps8 X (Proc.devRef .tc main_v118))
      (StableHlo.after hostOps8 X (Proc.devRef .tc main_v121)) (StableHlo.after hostOps8 X (Proc.devRef .tc main_v124)) :=
  ⟨by after_results_simp, fun d => by after_results_simp; exact mean_read _ d,
    fun d => by after_results_simp; exact istd_read _ _ d, by after_results_simp; exact sliceP_read 1 _ _ rfl,
    by after_results_simp; exact sliceP_read 1 _ _ rfl⟩

end Host

variable (m : (ℓ : Loc nD τ sig) → Buf (Elt Ideal) ℓ) (ρ : Dev nD → PrngReg)

theorem halfB1 (c : Dev nD) :
    W18 m ρ c (Proc.devRef .tc main_v125)
      = GIN.block GIN.varK (W14 m ρ c (Proc.devRef .tc main_v103))
          (GIN.sliceW 1 (W14 m ρ c (Proc.devRef .tc main_arg7))) (GIN.sliceP 1 (W14 m ρ c (Proc.devRef .tc main_arg8)))
          (GIN.sliceP 1 (W14 m ρ c (Proc.devRef .tc main_arg9))) (GIN.sliceP 1 (W14 m ρ c (Proc.devRef .tc main_arg10))) :=
  half_block (B1_keep_in (W14 m ρ c)) (B1_cut (W14 m ρ c))
    ⟨(W16_arr m ρ c 3).trans (final7_lin (V15 m ρ) c), (W16_arr m ρ c 4).trans (final7_sum (V15 m ρ) c),
      (W16_arr m ρ c 5).trans (final7_sumsq (V15 m ρ) c)⟩
    (W16_of_ne m ρ c main_arg9 (by decide)) (W16_of_ne m ρ c main_arg10 (by decide)) (B1_norm (W16 m ρ c))
    ((W18_arr m ρ c 5).trans (final8 (V17 m ρ) c))

end Cert.KernelIdeal.Val

end
-- ==== Proof.KStats9.lean ====
import proofs.«425467_j63101659513266_1_alg».proof.Proof.KStatsCore

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Stats9

section Body

variable {c : Dev nD} {i : grid9.Coords} {m1 : Memref sig .tc .vmem S5000x49 .f32} {w1 : m1.IsWhole}
  {m2 : Memref sig .tc .vmem S49x49 .f32} {w2 : m2.IsWhole} {m3 : Memref sig .tc .vmem S1x49 .f32} {w3 : m3.IsWhole}
  {m4 : Memref sig .tc .vmem S5000x49 .f32} {w4 : m4.IsWhole} {m5 : Memref sig .tc .vmem S1x49 .f32} {w5 : m5.IsWhole}
  {m6 : Memref sig .tc .vmem S1x49 .f32} {w6 : m6.IsWhole}
  {xa : Vec Ideal S5000x49 .f32} {xb : Vec Ideal S49x49 .f32} {xc ya yb : Vec Ideal S1x49 .f32}

-- at the first point: the linear map of the block, and the two accumulators started from the zero block just stored
theorem outA_eq {hc : cond9_0 i} :
    (out9_A_3 c i m1 w1 m2 w2 m3 w3 m4 w4 m5 w5 m6 w6 hc xa xb xc, out9_A_4 c i m1 w1 m2 w2 m3 w3 m4 w4 m5 w5 m6 w6 hc xa xb xc, out9_A_5 c i m1 w1 m2 w2 m3 w3 m4 w4 m5 w5 m6 w6 hc xa xb xc)
      = (k9_pay3 xa xb xc, k9_pay4 xa xb xc (k9_pay1 (F := Ideal)), k9_pay5 xa xb xc (k9_pay2 (F := Ideal))) := by
  unfold out9_A_3 out9_A_4 out9_A_5
  rw [View.read_writes_eq_canon _ _ _ (cover9_A_3 c i m1 w1 m2 w2 m3 w3 m4 w4 m5 w5 m6 w6 hc xa xb xc), View.read_writes_eq_canon _ _ _ (cover9_A_4 c i m1 w1 m2 w2 m3 w3 m4 w4 m5 w5 m6 w6 hc xa xb xc),
    View.read_writes_eq_canon _ _ _ (cover9_A_5 c i m1 w1 m2 w2 m3 w3 m4 w4 m5 w5 m6 w6 hc xa xb xc)]
  unfold kernelRun9_A
  dsimp only
  sl_unfold_words
  simp only [View.canon_unit_zero (S := S5000x49) Stats.hz, View.canon_cons_unit_zero (S := S1x49) Stats.hz,
    View.readCov_unit_zero (S := S1x49) _ Stats.hz, View.readAt_eq_ld, w1.read_unread, w2.read_unread, w3.read_unread,
    View.ld_unit_zero (S := S5000x49) Stats.hz, View.ld_unit_zero (S := S49x49) Stats.hz, View.ld_unit_zero (S := S1x49) Stats.hz]

-- at a later point: the same over what the point before left in the accumulators
theorem outB_eq {hc : ¬cond9_0 i} :
    (out9_B_3 c i m1 w1 m2 w2 m3 w3 m4 w4 m5 w5 m6 w6 hc xa xb xc ya yb, out9_B_4 c i m1 w1 m2 w2 m3 w3 m4 w4 m5 w5 m6 w6 hc xa xb xc ya yb, out9_B_5 c i m1 w1 m2 w2 m3 w3 m4 w4 m5 w5 m6 w6 hc xa xb xc ya yb)
      = (k9_pay3 xa xb xc, k9_pay4 xa xb xc ya, k9_pay5 xa xb xc yb) := by
  unfold out9_B_3 out9_B_4 out9_B_5
  rw [View.read_writes_eq_canon _ _ _ (cover9_B_3 c i m1 w1 m2 w2 m3 w3 m4 w4 m5 w5 m6 w6 hc xa xb xc ya yb), View.read_writes_eq_canon _ _ _ (cover9_B_4 c i m1 w1 m2 w2 m3 w3 m4 w4 m5 w5 m6 w6 hc xa xb xc ya yb),
    View.read_writes_eq_canon _ _ _ (cover9_B_5 c i m1 w1 m2 w2 m3 w3 m4 w4 m5 w5 m6 w6 hc xa xb xc ya yb)]
  unfold kernelRun9_B
  dsimp only
  sl_unfold_words
  simp only [View.canon_unit_zero (S := S5000x49) Stats.hz, View.canon_unit_zero (S := S1x49) Stats.hz, View.readAt_eq_ld, w1.read_unread, w2.read_unread, w3.read_unread, w5.read_unread,
    w6.read_unread, View.ld_unit_zero (S := S5000x49) Stats.hz, View.ld_unit_zero (S := S49x49) Stats.hz,
    View.ld_unit_zero (S := S1x49) Stats.hz]

end Body

theorem idx : ∀ t : Fin cfg9.N, win9_0.index t = ![t.val, 0] ∧ win9_1.index t = (fun _ => 0) ∧ win9_2.index t = (fun _ => 0)
    ∧ win9_3.index t = ![t.val, 0] ∧ win9_4.index t = (fun _ => 0) ∧ win9_5.index t = (fun _ => 0) :=
  (by decide +kernel : ∀ t : Fin grid9.N, _)

variable (V : (c : Dev nD) → (b : Ref sig .tc) → Buf (Elt Ideal) ((c : Thread nD τ).loc b)) (c : Dev nD)

abbrev emb (w : Fin cfg9.W) (t : Fin cfg9.N) (y : ((cfg9.win w).xblock (grid9.coords t)).Idx) := ((cfg9.win w).blk t).view.emb y

theorem read4 (t : Fin cfg9.N) (G : S1x49.Idx → EReal) (y : ((cfg9.win 4).xblock (grid9.coords t)).Idx) :
    ((cfg9.win 4).blk t).view.read (Elt Ideal) G y = G (emb 4 t y) := rfl

theorem read5 (t : Fin cfg9.N) (G : S1x49.Idx → EReal) (y : ((cfg9.win 5).xblock (grid9.coords t)).Idx) :
    ((cfg9.win 5).blk t).view.read (Elt Ideal) G y = G (emb 5 t y) := rfl

theorem reg : Stats.Region (V c (Pipeline.arrRef spec9 0)) (V c (Pipeline.arrRef spec9 1)) (V c (Pipeline.arrRef spec9 2))
    (emb 3) (emb 4) (emb 5) (outsAt9 V c) :=
  Stats.region _ _ _ (emb 0) _ (emb 1) (emb 2) _ _ _ N_9 win9_0.index win9_1.index win9_2.index win9_3.index win9_4.index
    win9_5.index win9_0.rect_emb_val (fun t => (idx t).1) win9_1.rect_emb_val (fun t => (idx t).2.1)
    win9_2.rect_emb_val (fun t => (idx t).2.2.1) win9_3.rect_emb_val (fun t => (idx t).2.2.2.1)
    win9_4.rect_emb_val (fun t => (idx t).2.2.2.2.1) win9_5.rect_emb_val (fun t => (idx t).2.2.2.2.2)
    (fun t h => (outsAt9_A V c t h).trans outA_eq) fun t h => (outsAt9_B V c t h).trans outB_eq

end Stats9

variable (V : (c : Dev nD) → (b : Ref sig .tc) → Buf (Elt Ideal) ((c : Thread nD τ).loc b))

theorem final9_lin (c : Dev nD) :
    (dat9 (F := Ideal) V c).arrAt 3 cfg9.N
      = GIN.lin (K := 49) (V c (Pipeline.arrRef spec9 0)) (V c (Pipeline.arrRef spec9 1))
          (fun d => V c (Pipeline.arrRef spec9 2) (ix2 0 d)) :=
  (dat9 (F := Ideal) V c).arrAt_eq_of_cover 3 _
    (fun t _ => by
      show (cfg9.win 3).cut (grid9.coords t) ((dat9 V c).after 3 t) = _
      rw [after9_3]
      exact funext ((Stats9.reg V c).lin t))
    fun i => by
      obtain ⟨t, y, rfl⟩ := (Stats9.reg V c).cover i
      exact ⟨t, flush9_3 t, View.emb_mem_set _ y⟩

theorem final9_sum (c : Dev nD) :
    (dat9 (F := Ideal) V c).arrAt 4 cfg9.N
      = fun j => GIN.csum (GIN.lin (K := 49) (V c (Pipeline.arrRef spec9 0)) (V c (Pipeline.arrRef spec9 1))
          (fun d => V c (Pipeline.arrRef spec9 2) (ix2 0 d))) (j 1) :=
  (dat9 (F := Ideal) V c).arrAt_eq_of_cover 4 _
    (fun t hf => by
      have h19 : t.val = 19 := by have := (flush9_4 t).mp hf; have := t.isLt; have : cfg9.N = 20 := N_9; omega
      show (cfg9.win 4).cut (grid9.coords t) ((dat9 V c).after 4 t) = _
      rw [after9_4]
      exact funext fun y => ((Stats9.reg V c).sums t h19 y).1.trans (Stats9.read4 t (fun j => GIN.csum _ (j 1)) y).symm)
    fun i => by
      obtain ⟨t, h19, y, rfl⟩ := (Stats9.reg V c).cover4 i
      exact ⟨t, (flush9_4 t).mpr (by rw [h19]), View.emb_mem_set _ y⟩

theorem final9_sumsq (c : Dev nD) :
    (dat9 (F := Ideal) V c).arrAt 5 cfg9.N
      = fun j => GIN.csumsq (GIN.lin (K := 49) (V c (Pipeline.arrRef spec9 0)) (V c (Pipeline.arrRef spec9 1))
          (fun d => V c (Pipeline.arrRef spec9 2) (ix2 0 d))) (j 1) :=
  (dat9 (F := Ideal) V c).arrAt_eq_of_cover 5 _
    (fun t hf => by
      have h19 : t.val = 19 := by have := (flush9_5 t).mp hf; have := t.isLt; have : cfg9.N = 20 := N_9; omega
      show (cfg9.win 5).cut (grid9.coords t) ((dat9 V c).after 5 t) = _
      rw [after9_5]
      exact funext fun y => ((Stats9.reg V c).sums t h19 y).2.trans (Stats9.read5 t (fun j => GIN.csumsq _ (j 1)) y).symm)
    fun i => by
      obtain ⟨t, h19, y, rfl⟩ := (Stats9.reg V c).cover5 i
      exact ⟨t, (flush9_5 t).mpr (by rw [h19]), View.emb_mem_set _ y⟩

end Cert.KernelIdeal.Val

end
-- ==== Proof.KBn10.lean ====
import proofs.«425467_j63101659513266_1_alg».proof.Proof.KBn

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem final10 (c : Dev nD) :
    (dat10 (F := Ideal) V c).arrAt 5 cfg10.N
      = GIN.bnrelu (V c (Pipeline.arrRef spec10 0)) (fun d => V c (Pipeline.arrRef spec10 1) (ix2 0 d))
          (fun d => V c (Pipeline.arrRef spec10 2) (ix2 0 d)) (fun d => V c (Pipeline.arrRef spec10 3) (ix2 0 d))
          (fun d => V c (Pipeline.arrRef spec10 4) (ix2 0 d)) := by
  have hi : BnIdx win10_0.index win10_1.index win10_2.index win10_3.index win10_4.index win10_5.index := by
    decide +kernel
  refine (dat10 (F := Ideal) V c).arrAt_eq_of_cover 5 _ (fun t _ => (after10_5 V c t).trans ?_)
    (bn_cover N_10 win10_5.rect_emb_val hi flush10_5 fun t y => ((cfg10.win 5).blk t).view.emb_mem_set y)
  exact bn_flushed N_10 win10_0.rect_emb_val win10_1.rect_emb_val win10_2.rect_emb_val win10_3.rect_emb_val
    win10_4.rect_emb_val win10_5.rect_emb_val hi t (fun _ => rfl) (fun _ => rfl) (fun _ => rfl) (fun _ => rfl)
    (fun _ => rfl)

end Cert.KernelIdeal.Val
-- ==== Proof.KHalfA2.lean ====
import proofs.«425467_j63101659513266_1_alg».proof.Proof.KHalf
import proofs.«425467_j63101659513266_1_alg».proof.Proof.Gen.KernelIdeal.Frame
import proofs.«425467_j63101659513266_1_alg».proof.Proof.KStats9
import proofs.«425467_j63101659513266_1_alg».proof.Proof.KBn10
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Half

section Host

variable (V : Valuation τ sig (Elt Ideal))

theorem hA2_y :
    (StableHlo.after hostOps9 V (Proc.devRef .tc main_v141) : GIN.Arr GIN.SH)
      = GIN.gin (V (Proc.devRef .tc main_v125)) (V (Proc.devRef .tc main_v1)) (V (Proc.devRef .tc main_v3))
          (GIN.sliceE (2 : Fin 3) (V (Proc.devRef .tc main_arg11))) := by
  after_results_simp
  exact gin_read 2 _ _ _ _ _ rfl

theorem hA2_cut :
    Cut 2 (V (Proc.devRef .tc main_arg3)) (V (Proc.devRef .tc main_arg4)) (V (Proc.devRef .tc main_arg5))
      (V (Proc.devRef .tc main_arg6)) (StableHlo.after hostOps9 V (Proc.devRef .tc main_v143))
      (StableHlo.after hostOps9 V (Proc.devRef .tc main_v146)) (StableHlo.after hostOps9 V (Proc.devRef .tc main_arg5))
      (StableHlo.after hostOps9 V (Proc.devRef .tc main_arg6)) :=
  ⟨by after_results_simp; exact sliceW_read 2 _ _ rfl, by after_results_simp; exact sliceP_read 2 _ _ rfl,
    by after_results_simp, by after_results_simp⟩

theorem hA2_norm :
    Moments 2 (V (Proc.devRef .tc main_v147_0)) (V (Proc.devRef .tc main_v147_1)) (V (Proc.devRef .tc main_v147_2))
      (V (Proc.devRef .tc main_arg5)) (V (Proc.devRef .tc main_arg6)) (StableHlo.after hostOps10 V (Proc.devRef .tc main_v147_0))
      (StableHlo.after hostOps10 V (Proc.devRef .tc main_v149)) (StableHlo.after hostOps10 V (Proc.devRef .tc main_v156))
      (StableHlo.after hostOps10 V (Proc.devRef .tc main_v159)) (StableHlo.after hostOps10 V (Proc.devRef .tc main_v162)) :=
  ⟨by after_results_simp, fun d => by after_results_simp; exact mean_read _ d,
    fun d => by after_results_simp; exact istd_read _ _ d, by after_results_simp; exact sliceP_read 2 _ _ rfl,
    by after_results_simp; exact sliceP_read 2 _ _ rfl⟩

end Host

variable (m : (ℓ : Loc nD τ sig) → Buf (Elt Ideal) ℓ) (ρ : Dev nD → PrngReg)

theorem halfA2 (c : Dev nD) :
    (W22 m ρ c (Proc.devRef .tc main_v163) : GIN.Arr GIN.SH) = GIN.block GIN.varK
      (GIN.gin (W18 m ρ c (Proc.devRef .tc main_v125)) (W18 m ρ c (Proc.devRef .tc main_v1)) (W18 m ρ c (Proc.devRef .tc main_v3))
        (GIN.sliceE (2 : Fin 3) (W18 m ρ c (Proc.devRef .tc main_arg11))))
      (GIN.sliceW (2 : Fin 3) (W18 m ρ c (Proc.devRef .tc main_arg3))) (GIN.sliceP (2 : Fin 3) (W18 m ρ c (Proc.devRef .tc main_arg4)))
      (GIN.sliceP (2 : Fin 3) (W18 m ρ c (Proc.devRef .tc main_arg5))) (GIN.sliceP (2 : Fin 3) (W18 m ρ c (Proc.devRef .tc main_arg6))) :=
  half_block (hA2_y (W18 m ρ c)) (hA2_cut (W18 m ρ c))
    ⟨(W20_arr m ρ c 3).trans (final9_lin (V19 m ρ) c), (W20_arr m ρ c 4).trans (final9_sum (V19 m ρ) c),
      (W20_arr m ρ c 5).trans (final9_sumsq (V19 m ρ) c)⟩
    (W20_of_ne m ρ c main_arg5 (by decide)) (W20_of_ne m ρ c main_arg6 (by decide)) (hA2_norm (W20 m ρ c))
    ((W22_arr m ρ c 5).trans (final10 (V21 m ρ) c))

end Cert.KernelIdeal.Val

end
-- ==== Proof.KStats11.lean ====
import proofs.«425467_j63101659513266_1_alg».proof.Proof.KStatsCore

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Stats11

section Body

variable {c : Dev nD} {i : grid11.Coords} {m1 : Memref sig .tc .vmem S5000x49 .f32} {w1 : m1.IsWhole}
  {m2 : Memref sig .tc .vmem S49x49 .f32} {w2 : m2.IsWhole} {m3 : Memref sig .tc .vmem S1x49 .f32} {w3 : m3.IsWhole}
  {m4 : Memref sig .tc .vmem S5000x49 .f32} {w4 : m4.IsWhole} {m5 : Memref sig .tc .vmem S1x49 .f32} {w5 : m5.IsWhole}
  {m6 : Memref sig .tc .vmem S1x49 .f32} {w6 : m6.IsWhole}
  {xa : Vec Ideal S5000x49 .f32} {xb : Vec Ideal S49x49 .f32} {xc ya yb : Vec Ideal S1x49 .f32}

-- at the first point: the linear map of the block, and the two accumulators started from the zero block just stored
theorem outA_eq {hc : cond11_0 i} :
    (out11_A_3 c i m1 w1 m2 w2 m3 w3 m4 w4 m5 w5 m6 w6 hc xa xb xc, out11_A_4 c i m1 w1 m2 w2 m3 w3 m4 w4 m5 w5 m6 w6 hc xa xb xc, out11_A_5 c i m1 w1 m2 w2 m3 w3 m4 w4 m5 w5 m6 w6 hc xa xb xc)
      = (k11_pay3 xa xb xc, k11_pay4 xa xb xc (k11_pay1 (F := Ideal)), k11_pay5 xa xb xc (k11_pay2 (F := Ideal))) := by
  unfold out11_A_3 out11_A_4 out11_A_5
  rw [View.read_writes_eq_canon _ _ _ (cover11_A_3 c i m1 w1 m2 w2 m3 w3 m4 w4 m5 w5 m6 w6 hc xa xb xc), View.read_writes_eq_canon _ _ _ (cover11_A_4 c i m1 w1 m2 w2 m3 w3 m4 w4 m5 w5 m6 w6 hc xa xb xc),
    View.read_writes_eq_canon _ _ _ (cover11_A_5 c i m1 w1 m2 w2 m3 w3 m4 w4 m5 w5 m6 w6 hc xa xb xc)]
  unfold kernelRun11_A
  dsimp only
  sl_unfold_words
  simp only [View.canon_unit_zero (S := S5000x49) Stats.hz, View.canon_cons_unit_zero (S := S1x49) Stats.hz,
    View.readCov_unit_zero (S := S1x49) _ Stats.hz, View.readAt_eq_ld, w1.read_unread, w2.read_unread, w3.read_unread,
    View.ld_unit_zero (S := S5000x49) Stats.hz, View.ld_unit_zero (S := S49x49) Stats.hz, View.ld_unit_zero (S := S1x49) Stats.hz]

-- at a later point: the same over what the point before left in the accumulators
theorem outB_eq {hc : ¬cond11_0 i} :
    (out11_B_3 c i m1 w1 m2 w2 m3 w3 m4 w4 m5 w5 m6 w6 hc xa xb xc ya yb, out11_B_4 c i m1 w1 m2 w2 m3 w3 m4 w4 m5 w5 m6 w6 hc xa xb xc ya yb, out11_B_5 c i m1 w1 m2 w2 m3 w3 m4 w4 m5 w5 m6 w6 hc xa xb xc ya yb)
      = (k11_pay3 xa xb xc, k11_pay4 xa xb xc ya, k11_pay5 xa xb xc yb) := by
  unfold out11_B_3 out11_B_4 out11_B_5
  rw [View.read_writes_eq_canon _ _ _ (cover11_B_3 c i m1 w1 m2 w2 m3 w3 m4 w4 m5 w5 m6 w6 hc xa xb xc ya yb), View.read_writes_eq_canon _ _ _ (cover11_B_4 c i m1 w1 m2 w2 m3 w3 m4 w4 m5 w5 m6 w6 hc xa xb xc ya yb),
    View.read_writes_eq_canon _ _ _ (cover11_B_5 c i m1 w1 m2 w2 m3 w3 m4 w4 m5 w5 m6 w6 hc xa xb xc ya yb)]
  unfold kernelRun11_B
  dsimp only
  sl_unfold_words
  simp only [View.canon_unit_zero (S := S5000x49) Stats.hz, View.canon_unit_zero (S := S1x49) Stats.hz, View.readAt_eq_ld, w1.read_unread, w2.read_unread, w3.read_unread, w5.read_unread,
    w6.read_unread, View.ld_unit_zero (S := S5000x49) Stats.hz, View.ld_unit_zero (S := S49x49) Stats.hz,
    View.ld_unit_zero (S := S1x49) Stats.hz]

end Body

theorem idx : ∀ t : Fin cfg11.N, win11_0.index t = ![t.val, 0] ∧ win11_1.index t = (fun _ => 0) ∧ win11_2.index t = (fun _ => 0)
    ∧ win11_3.index t = ![t.val, 0] ∧ win11_4.index t = (fun _ => 0) ∧ win11_5.index t = (fun _ => 0) :=
  (by decide +kernel : ∀ t : Fin grid11.N, _)

variable (V : (c : Dev nD) → (b : Ref sig .tc) → Buf (Elt Ideal) ((c : Thread nD τ).loc b)) (c : Dev nD)

abbrev emb (w : Fin cfg11.W) (t : Fin cfg11.N) (y : ((cfg11.win w).xblock (grid11.coords t)).Idx) := ((cfg11.win w).blk t).view.emb y

theorem read4 (t : Fin cfg11.N) (G : S1x49.Idx → EReal) (y : ((cfg11.win 4).xblock (grid11.coords t)).Idx) :
    ((cfg11.win 4).blk t).view.read (Elt Ideal) G y = G (emb 4 t y) := rfl

theorem read5 (t : Fin cfg11.N) (G : S1x49.Idx → EReal) (y : ((cfg11.win 5).xblock (grid11.coords t)).Idx) :
    ((cfg11.win 5).blk t).view.read (Elt Ideal) G y = G (emb 5 t y) := rfl

theorem reg : Stats.Region (V c (Pipeline.arrRef spec11 0)) (V c (Pipeline.arrRef spec11 1)) (V c (Pipeline.arrRef spec11 2))
    (emb 3) (emb 4) (emb 5) (outsAt11 V c) :=
  Stats.region _ _ _ (emb 0) _ (emb 1) (emb 2) _ _ _ N_11 win11_0.index win11_1.index win11_2.index win11_3.index win11_4.index
    win11_5.index win11_0.rect_emb_val (fun t => (idx t).1) win11_1.rect_emb_val (fun t => (idx t).2.1)
    win11_2.rect_emb_val (fun t => (idx t).2.2.1) win11_3.rect_emb_val (fun t => (idx t).2.2.2.1)
    win11_4.rect_emb_val (fun t => (idx t).2.2.2.2.1) win11_5.rect_emb_val (fun t => (idx t).2.2.2.2.2)
    (fun t h => (outsAt11_A V c t h).trans outA_eq) fun t h => (outsAt11_B V c t h).trans outB_eq

end Stats11

variable (V : (c : Dev nD) → (b : Ref sig .tc) → Buf (Elt Ideal) ((c : Thread nD τ).loc b))

theorem final11_lin (c : Dev nD) :
    (dat11 (F := Ideal) V c).arrAt 3 cfg11.N
      = GIN.lin (K := 49) (V c (Pipeline.arrRef spec11 0)) (V c (Pipeline.arrRef spec11 1))
          (fun d => V c (Pipeline.arrRef spec11 2) (ix2 0 d)) :=
  (dat11 (F := Ideal) V c).arrAt_eq_of_cover 3 _
    (fun t _ => by
      show (cfg11.win 3).cut (grid11.coords t) ((dat11 V c).after 3 t) = _
      rw [after11_3]
      exact funext ((Stats11.reg V c).lin t))
    fun i => by
      obtain ⟨t, y, rfl⟩ := (Stats11.reg V c).cover i
      exact ⟨t, flush11_3 t, View.emb_mem_set _ y⟩

theorem final11_sum (c : Dev nD) :
    (dat11 (F := Ideal) V c).arrAt 4 cfg11.N
      = fun j => GIN.csum (GIN.lin (K := 49) (V c (Pipeline.arrRef spec11 0)) (V c (Pipeline.arrRef spec11 1))
          (fun d => V c (Pipeline.arrRef spec11 2) (ix2 0 d))) (j 1) :=
  (dat11 (F := Ideal) V c).arrAt_eq_of_cover 4 _
    (fun t hf => by
      have h19 : t.val = 19 := by have := (flush11_4 t).mp hf; have := t.isLt; have : cfg11.N = 20 := N_11; omega
      show (cfg11.win 4).cut (grid11.coords t) ((dat11 V c).after 4 t) = _
      rw [after11_4]
      exact funext fun y => ((Stats11.reg V c).sums t h19 y).1.trans (Stats11.read4 t (fun j => GIN.csum _ (j 1)) y).symm)
    fun i => by
      obtain ⟨t, h19, y, rfl⟩ := (Stats11.reg V c).cover4 i
      exact ⟨t, (flush11_4 t).mpr (by rw [h19]), View.emb_mem_set _ y⟩

theorem final11_sumsq (c : Dev nD) :
    (dat11 (F := Ideal) V c).arrAt 5 cfg11.N
      = fun j => GIN.csumsq (GIN.lin (K := 49) (V c (Pipeline.arrRef spec11 0)) (V c (Pipeline.arrRef spec11 1))
          (fun d => V c (Pipeline.arrRef spec11 2) (ix2 0 d))) (j 1) :=
  (dat11 (F := Ideal) V c).arrAt_eq_of_cover 5 _
    (fun t hf => by
      have h19 : t.val = 19 := by have := (flush11_5 t).mp hf; have := t.isLt; have : cfg11.N = 20 := N_11; omega
      show (cfg11.win 5).cut (grid11.coords t) ((dat11 V c).after 5 t) = _
      rw [after11_5]
      exact funext fun y => ((Stats11.reg V c).sums t h19 y).2.trans (Stats11.read5 t (fun j => GIN.csumsq _ (j 1)) y).symm)
    fun i => by
      obtain ⟨t, h19, y, rfl⟩ := (Stats11.reg V c).cover5 i
      exact ⟨t, (flush11_5 t).mpr (by rw [h19]), View.emb_mem_set _ y⟩

end Cert.KernelIdeal.Val

end
-- ==== Proof.KBn12.lean ====
import proofs.«425467_j63101659513266_1_alg».proof.Proof.KBn

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

theorem final12 (c : Dev nD) :
    (dat12 (F := Ideal) V c).arrAt 5 cfg12.N
      = GIN.bnrelu (V c (Pipeline.arrRef spec12 0)) (fun d => V c (Pipeline.arrRef spec12 1) (ix2 0 d))
          (fun d => V c (Pipeline.arrRef spec12 2) (ix2 0 d)) (fun d => V c (Pipeline.arrRef spec12 3) (ix2 0 d))
          (fun d => V c (Pipeline.arrRef spec12 4) (ix2 0 d)) := by
  have hi : BnIdx win12_0.index win12_1.index win12_2.index win12_3.index win12_4.index win12_5.index := by
    decide +kernel
  refine (dat12 (F := Ideal) V c).arrAt_eq_of_cover 5 _ (fun t _ => (after12_5 V c t).trans ?_)
    (bn_cover N_12 win12_5.rect_emb_val hi flush12_5 fun t y => ((cfg12.win 5).blk t).view.emb_mem_set y)
  exact bn_flushed N_12 win12_0.rect_emb_val win12_1.rect_emb_val win12_2.rect_emb_val win12_3.rect_emb_val
    win12_4.rect_emb_val win12_5.rect_emb_val hi t (fun _ => rfl) (fun _ => rfl) (fun _ => rfl) (fun _ => rfl)
    (fun _ => rfl)

end Cert.KernelIdeal.Val
-- ==== Proof.KHalfB2.lean ====
import proofs.«425467_j63101659513266_1_alg».proof.Proof.KHalf
import proofs.«425467_j63101659513266_1_alg».proof.Proof.Gen.KernelIdeal.Frame
import proofs.«425467_j63101659513266_1_alg».proof.Proof.KStats11
import proofs.«425467_j63101659513266_1_alg».proof.Proof.KBn12
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Half

section Host

variable (X : Valuation τ sig (Elt Ideal))

theorem B2_keep_in : StableHlo.after hostOps11 X (Proc.devRef .tc main_v163) = X (Proc.devRef .tc main_v163) := by
  after_results_simp

theorem B2_cut :
    Cut 2 (X (Proc.devRef .tc main_arg7)) (X (Proc.devRef .tc main_arg8)) (X (Proc.devRef .tc main_arg9))
      (X (Proc.devRef .tc main_arg10)) (StableHlo.after hostOps11 X (Proc.devRef .tc main_v165))
      (StableHlo.after hostOps11 X (Proc.devRef .tc main_v168)) (StableHlo.after hostOps11 X (Proc.devRef .tc main_arg9))
      (StableHlo.after hostOps11 X (Proc.devRef .tc main_arg10)) :=
  ⟨by after_results_simp; exact sliceW_read 2 _ _ rfl, by after_results_simp; exact sliceP_read 2 _ _ rfl,
    by after_results_simp, by after_results_simp⟩

theorem B2_norm :
    Moments 2 (X (Proc.devRef .tc main_v169_0)) (X (Proc.devRef .tc main_v169_1)) (X (Proc.devRef .tc main_v169_2))
      (X (Proc.devRef .tc main_arg9)) (X (Proc.devRef .tc main_arg10)) (StableHlo.after hostOps12 X (Proc.devRef .tc main_v169_0))
      (StableHlo.after hostOps12 X (Proc.devRef .tc main_v171)) (StableHlo.after hostOps12 X (Proc.devRef .tc main_v178))
      (StableHlo.after hostOps12 X (Proc.devRef .tc main_v181)) (StableHlo.after hostOps12 X (Proc.devRef .tc main_v184)) :=
  ⟨by after_results_simp, fun d => by after_results_simp; exact mean_read _ d,
    fun d => by after_results_simp; exact istd_read _ _ d, by after_results_simp; exact sliceP_read 2 _ _ rfl,
    by after_results_simp; exact sliceP_read 2 _ _ rfl⟩

end Host

variable (m : (ℓ : Loc nD τ sig) → Buf (Elt Ideal) ℓ) (ρ : Dev nD → PrngReg)

theorem halfB2 (c : Dev nD) :
    W26 m ρ c (Proc.devRef .tc main_v185)
      = GIN.block GIN.varK (W22 m ρ c (Proc.devRef .tc main_v163))
          (GIN.sliceW 2 (W22 m ρ c (Proc.devRef .tc main_arg7))) (GIN.sliceP 2 (W22 m ρ c (Proc.devRef .tc main_arg8)))
          (GIN.sliceP 2 (W22 m ρ c (Proc.devRef .tc main_arg9))) (GIN.sliceP 2 (W22 m ρ c (Proc.devRef .tc main_arg10))) :=
  half_block (B2_keep_in (W22 m ρ c)) (B2_cut (W22 m ρ c))
    ⟨(W24_arr m ρ c 3).trans (final11_lin (V23 m ρ) c), (W24_arr m ρ c 4).trans (final11_sum (V23 m ρ) c),
      (W24_arr m ρ c 5).trans (final11_sumsq (V23 m ρ) c)⟩
    (W24_of_ne m ρ c main_arg9 (by decide)) (W24_of_ne m ρ c main_arg10 (by decide)) (B2_norm (W24 m ρ c))
    ((W26_arr m ρ c 5).trans (final12 (V25 m ρ) c))

end Cert.KernelIdeal.Val

end
-- ==== Proof.KValue.lean ====
/- The kernel program's result buffer holds the specification's network of the fourteen arguments. -/
import proofs.«425467_j63101659513266_1_alg».proof.Proof.KWalk
import proofs.«425467_j63101659513266_1_alg».proof.Proof.KHalfA0
import proofs.«425467_j63101659513266_1_alg».proof.Proof.KHalfB0
import proofs.«425467_j63101659513266_1_alg».proof.Proof.KHalfA1
import proofs.«425467_j63101659513266_1_alg».proof.Proof.KHalfB1
import proofs.«425467_j63101659513266_1_alg».proof.Proof.KHalfA2
import proofs.«425467_j63101659513266_1_alg».proof.Proof.KHalfB2

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

theorem kvalue (c : Dev nD) :
    W31 m ρ c (Proc.devRef .tc main_v191)
      = GIN.netK (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  rw [tail m ρ c, halfB2 m ρ c, halfA2 m ρ c, halfB1 m ρ c, halfA1 m ρ c, halfB0 m ρ c, halfA0 m ρ c]
  rw [keep26 m ρ c main_arg13 (by decide),
    keep22 m ρ c main_arg7 (by decide),
    keep22 m ρ c main_arg8 (by decide),
    keep22 m ρ c main_arg9 (by decide),
    keep22 m ρ c main_arg10 (by decide),
    keep18 m ρ c main_v1 (by decide),
    keep18 m ρ c main_v3 (by decide),
    keep18 m ρ c main_arg11 (by decide),
    keep18 m ρ c main_arg3 (by decide),
    keep18 m ρ c main_arg4 (by decide),
    keep18 m ρ c main_arg5 (by decide),
    keep18 m ρ c main_arg6 (by decide),
    keep14 m ρ c main_arg7 (by decide),
    keep14 m ρ c main_arg8 (by decide),
    keep14 m ρ c main_arg9 (by decide),
    keep14 m ρ c main_arg10 (by decide),
    keep10 m ρ c main_v1 (by decide),
    keep10 m ρ c main_v3 (by decide),
    keep10 m ρ c main_arg11 (by decide),
    keep10 m ρ c main_arg3 (by decide),
    keep10 m ρ c main_arg4 (by decide),
    keep10 m ρ c main_arg5 (by decide),
    keep10 m ρ c main_arg6 (by decide),
    keep6 m ρ c main_arg7 (by decide),
    keep6 m ρ c main_arg8 (by decide),
    keep6 m ρ c main_arg9 (by decide),
    keep6 m ρ c main_arg10 (by decide)]
  rw [head_h m ρ c, head_src m ρ c, head_dst m ρ c,
    head_par m ρ c main_arg3 (by decide),
    head_par m ρ c main_arg4 (by decide),
    head_par m ρ c main_arg5 (by decide),
    head_par m ρ c main_arg6 (by decide),
    head_par m ρ c main_arg7 (by decide),
    head_par m ρ c main_arg8 (by decide),
    head_par m ρ c main_arg9 (by decide),
    head_par m ρ c main_arg10 (by decide),
    head_par m ρ c main_arg11 (by decide),
    head_par m ρ c main_arg13 (by decide)]
  rfl

end Cert.KernelIdeal.Val

end
-- ==== Proof.ROps.lean ====
/- The reference program's operations, listed stage by stage, and the valuation after each stage. -/
import proofs.«425467_j63101659513266_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsHead : List (HloOp τ sig (Elt F)) :=
  [ StableHlo.unary main_arg12 main_v0 (extractStridedSlice S1x1600000 ![0, 0] · slices_S2x1600000_S1x1600000_0_0),
    StableHlo.reshape main_v0 main_v1 rfl shapeCasts_S1x1600000_S1600000,
    StableHlo.unary main_arg12 main_v2 (extractStridedSlice S1x1600000 ![1, 0] · slices_S2x1600000_S1x1600000_1_0),
    StableHlo.reshape main_v2 main_v3 rfl shapeCasts_S1x1600000_S1600000,
    StableHlo.binary main_arg0 main_arg1 main_v4 (fun l r => Host.dotGeneral dot_S100000x56_S56x49_S100000x49_1_0_0_1_n_n none l r),
    StableHlo.unary main_arg2 main_v5 (broadcastInDim S1x49 ![1] bcast_S49_S1x49_1),
    StableHlo.unary main_v5 main_v6 (broadcastInDim S100000x49 ![0, 1] bcast_S1x49_S100000x49_0_1),
    StableHlo.binary main_v4 main_v6 main_v7 addf ]

abbrev opsL0A : List (HloOp τ sig (Elt F)) :=
  [ StableHlo.nullary main_c (constantI S_ 32 0#32),
    StableHlo.unary main_c main_v8 (broadcastInDim S1600000 ![] bcast_S_S1600000),
    StableHlo.binary main_v1 main_v8 main_v9 (cmpi .slt),
    StableHlo.nullary main_c_0 (constantI S_ 32 100000#32),
    StableHlo.unary main_c_0 main_v10 (broadcastInDim S1600000 ![] bcast_S_S1600000),
    StableHlo.binary main_v1 main_v10 main_v11 addi,
    StableHlo.ternary main_v9 main_v11 main_v1 main_v12 select,
    StableHlo.unary main_v12 main_v13 (broadcastInDim S1600000x1 ![0] bcast_S1600000_S1600000x1_0),
    StableHlo.binary main_v7 main_v13 main_v14 (fun x i => Host.gather gather_S100000x49_S1600000x1_S1600000x49_1_0_n_n_0_1_149 x i),
    StableHlo.nullary main_cst (constant S_ .f32 0x00000000#32),
    StableHlo.unary main_cst main_v15 (broadcastInDim S100000x49 ![] bcast_S_S100000x49),
    StableHlo.unary main_v3 main_v16 (broadcastInDim S1600000x1 ![0] bcast_S1600000_S1600000x1_0),
    StableHlo.ternary main_v15 main_v16 main_v14 main_v17 (fun x i u => Host.scatterAdd scatter_S100000x49_S1600000x1_S1600000x49_1_0_0_1 x i u),
    StableHlo.unary main_arg11 main_v18 (extractStridedSlice S1 ![0] · slices_S3_S1_0),
    StableHlo.reshape main_v18 main_v19 rfl shapeCasts_S1_S_,
    StableHlo.nullary main_cst_1 (constant S_ .f32 0x3F800000#32),
    StableHlo.binary main_cst_1 main_v19 main_v20 addf,
    StableHlo.unary main_v20 main_v21 (broadcastInDim S100000x49 ![] bcast_S_S100000x49),
    StableHlo.binary main_v21 main_v7 main_v22 mulf,
    StableHlo.binary main_v22 main_v17 main_v23 addf,
    StableHlo.unary main_arg3 main_v24 (extractStridedSlice S1x49x49 ![0, 0, 0] · slices_S3x49x49_S1x49x49_0_0_0),
    StableHlo.reshape main_v24 main_v25 rfl shapeCasts_S1x49x49_S49x49,
    StableHlo.binary main_v23 main_v25 main_v26 (fun l r => Host.dotGeneral dot_S100000x49_S49x49_S100000x49_1_0_0_1_n_n none l r),
    StableHlo.unary main_arg4 main_v27 (extractStridedSlice S1x49 ![0, 0] · slices_S3x49_S1x49_0_0),
    StableHlo.reshape main_v27 main_v28 rfl shapeCasts_S1x49_S49,
    StableHlo.unary main_v28 main_v29 (broadcastInDim S1x49 ![1] bcast_S49_S1x49_1),
    StableHlo.unary main_v29 main_v30 (broadcastInDim S100000x49 ![0, 1] bcast_S1x49_S100000x49_0_1),
    StableHlo.binary main_v26 main_v30 main_v31 addf,
    StableHlo.unary main_arg5 main_v32 (extractStridedSlice S1x49 ![0, 0] · slices_S3x49_S1x49_0_0),
    StableHlo.reshape main_v32 main_v33 rfl shapeCasts_S1x49_S49,
    StableHlo.unary main_arg6 main_v34 (extractStridedSlice S1x49 ![0, 0] · slices_S3x49_S1x49_0_0),
    StableHlo.reshape main_v34 main_v35 rfl shapeCasts_S1x49_S49,
    StableHlo.nullary main_cst_2 (constant S_ .f32 0x00000000#32),
    StableHlo.binary main_v31 main_cst_2 main_v36 (fun x v => Host.reduceAdd x v reducesTo_S100000x49_S49_d0 h_S_),
    StableHlo.nullary main_cst_3 (constant S_ .f32 0x47C35000#32),
    StableHlo.unary main_cst_3 main_v37 (broadcastInDim S49 ![] bcast_S_S49),
    StableHlo.binary main_v36 main_v37 main_v38 Host.divf,
    StableHlo.nullary main_c_4 (constantI S_ 32 0#32),
    StableHlo.TRef.nullary (.of main_call0_cst : StableHlo.TRef sig ⟨S_, .f32⟩) (constant S_ .f32 0x00000000#32),
    StableHlo.TRef.binary (.of main_v31 : StableHlo.TRef sig ⟨S100000x49, .f32⟩) (.of main_call0_cst : StableHlo.TRef sig ⟨S_, .f32⟩) (.of main_call0_v0 : StableHlo.TRef sig ⟨S49, .f32⟩) (fun x v => Host.reduceAdd x v reducesTo_S100000x49_S49_d0 h_S_),
    StableHlo.TRef.unary (.of main_call0_v0 : StableHlo.TRef sig ⟨S49, .f32⟩) (.of main_call0_v1 : StableHlo.TRef sig ⟨S1x49, .f32⟩) (broadcastInDim S1x49 ![1] bcast_S49_S1x49_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x49, .f32⟩) (broadcastInDim S1x49 ![] bcast_S_S1x49),
    StableHlo.TRef.binary (.of main_call0_v1 : StableHlo.TRef sig ⟨S1x49, .f32⟩) (.of main_call0_v2 : StableHlo.TRef sig ⟨S1x49, .f32⟩) (.of main_call0_v3 : StableHlo.TRef sig ⟨S1x49, .f32⟩) Host.divf,
    StableHlo.TRef.unary (.of main_call0_v3 : StableHlo.TRef sig ⟨S1x49, .f32⟩) (.of main_call0_v4 : StableHlo.TRef sig ⟨S100000x49, .f32⟩) (broadcastInDim S100000x49 ![0, 1] bcast_S1x49_S100000x49_0_1),
    StableHlo.TRef.binary (.of main_v31 : StableHlo.TRef sig ⟨S100000x49, .f32⟩) (.of main_call0_v4 : StableHlo.TRef sig ⟨S100000x49, .f32⟩) (.of main_call0_v5 : StableHlo.TRef sig ⟨S100000x49, .f32⟩) subf,
    StableHlo.TRef.binary (.of main_call0_v5 : StableHlo.TRef sig ⟨S100000x49, .f32⟩) (.of main_call0_v5 : StableHlo.TRef sig ⟨S100000x49, .f32⟩) (.of main_call0_v6 : StableHlo.TRef sig ⟨S100000x49, .f32⟩) mulf,
    StableHlo.TRef.unary (.of main_c_4 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x49, .f32⟩) (.of main_call0_cst_2 : StableHlo.TRef sig ⟨S_, .f32⟩) (.of main_call0_v9 : StableHlo.TRef sig ⟨S49, .f32⟩) (fun x v => Host.reduceAdd x v reducesTo_S100000x49_S49_d0 h_S_),
    StableHlo.TRef.unary (.of main_call0_v8 : StableHlo.TRef sig ⟨S_, .f32⟩) (.of main_call0_v10 : StableHlo.TRef sig ⟨S49, .f32⟩) (broadcastInDim S49 ![] bcast_S_S49),
    StableHlo.TRef.binary (.of main_call0_v9 : StableHlo.TRef sig ⟨S49, .f32⟩) (.of main_call0_v10 : StableHlo.TRef sig ⟨S49, .f32⟩) (.of main_call0_v11 : StableHlo.TRef sig ⟨S49, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S49, .f32⟩) (broadcastInDim S49 ![] bcast_S_S49),
    StableHlo.TRef.ternary (.of main_call0_v12 : StableHlo.TRef sig ⟨S_, .i1⟩) (.of main_call0_v11 : StableHlo.TRef sig ⟨S49, .f32⟩) (.of main_call0_call0_v1 : StableHlo.TRef sig ⟨S49, .f32⟩) (.of main_v39 : StableHlo.TRef sig ⟨S49, .f32⟩) (fun p a b => select (broadcastInDim S49 ![] bcast_S_S49 p) a b),
    StableHlo.unary main_v38 main_v40 (broadcastInDim S1x49 ![1] bcast_S49_S1x49_1),
    StableHlo.unary main_v40 main_v41 (broadcastInDim S100000x49 ![0, 1] bcast_S1x49_S100000x49_0_1),
    StableHlo.binary main_v31 main_v41 main_v42 subf,
    StableHlo.unary main_v33 main_v43 (broadcastInDim S1x49 ![1] bcast_S49_S1x49_1),
    StableHlo.unary main_v43 main_v44 (broadcastInDim S100000x49 ![0, 1] bcast_S1x49_S100000x49_0_1),
    StableHlo.binary main_v44 main_v42 main_v45 mulf,
    StableHlo.nullary main_cst_5 (constant S_ .f32 0x3727C5AC#32),
    StableHlo.unary main_cst_5 main_v46 (broadcastInDim S49 ![] bcast_S_S49),
    StableHlo.binary main_v39 main_v46 main_v47 addf,
    StableHlo.unary main_v47 main_v48 Host.rsqrt,
    StableHlo.unary main_v48 main_v49 (broadcastInDim S1x49 ![1] bcast_S49_S1x49_1),
    StableHlo.unary main_v49 main_v50 (broadcastInDim S100000x49 ![0, 1] bcast_S1x49_S100000x49_0_1),
    StableHlo.binary main_v45 main_v50 main_v51 mulf,
    StableHlo.unary main_v35 main_v52 (broadcastInDim S1x49 ![1] bcast_S49_S1x49_1),
    StableHlo.unary main_v52 main_v53 (broadcastInDim S100000x49 ![0, 1] bcast_S1x49_S100000x49_0_1),
    StableHlo.binary main_v51 main_v53 main_v54 addf,
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x49, .f32⟩) (broadcastInDim S100000x49 ![] bcast_S_S100000x49),
    StableHlo.TRef.binary (.of main_v54 : StableHlo.TRef sig ⟨S100000x49, .f32⟩) (.of main_call1_v0 : StableHlo.TRef sig ⟨S100000x49, .f32⟩) (.of main_v55 : StableHlo.TRef sig ⟨S100000x49, .f32⟩) maximumf ]

abbrev opsL0B : List (HloOp τ sig (Elt F)) :=
  [ StableHlo.unary main_arg7 main_v56 (extractStridedSlice S1x49x49 ![0, 0, 0] · slices_S3x49x49_S1x49x49_0_0_0),
    StableHlo.reshape main_v56 main_v57 rfl shapeCasts_S1x49x49_S49x49,
    StableHlo.binary main_v55 main_v57 main_v58 (fun l r => Host.dotGeneral dot_S100000x49_S49x49_S100000x49_1_0_0_1_n_n none l r),
    StableHlo.unary main_arg8 main_v59 (extractStridedSlice S1x49 ![0, 0] · slices_S3x49_S1x49_0_0),
    StableHlo.reshape main_v59 main_v60 rfl shapeCasts_S1x49_S49,
    StableHlo.unary main_v60 main_v61 (broadcastInDim S1x49 ![1] bcast_S49_S1x49_1),
    StableHlo.unary main_v61 main_v62 (broadcastInDim S100000x49 ![0, 1] bcast_S1x49_S100000x49_0_1),
    StableHlo.binary main_v58 main_v62 main_v63 addf,
    StableHlo.unary main_arg9 main_v64 (extractStridedSlice S1x49 ![0, 0] · slices_S3x49_S1x49_0_0),
    StableHlo.reshape main_v64 main_v65 rfl shapeCasts_S1x49_S49,
    StableHlo.unary main_arg10 main_v66 (extractStridedSlice S1x49 ![0, 0] · slices_S3x49_S1x49_0_0),
    StableHlo.reshape main_v66 main_v67 rfl shapeCasts_S1x49_S49,
    StableHlo.nullary main_cst_6 (constant S_ .f32 0x00000000#32),
    StableHlo.binary main_v63 main_cst_6 main_v68 (fun x v => Host.reduceAdd x v reducesTo_S100000x49_S49_d0 h_S_),
    StableHlo.nullary main_cst_7 (constant S_ .f32 0x47C35000#32),
    StableHlo.unary main_cst_7 main_v69 (broadcastInDim S49 ![] bcast_S_S49),
    StableHlo.binary main_v68 main_v69 main_v70 Host.divf,
    StableHlo.nullary main_c_8 (constantI S_ 32 0#32),
    StableHlo.TRef.nullary (.of main_call2_cst : StableHlo.TRef sig ⟨S_, .f32⟩) (constant S_ .f32 0x00000000#32),
    StableHlo.TRef.binary (.of main_v63 : StableHlo.TRef sig ⟨S100000x49, .f32⟩) (.of main_call2_cst : StableHlo.TRef sig ⟨S_, .f32⟩) (.of main_call2_v0 : StableHlo.TRef sig ⟨S49, .f32⟩) (fun x v => Host.reduceAdd x v reducesTo_S100000x49_S49_d0 h_S_),
    StableHlo.TRef.unary (.of main_call2_v0 : StableHlo.TRef sig ⟨S49, .f32⟩) (.of main_call2_v1 : StableHlo.TRef sig ⟨S1x49, .f32⟩) (broadcastInDim S1x49 ![1] bcast_S49_S1x49_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x49, .f32⟩) (broadcastInDim S1x49 ![] bcast_S_S1x49),
    StableHlo.TRef.binary (.of main_call2_v1 : StableHlo.TRef sig ⟨S1x49, .f32⟩) (.of main_call2_v2 : StableHlo.TRef sig ⟨S1x49, .f32⟩) (.of main_call2_v3 : StableHlo.TRef sig ⟨S1x49, .f32⟩) Host.divf,
    StableHlo.TRef.unary (.of main_call2_v3 : StableHlo.TRef sig ⟨S1x49, .f32⟩) (.of main_call2_v4 : StableHlo.TRef sig ⟨S100000x49, .f32⟩) (broadcastInDim S100000x49 ![0, 1] bcast_S1x49_S100000x49_0_1),
    StableHlo.TRef.binary (.of main_v63 : StableHlo.TRef sig ⟨S100000x49, .f32⟩) (.of main_call2_v4 : StableHlo.TRef sig ⟨S100000x49, .f32⟩) (.of main_call2_v5 : StableHlo.TRef sig ⟨S100000x49, .f32⟩) subf,
    StableHlo.TRef.binary (.of main_call2_v5 : StableHlo.TRef sig ⟨S100000x49, .f32⟩) (.of main_call2_v5 : StableHlo.TRef sig ⟨S100000x49, .f32⟩) (.of main_call2_v6 : StableHlo.TRef sig ⟨S100000x49, .f32⟩) mulf,
    StableHlo.TRef.unary (.of main_c_8 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x49, .f32⟩) (.of main_call2_cst_2 : StableHlo.TRef sig ⟨S_, .f32⟩) (.of main_call2_v9 : StableHlo.TRef sig ⟨S49, .f32⟩) (fun x v => Host.reduceAdd x v reducesTo_S100000x49_S49_d0 h_S_),
    StableHlo.TRef.unary (.of main_call2_v8 : StableHlo.TRef sig ⟨S_, .f32⟩) (.of main_call2_v10 : StableHlo.TRef sig ⟨S49, .f32⟩) (broadcastInDim S49 ![] bcast_S_S49),
    StableHlo.TRef.binary (.of main_call2_v9 : StableHlo.TRef sig ⟨S49, .f32⟩) (.of main_call2_v10 : StableHlo.TRef sig ⟨S49, .f32⟩) (.of main_call2_v11 : StableHlo.TRef sig ⟨S49, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S49, .f32⟩) (broadcastInDim S49 ![] bcast_S_S49),
    StableHlo.TRef.ternary (.of main_call2_v12 : StableHlo.TRef sig ⟨S_, .i1⟩) (.of main_call2_v11 : StableHlo.TRef sig ⟨S49, .f32⟩) (.of main_call2_call0_v1 : StableHlo.TRef sig ⟨S49, .f32⟩) (.of main_v71 : StableHlo.TRef sig ⟨S49, .f32⟩) (fun p a b => select (broadcastInDim S49 ![] bcast_S_S49 p) a b),
    StableHlo.unary main_v70 main_v72 (broadcastInDim S1x49 ![1] bcast_S49_S1x49_1),
    StableHlo.unary main_v72 main_v73 (broadcastInDim S100000x49 ![0, 1] bcast_S1x49_S100000x49_0_1),
    StableHlo.binary main_v63 main_v73 main_v74 subf,
    StableHlo.unary main_v65 main_v75 (broadcastInDim S1x49 ![1] bcast_S49_S1x49_1),
    StableHlo.unary main_v75 main_v76 (broadcastInDim S100000x49 ![0, 1] bcast_S1x49_S100000x49_0_1),
    StableHlo.binary main_v76 main_v74 main_v77 mulf,
    StableHlo.nullary main_cst_9 (constant S_ .f32 0x3727C5AC#32),
    StableHlo.unary main_cst_9 main_v78 (broadcastInDim S49 ![] bcast_S_S49),
    StableHlo.binary main_v71 main_v78 main_v79 addf,
    StableHlo.unary main_v79 main_v80 Host.rsqrt,
    StableHlo.unary main_v80 main_v81 (broadcastInDim S1x49 ![1] bcast_S49_S1x49_1),
    StableHlo.unary main_v81 main_v82 (broadcastInDim S100000x49 ![0, 1] bcast_S1x49_S100000x49_0_1),
    StableHlo.binary main_v77 main_v82 main_v83 mulf,
    StableHlo.unary main_v67 main_v84 (broadcastInDim S1x49 ![1] bcast_S49_S1x49_1),
    StableHlo.unary main_v84 main_v85 (broadcastInDim S100000x49 ![0, 1] bcast_S1x49_S100000x49_0_1),
    StableHlo.binary main_v83 main_v85 main_v86 addf,
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x49, .f32⟩) (broadcastInDim S100000x49 ![] bcast_S_S100000x49),
    StableHlo.TRef.binary (.of main_v86 : StableHlo.TRef sig ⟨S100000x49, .f32⟩) (.of main_call3_v0 : StableHlo.TRef sig ⟨S100000x49, .f32⟩) (.of main_v87 : StableHlo.TRef sig ⟨S100000x49, .f32⟩) maximumf,
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S100000x49, .f32⟩) (broadcastInDim S100000x49 ![] bcast_S_S100000x49),
    StableHlo.TRef.binary (.of main_v87 : StableHlo.TRef sig ⟨S100000x49, .f32⟩) (.of main_call4_v0 : StableHlo.TRef sig ⟨S100000x49, .f32⟩) (.of main_v88 : StableHlo.TRef sig ⟨S100000x49, .f32⟩) maximumf ]

abbrev opsL1A : List (HloOp τ sig (Elt F)) :=
  [ StableHlo.nullary main_c_10 (constantI S_ 32 0#32),
    StableHlo.unary main_c_10 main_v89 (broadcastInDim S1600000 ![] bcast_S_S1600000),
    StableHlo.binary main_v1 main_v89 main_v90 (cmpi .slt),
    StableHlo.nullary main_c_11 (constantI S_ 32 100000#32),
    StableHlo.unary main_c_11 main_v91 (broadcastInDim S1600000 ![] bcast_S_S1600000),
    StableHlo.binary main_v1 main_v91 main_v92 addi,
    StableHlo.ternary main_v90 main_v92 main_v1 main_v93 select,
    StableHlo.unary main_v93 main_v94 (broadcastInDim S1600000x1 ![0] bcast_S1600000_S1600000x1_0),
    StableHlo.binary main_v88 main_v94 main_v95 (fun x i => Host.gather gather_S100000x49_S1600000x1_S1600000x49_1_0_n_n_0_1_149 x i),
    StableHlo.nullary main_cst_12 (constant S_ .f32 0x00000000#32),
    StableHlo.unary main_cst_12 main_v96 (broadcastInDim S100000x49 ![] bcast_S_S100000x49),
    StableHlo.unary main_v3 main_v97 (broadcastInDim S1600000x1 ![0] bcast_S1600000_S1600000x1_0),
    StableHlo.ternary main_v96 main_v97 main_v95 main_v98 (fun x i u => Host.scatterAdd scatter_S100000x49_S1600000x1_S1600000x49_1_0_0_1 x i u),
    StableHlo.unary main_arg11 main_v99 (extractStridedSlice S1 ![1] · slices_S3_S1_1),
    StableHlo.reshape main_v99 main_v100 rfl shapeCasts_S1_S_,
    StableHlo.nullary main_cst_13 (constant S_ .f32 0x3F800000#32),
    StableHlo.binary main_cst_13 main_v100 main_v101 addf,
    StableHlo.unary main_v101 main_v102 (broadcastInDim S100000x49 ![] bcast_S_S100000x49),
    StableHlo.binary main_v102 main_v88 main_v103 mulf,
    StableHlo.binary main_v103 main_v98 main_v104 addf,
    StableHlo.unary main_arg3 main_v105 (extractStridedSlice S1x49x49 ![1, 0, 0] · slices_S3x49x49_S1x49x49_1_0_0),
    StableHlo.reshape main_v105 main_v106 rfl shapeCasts_S1x49x49_S49x49,
    StableHlo.binary main_v104 main_v106 main_v107 (fun l r => Host.dotGeneral dot_S100000x49_S49x49_S100000x49_1_0_0_1_n_n none l r),
    StableHlo.unary main_arg4 main_v108 (extractStridedSlice S1x49 ![1, 0] · slices_S3x49_S1x49_1_0),
    StableHlo.reshape main_v108 main_v109 rfl shapeCasts_S1x49_S49,
    StableHlo.unary main_v109 main_v110 (broadcastInDim S1x49 ![1] bcast_S49_S1x49_1),
    StableHlo.unary main_v110 main_v111 (broadcastInDim S100000x49 ![0, 1] bcast_S1x49_S100000x49_0_1),
    StableHlo.binary main_v107 main_v111 main_v112 addf,
    StableHlo.unary main_arg5 main_v113 (extractStridedSlice S1x49 ![1, 0] · slices_S3x49_S1x49_1_0),
    StableHlo.reshape main_v113 main_v114 rfl shapeCasts_S1x49_S49,
    StableHlo.unary main_arg6 main_v115 (extractStridedSlice S1x49 ![1, 0] · slices_S3x49_S1x49_1_0),
    StableHlo.reshape main_v115 main_v116 rfl shapeCasts_S1x49_S49,
    StableHlo.nullary main_cst_14 (constant S_ .f32 0x00000000#32),
    StableHlo.binary main_v112 main_cst_14 main_v117 (fun x v => Host.reduceAdd x v reducesTo_S100000x49_S49_d0 h_S_),
    StableHlo.nullary main_cst_15 (constant S_ .f32 0x47C35000#32),
    StableHlo.unary main_cst_15 main_v118 (broadcastInDim S49 ![] bcast_S_S49),
    StableHlo.binary main_v117 main_v118 main_v119 Host.divf,
    StableHlo.nullary main_c_16 (constantI S_ 32 0#32),
    StableHlo.TRef.nullary (.of main_call5_cst : StableHlo.TRef sig ⟨S_, .f32⟩) (constant S_ .f32 0x00000000#32),
    StableHlo.TRef.binary (.of main_v112 : StableHlo.TRef sig ⟨S100000x49, .f32⟩) (.of main_call5_cst : StableHlo.TRef sig ⟨S_, .f32⟩) (.of main_call5_v0 : StableHlo.TRef sig ⟨S49, .f32⟩) (fun x v => Host.reduceAdd x v reducesTo_S100000x49_S49_d0 h_S_),
    StableHlo.TRef.unary (.of main_call5_v0 : StableHlo.TRef sig ⟨S49, .f32⟩) (.of main_call5_v1 : StableHlo.TRef sig ⟨S1x49, .f32⟩) (broadcastInDim S1x49 ![1] bcast_S49_S1x49_1),
    StableHlo.TRef.nullary (.of main_call5_cst_0 : StableHlo.TRef sig ⟨S_, .f32⟩) (constant S_ .f32 0x47C35000#32),
    StableHlo.TRef.unary (.of main_call5_cst_0 : StableHlo.TRef sig ⟨S_, .f32⟩) (.of main_call5_v2 : StableHlo.TRef sig ⟨S1x49, .f32⟩) (broadcastInDim S1x49 ![] bcast_S_S1x49),
    StableHlo.TRef.binary (.of main_call5_v1 : StableHlo.TRef sig ⟨S1x49, .f32⟩) (.of main_call5_v2 : StableHlo.TRef sig ⟨S1x49, .f32⟩) (.of main_call5_v3 : StableHlo.TRef sig ⟨S1x49, .f32⟩) Host.divf,
    StableHlo.TRef.unary (.of main_call5_v3 : StableHlo.TRef sig ⟨S1x49, .f32⟩) (.of main_call5_v4 : StableHlo.TRef sig ⟨S100000x49, .f32⟩) (broadcastInDim S100000x49 ![0, 1] bcast_S1x49_S100000x49_0_1),
    StableHlo.TRef.binary (.of main_v112 : StableHlo.TRef sig ⟨S100000x49, .f32⟩) (.of main_call5_v4 : StableHlo.TRef sig ⟨S100000x49, .f32⟩) (.of main_call5_v5 : StableHlo.TRef sig ⟨S100000x49, .f32⟩) subf,
    StableHlo.TRef.binary (.of main_call5_v5 : StableHlo.TRef sig ⟨S100000x49, .f32⟩) (.of main_call5_v5 : StableHlo.TRef sig ⟨S100000x49, .f32⟩) (.of main_call5_v6 : StableHlo.TRef sig ⟨S100000x49, .f32⟩) mulf,
    StableHlo.TRef.unary (.of main_c_16 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47C35000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S100000x49, .f32⟩) (.of main_call5_cst_2 : StableHlo.TRef sig ⟨S_, .f32⟩) (.of main_call5_v9 : StableHlo.TRef sig ⟨S49, .f32⟩) (fun x v => Host.reduceAdd x v reducesTo_S100000x49_S49_d0 h_S_),
    StableHlo.TRef.unary (.of main_call5_v8 : StableHlo.TRef sig ⟨S_, .f32⟩) (.of main_call5_v10 : StableHlo.TRef sig ⟨S49, .f32⟩) (broadcastInDim S49 ![] bcast_S_S49),
    StableHlo.TRef.binary (.of main_call5_v9 : StableHlo.TRef sig ⟨S49, .f32⟩) (.of main_call5_v10 : StableHlo.TRef sig ⟨S49, .f32⟩) (.of main_call5_v11 : StableHlo.TRef sig ⟨S49, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S49, .f32⟩) (broadcastInDim S49 ![] bcast_S_S49),
    StableHlo.TRef.ternary (.of main_call5_v12 : StableHlo.TRef sig ⟨S_, .i1⟩) (.of main_call5_v11 : StableHlo.TRef sig ⟨S49, .f32⟩) (.of main_call5_call0_v1 : StableHlo.TRef sig ⟨S49, .f32⟩) (.of main_v120 : StableHlo.TRef sig ⟨S49, .f32⟩) (fun p a b => select (broadcastInDim S49 ![] bcast_S_S49 p) a b),
    StableHlo.unary main_v119 main_v121 (broadcastInDim S1x49 ![1] bcast_S49_S1x49_1),
    StableHlo.unary main_v121 main_v122 (broadcastInDim S100000x49 ![0, 1] bcast_S1x49_S100000x49_0_1),
    StableHlo.binary main_v112 main_v122 main_v123 subf,
    StableHlo.unary main_v114 main_v124 (broadcastInDim S1x49 ![1] bcast_S49_S1x49_1),
    StableHlo.unary main_v124 main_v125 (broadcastInDim S100000x49 ![0, 1] bcast_S1x49_S100000x49_0_1),
    StableHlo.binary main_v125 main_v123 main_v126 mulf,
    StableHlo.nullary main_cst_17 (constant S_ .f32 0x3727C5AC#32),
    StableHlo.unary main_cst_17 main_v127 (broadcastInDim S49 ![] bcast_S_S49),
    StableHlo.binary main_v120 main_v127 main_v128 addf,
    StableHlo.unary main_v128 main_v129 Host.rsqrt,
    StableHlo.unary main_v129 main_v130 (broadcastInDim S1x49 ![1] bcast_S49_S1x49_1),
    StableHlo.unary main_v130 main_v131 (broadcastInDim S100000x49 ![0, 1] bcast_S1x49_S100000x49_0_1),
    StableHlo.binary main_v126 main_v131 main_v132 mulf,
    StableHlo.unary main_v116 main_v133 (broadcastInDim S1x49 ![1] bcast_S49_S1x49_1),
    StableHlo.unary main_v133 main_v134 (broadcastInDim S100000x49 ![0, 1] bcast_S1x49_S100000x49_0_1),
    StableHlo.binary main_v132 main_v134 main_v135 addf,
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x49, .f32⟩) (broadcastInDim S100000x49 ![] bcast_S_S100000x49),
    StableHlo.TRef.binary (.of main_v135 : StableHlo.TRef sig ⟨S100000x49, .f32⟩) (.of main_call6_v0 : StableHlo.TRef sig ⟨S100000x49, .f32⟩) (.of main_v136 : StableHlo.TRef sig ⟨S100000x49, .f32⟩) maximumf ]

abbrev opsL1B : List (HloOp τ sig (Elt F)) :=
  [ StableHlo.unary main_arg7 main_v137 (extractStridedSlice S1x49x49 ![1, 0, 0] · slices_S3x49x49_S1x49x49_1_0_0),
    StableHlo.reshape main_v137 main_v138 rfl shapeCasts_S1x49x49_S49x49,
    StableHlo.binary main_v136 main_v138 main_v139 (fun l r => Host.dotGeneral dot_S100000x49_S49x49_S100000x49_1_0_0_1_n_n none l r),
    StableHlo.unary main_arg8 main_v140 (extractStridedSlice S1x49 ![1, 0] · slices_S3x49_S1x49_1_0),
    StableHlo.reshape main_v140 main_v141 rfl shapeCasts_S1x49_S49,
    StableHlo.unary main_v141 main_v142 (broadcastInDim S1x49 ![1] bcast_S49_S1x49_1),
    StableHlo.unary main_v142 main_v143 (broadcastInDim S100000x49 ![0, 1] bcast_S1x49_S100000x49_0_1),
    StableHlo.binary main_v139 main_v143 main_v144 addf,
    StableHlo.unary main_arg9 main_v145 (extractStridedSlice S1x49 ![1, 0] · slices_S3x49_S1x49_1_0),
    StableHlo.reshape main_v145 main_v146 rfl shapeCasts_S1x49_S49,
    StableHlo.unary main_arg10 main_v147 (extractStridedSlice S1x49 ![1, 0] · slices_S3x49_S1x49_1_0),
    StableHlo.reshape main_v147 main_v148 rfl shapeCasts_S1x49_S49,
    StableHlo.nullary main_cst_18 (constant S_ .f32 0x00000000#32),
    StableHlo.binary main_v144 main_cst_18 main_v149 (fun x v => Host.reduceAdd x v reducesTo_S100000x49_S49_d0 h_S_),
    StableHlo.nullary main_cst_19 (constant S_ .f32 0x47C35000#32),
    StableHlo.unary main_cst_19 main_v150 (broadcastInDim S49 ![] bcast_S_S49),
    StableHlo.binary main_v149 main_v150 main_v151 Host.divf,
    StableHlo.nullary main_c_20 (constantI S_ 32 0#32),
    StableHlo.TRef.nullary (.of main_call7_cst : StableHlo.TRef sig ⟨S_, .f32⟩) (constant S_ .f32 0x00000000#32),
    StableHlo.TRef.binary (.of main_v144 : StableHlo.TRef sig ⟨S100000x49, .f32⟩) (.of main_call7_cst : StableHlo.TRef sig ⟨S_, .f32⟩) (.of main_call7_v0 : StableHlo.TRef sig ⟨S49, .f32⟩) (fun x v => Host.reduceAdd x v reducesTo_S100000x49_S49_d0 h_S_),
    StableHlo.TRef.unary (.of main_call7_v0 : StableHlo.TRef sig ⟨S49, .f32⟩) (.of main_call7_v1 : StableHlo.TRef sig ⟨S1x49, .f32⟩) (broadcastInDim S1x49 ![1] bcast_S49_S1x49_1),
    StableHlo.TRef.nullary (.of main_call7_cst_0 : StableHlo.TRef sig ⟨S_, .f32⟩) (constant S_ .f32 0x47C35000#32),
    StableHlo.TRef.unary (.of main_call7_cst_0 : StableHlo.TRef sig ⟨S_, .f32⟩) (.of main_call7_v2 : StableHlo.TRef sig ⟨S1x49, .f32⟩) (broadcastInDim S1x49 ![] bcast_S_S1x49),
    StableHlo.TRef.binary (.of main_call7_v1 : StableHlo.TRef sig ⟨S1x49, .f32⟩) (.of main_call7_v2 : StableHlo.TRef sig ⟨S1x49, .f32⟩) (.of main_call7_v3 : StableHlo.TRef sig ⟨S1x49, .f32⟩) Host.divf,
    StableHlo.TRef.unary (.of main_call7_v3 : StableHlo.TRef sig ⟨S1x49, .f32⟩) (.of main_call7_v4 : StableHlo.TRef sig ⟨S100000x49, .f32⟩) (broadcastInDim S100000x49 ![0, 1] bcast_S1x49_S100000x49_0_1),
    StableHlo.TRef.binary (.of main_v144 : StableHlo.TRef sig ⟨S100000x49, .f32⟩) (.of main_call7_v4 : StableHlo.TRef sig ⟨S100000x49, .f32⟩) (.of main_call7_v5 : StableHlo.TRef sig ⟨S100000x49, .f32⟩) subf,
    StableHlo.TRef.binary (.of main_call7_v5 : StableHlo.TRef sig ⟨S100000x49, .f32⟩) (.of main_call7_v5 : StableHlo.TRef sig ⟨S100000x49, .f32⟩) (.of main_call7_v6 : StableHlo.TRef sig ⟨S100000x49, .f32⟩) mulf,
    StableHlo.TRef.unary (.of main_c_20 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47C35000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S100000x49, .f32⟩) (.of main_call7_cst_2 : StableHlo.TRef sig ⟨S_, .f32⟩) (.of main_call7_v9 : StableHlo.TRef sig ⟨S49, .f32⟩) (fun x v => Host.reduceAdd x v reducesTo_S100000x49_S49_d0 h_S_),
    StableHlo.TRef.unary (.of main_call7_v8 : StableHlo.TRef sig ⟨S_, .f32⟩) (.of main_call7_v10 : StableHlo.TRef sig ⟨S49, .f32⟩) (broadcastInDim S49 ![] bcast_S_S49),
    StableHlo.TRef.binary (.of main_call7_v9 : StableHlo.TRef sig ⟨S49, .f32⟩) (.of main_call7_v10 : StableHlo.TRef sig ⟨S49, .f32⟩) (.of main_call7_v11 : StableHlo.TRef sig ⟨S49, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S49, .f32⟩) (broadcastInDim S49 ![] bcast_S_S49),
    StableHlo.TRef.ternary (.of main_call7_v12 : StableHlo.TRef sig ⟨S_, .i1⟩) (.of main_call7_v11 : StableHlo.TRef sig ⟨S49, .f32⟩) (.of main_call7_call0_v1 : StableHlo.TRef sig ⟨S49, .f32⟩) (.of main_v152 : StableHlo.TRef sig ⟨S49, .f32⟩) (fun p a b => select (broadcastInDim S49 ![] bcast_S_S49 p) a b),
    StableHlo.unary main_v151 main_v153 (broadcastInDim S1x49 ![1] bcast_S49_S1x49_1),
    StableHlo.unary main_v153 main_v154 (broadcastInDim S100000x49 ![0, 1] bcast_S1x49_S100000x49_0_1),
    StableHlo.binary main_v144 main_v154 main_v155 subf,
    StableHlo.unary main_v146 main_v156 (broadcastInDim S1x49 ![1] bcast_S49_S1x49_1),
    StableHlo.unary main_v156 main_v157 (broadcastInDim S100000x49 ![0, 1] bcast_S1x49_S100000x49_0_1),
    StableHlo.binary main_v157 main_v155 main_v158 mulf,
    StableHlo.nullary main_cst_21 (constant S_ .f32 0x3727C5AC#32),
    StableHlo.unary main_cst_21 main_v159 (broadcastInDim S49 ![] bcast_S_S49),
    StableHlo.binary main_v152 main_v159 main_v160 addf,
    StableHlo.unary main_v160 main_v161 Host.rsqrt,
    StableHlo.unary main_v161 main_v162 (broadcastInDim S1x49 ![1] bcast_S49_S1x49_1),
    StableHlo.unary main_v162 main_v163 (broadcastInDim S100000x49 ![0, 1] bcast_S1x49_S100000x49_0_1),
    StableHlo.binary main_v158 main_v163 main_v164 mulf,
    StableHlo.unary main_v148 main_v165 (broadcastInDim S1x49 ![1] bcast_S49_S1x49_1),
    StableHlo.unary main_v165 main_v166 (broadcastInDim S100000x49 ![0, 1] bcast_S1x49_S100000x49_0_1),
    StableHlo.binary main_v164 main_v166 main_v167 addf,
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S100000x49, .f32⟩) (broadcastInDim S100000x49 ![] bcast_S_S100000x49),
    StableHlo.TRef.binary (.of main_v167 : StableHlo.TRef sig ⟨S100000x49, .f32⟩) (.of main_call8_v0 : StableHlo.TRef sig ⟨S100000x49, .f32⟩) (.of main_v168 : StableHlo.TRef sig ⟨S100000x49, .f32⟩) maximumf,
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S100000x49, .f32⟩) (broadcastInDim S100000x49 ![] bcast_S_S100000x49),
    StableHlo.TRef.binary (.of main_v168 : StableHlo.TRef sig ⟨S100000x49, .f32⟩) (.of main_call9_v0 : StableHlo.TRef sig ⟨S100000x49, .f32⟩) (.of main_v169 : StableHlo.TRef sig ⟨S100000x49, .f32⟩) maximumf ]

abbrev opsL2A : List (HloOp τ sig (Elt F)) :=
  [ StableHlo.nullary main_c_22 (constantI S_ 32 0#32),
    StableHlo.unary main_c_22 main_v170 (broadcastInDim S1600000 ![] bcast_S_S1600000),
    StableHlo.binary main_v1 main_v170 main_v171 (cmpi .slt),
    StableHlo.nullary main_c_23 (constantI S_ 32 100000#32),
    StableHlo.unary main_c_23 main_v172 (broadcastInDim S1600000 ![] bcast_S_S1600000),
    StableHlo.binary main_v1 main_v172 main_v173 addi,
    StableHlo.ternary main_v171 main_v173 main_v1 main_v174 select,
    StableHlo.unary main_v174 main_v175 (broadcastInDim S1600000x1 ![0] bcast_S1600000_S1600000x1_0),
    StableHlo.binary main_v169 main_v175 main_v176 (fun x i => Host.gather gather_S100000x49_S1600000x1_S1600000x49_1_0_n_n_0_1_149 x i),
    StableHlo.nullary main_cst_24 (constant S_ .f32 0x00000000#32),
    StableHlo.unary main_cst_24 main_v177 (broadcastInDim S100000x49 ![] bcast_S_S100000x49),
    StableHlo.unary main_v3 main_v178 (broadcastInDim S1600000x1 ![0] bcast_S1600000_S1600000x1_0),
    StableHlo.ternary main_v177 main_v178 main_v176 main_v179 (fun x i u => Host.scatterAdd scatter_S100000x49_S1600000x1_S1600000x49_1_0_0_1 x i u),
    StableHlo.unary main_arg11 main_v180 (extractStridedSlice S1 ![2] · slices_S3_S1_2),
    StableHlo.reshape main_v180 main_v181 rfl shapeCasts_S1_S_,
    StableHlo.nullary main_cst_25 (constant S_ .f32 0x3F800000#32),
    StableHlo.binary main_cst_25 main_v181 main_v182 addf,
    StableHlo.unary main_v182 main_v183 (broadcastInDim S100000x49 ![] bcast_S_S100000x49),
    StableHlo.binary main_v183 main_v169 main_v184 mulf,
    StableHlo.binary main_v184 main_v179 main_v185 addf,
    StableHlo.unary main_arg3 main_v186 (extractStridedSlice S1x49x49 ![2, 0, 0] · slices_S3x49x49_S1x49x49_2_0_0),
    StableHlo.reshape main_v186 main_v187 rfl shapeCasts_S1x49x49_S49x49,
    StableHlo.binary main_v185 main_v187 main_v188 (fun l r => Host.dotGeneral dot_S100000x49_S49x49_S100000x49_1_0_0_1_n_n none l r),
    StableHlo.unary main_arg4 main_v189 (extractStridedSlice S1x49 ![2, 0] · slices_S3x49_S1x49_2_0),
    StableHlo.reshape main_v189 main_v190 rfl shapeCasts_S1x49_S49,
    StableHlo.unary main_v190 main_v191 (broadcastInDim S1x49 ![1] bcast_S49_S1x49_1),
    StableHlo.unary main_v191 main_v192 (broadcastInDim S100000x49 ![0, 1] bcast_S1x49_S100000x49_0_1),
    StableHlo.binary main_v188 main_v192 main_v193 addf,
    StableHlo.unary main_arg5 main_v194 (extractStridedSlice S1x49 ![2, 0] · slices_S3x49_S1x49_2_0),
    StableHlo.reshape main_v194 main_v195 rfl shapeCasts_S1x49_S49,
    StableHlo.unary main_arg6 main_v196 (extractStridedSlice S1x49 ![2, 0] · slices_S3x49_S1x49_2_0),
    StableHlo.reshape main_v196 main_v197 rfl shapeCasts_S1x49_S49,
    StableHlo.nullary main_cst_26 (constant S_ .f32 0x00000000#32),
    StableHlo.binary main_v193 main_cst_26 main_v198 (fun x v => Host.reduceAdd x v reducesTo_S100000x49_S49_d0 h_S_),
    StableHlo.nullary main_cst_27 (constant S_ .f32 0x47C35000#32),
    StableHlo.unary main_cst_27 main_v199 (broadcastInDim S49 ![] bcast_S_S49),
    StableHlo.binary main_v198 main_v199 main_v200 Host.divf,
    StableHlo.nullary main_c_28 (constantI S_ 32 0#32),
    StableHlo.TRef.nullary (.of main_call10_cst : StableHlo.TRef sig ⟨S_, .f32⟩) (constant S_ .f32 0x00000000#32),
    StableHlo.TRef.binary (.of main_v193 : StableHlo.TRef sig ⟨S100000x49, .f32⟩) (.of main_call10_cst : StableHlo.TRef sig ⟨S_, .f32⟩) (.of main_call10_v0 : StableHlo.TRef sig ⟨S49, .f32⟩) (fun x v => Host.reduceAdd x v reducesTo_S100000x49_S49_d0 h_S_),
    StableHlo.TRef.unary (.of main_call10_v0 : StableHlo.TRef sig ⟨S49, .f32⟩) (.of main_call10_v1 : StableHlo.TRef sig ⟨S1x49, .f32⟩) (broadcastInDim S1x49 ![1] bcast_S49_S1x49_1),
    StableHlo.TRef.nullary (.of main_call10_cst_0 : StableHlo.TRef sig ⟨S_, .f32⟩) (constant S_ .f32 0x47C35000#32),
    StableHlo.TRef.unary (.of main_call10_cst_0 : StableHlo.TRef sig ⟨S_, .f32⟩) (.of main_call10_v2 : StableHlo.TRef sig ⟨S1x49, .f32⟩) (broadcastInDim S1x49 ![] bcast_S_S1x49),
    StableHlo.TRef.binary (.of main_call10_v1 : StableHlo.TRef sig ⟨S1x49, .f32⟩) (.of main_call10_v2 : StableHlo.TRef sig ⟨S1x49, .f32⟩) (.of main_call10_v3 : StableHlo.TRef sig ⟨S1x49, .f32⟩) Host.divf,
    StableHlo.TRef.unary (.of main_call10_v3 : StableHlo.TRef sig ⟨S1x49, .f32⟩) (.of main_call10_v4 : StableHlo.TRef sig ⟨S100000x49, .f32⟩) (broadcastInDim S100000x49 ![0, 1] bcast_S1x49_S100000x49_0_1),
    StableHlo.TRef.binary (.of main_v193 : StableHlo.TRef sig ⟨S100000x49, .f32⟩) (.of main_call10_v4 : StableHlo.TRef sig ⟨S100000x49, .f32⟩) (.of main_call10_v5 : StableHlo.TRef sig ⟨S100000x49, .f32⟩) subf,
    StableHlo.TRef.binary (.of main_call10_v5 : StableHlo.TRef sig ⟨S100000x49, .f32⟩) (.of main_call10_v5 : StableHlo.TRef sig ⟨S100000x49, .f32⟩) (.of main_call10_v6 : StableHlo.TRef sig ⟨S100000x49, .f32⟩) mulf,
    StableHlo.TRef.unary (.of main_c_28 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x47C35000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S100000x49, .f32⟩) (.of main_call10_cst_2 : StableHlo.TRef sig ⟨S_, .f32⟩) (.of main_call10_v9 : StableHlo.TRef sig ⟨S49, .f32⟩) (fun x v => Host.reduceAdd x v reducesTo_S100000x49_S49_d0 h_S_),
    StableHlo.TRef.unary (.of main_call10_v8 : StableHlo.TRef sig ⟨S_, .f32⟩) (.of main_call10_v10 : StableHlo.TRef sig ⟨S49, .f32⟩) (broadcastInDim S49 ![] bcast_S_S49),
    StableHlo.TRef.binary (.of main_call10_v9 : StableHlo.TRef sig ⟨S49, .f32⟩) (.of main_call10_v10 : StableHlo.TRef sig ⟨S49, .f32⟩) (.of main_call10_v11 : StableHlo.TRef sig ⟨S49, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S49, .f32⟩) (broadcastInDim S49 ![] bcast_S_S49),
    StableHlo.TRef.ternary (.of main_call10_v12 : StableHlo.TRef sig ⟨S_, .i1⟩) (.of main_call10_v11 : StableHlo.TRef sig ⟨S49, .f32⟩) (.of main_call10_call0_v1 : StableHlo.TRef sig ⟨S49, .f32⟩) (.of main_v201 : StableHlo.TRef sig ⟨S49, .f32⟩) (fun p a b => select (broadcastInDim S49 ![] bcast_S_S49 p) a b),
    StableHlo.unary main_v200 main_v202 (broadcastInDim S1x49 ![1] bcast_S49_S1x49_1),
    StableHlo.unary main_v202 main_v203 (broadcastInDim S100000x49 ![0, 1] bcast_S1x49_S100000x49_0_1),
    StableHlo.binary main_v193 main_v203 main_v204 subf,
    StableHlo.unary main_v195 main_v205 (broadcastInDim S1x49 ![1] bcast_S49_S1x49_1),
    StableHlo.unary main_v205 main_v206 (broadcastInDim S100000x49 ![0, 1] bcast_S1x49_S100000x49_0_1),
    StableHlo.binary main_v206 main_v204 main_v207 mulf,
    StableHlo.nullary main_cst_29 (constant S_ .f32 0x3727C5AC#32),
    StableHlo.unary main_cst_29 main_v208 (broadcastInDim S49 ![] bcast_S_S49),
    StableHlo.binary main_v201 main_v208 main_v209 addf,
    StableHlo.unary main_v209 main_v210 Host.rsqrt,
    StableHlo.unary main_v210 main_v211 (broadcastInDim S1x49 ![1] bcast_S49_S1x49_1),
    StableHlo.unary main_v211 main_v212 (broadcastInDim S100000x49 ![0, 1] bcast_S1x49_S100000x49_0_1),
    StableHlo.binary main_v207 main_v212 main_v213 mulf,
    StableHlo.unary main_v197 main_v214 (broadcastInDim S1x49 ![1] bcast_S49_S1x49_1),
    StableHlo.unary main_v214 main_v215 (broadcastInDim S100000x49 ![0, 1] bcast_S1x49_S100000x49_0_1),
    StableHlo.binary main_v213 main_v215 main_v216 addf,
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S100000x49, .f32⟩) (broadcastInDim S100000x49 ![] bcast_S_S100000x49),
    StableHlo.TRef.binary (.of main_v216 : StableHlo.TRef sig ⟨S100000x49, .f32⟩) (.of main_call11_v0 : StableHlo.TRef sig ⟨S100000x49, .f32⟩) (.of main_v217 : StableHlo.TRef sig ⟨S100000x49, .f32⟩) maximumf ]

abbrev opsL2B : List (HloOp τ sig (Elt F)) :=
  [ StableHlo.unary main_arg7 main_v218 (extractStridedSlice S1x49x49 ![2, 0, 0] · slices_S3x49x49_S1x49x49_2_0_0),
    StableHlo.reshape main_v218 main_v219 rfl shapeCasts_S1x49x49_S49x49,
    StableHlo.binary main_v217 main_v219 main_v220 (fun l r => Host.dotGeneral dot_S100000x49_S49x49_S100000x49_1_0_0_1_n_n none l r),
    StableHlo.unary main_arg8 main_v221 (extractStridedSlice S1x49 ![2, 0] · slices_S3x49_S1x49_2_0),
    StableHlo.reshape main_v221 main_v222 rfl shapeCasts_S1x49_S49,
    StableHlo.unary main_v222 main_v223 (broadcastInDim S1x49 ![1] bcast_S49_S1x49_1),
    StableHlo.unary main_v223 main_v224 (broadcastInDim S100000x49 ![0, 1] bcast_S1x49_S100000x49_0_1),
    StableHlo.binary main_v220 main_v224 main_v225 addf,
    StableHlo.unary main_arg9 main_v226 (extractStridedSlice S1x49 ![2, 0] · slices_S3x49_S1x49_2_0),
    StableHlo.reshape main_v226 main_v227 rfl shapeCasts_S1x49_S49,
    StableHlo.unary main_arg10 main_v228 (extractStridedSlice S1x49 ![2, 0] · slices_S3x49_S1x49_2_0),
    StableHlo.reshape main_v228 main_v229 rfl shapeCasts_S1x49_S49,
    StableHlo.nullary main_cst_30 (constant S_ .f32 0x00000000#32),
    StableHlo.binary main_v225 main_cst_30 main_v230 (fun x v => Host.reduceAdd x v reducesTo_S100000x49_S49_d0 h_S_),
    StableHlo.nullary main_cst_31 (constant S_ .f32 0x47C35000#32),
    StableHlo.unary main_cst_31 main_v231 (broadcastInDim S49 ![] bcast_S_S49),
    StableHlo.binary main_v230 main_v231 main_v232 Host.divf,
    StableHlo.nullary main_c_32 (constantI S_ 32 0#32),
    StableHlo.TRef.nullary (.of main_call12_cst : StableHlo.TRef sig ⟨S_, .f32⟩) (constant S_ .f32 0x00000000#32),
    StableHlo.TRef.binary (.of main_v225 : StableHlo.TRef sig ⟨S100000x49, .f32⟩) (.of main_call12_cst : StableHlo.TRef sig ⟨S_, .f32⟩) (.of main_call12_v0 : StableHlo.TRef sig ⟨S49, .f32⟩) (fun x v => Host.reduceAdd x v reducesTo_S100000x49_S49_d0 h_S_),
    StableHlo.TRef.unary (.of main_call12_v0 : StableHlo.TRef sig ⟨S49, .f32⟩) (.of main_call12_v1 : StableHlo.TRef sig ⟨S1x49, .f32⟩) (broadcastInDim S1x49 ![1] bcast_S49_S1x49_1),
    StableHlo.TRef.nullary (.of main_call12_cst_0 : StableHlo.TRef sig ⟨S_, .f32⟩) (constant S_ .f32 0x47C35000#32),
    StableHlo.TRef.unary (.of main_call12_cst_0 : StableHlo.TRef sig ⟨S_, .f32⟩) (.of main_call12_v2 : StableHlo.TRef sig ⟨S1x49, .f32⟩) (broadcastInDim S1x49 ![] bcast_S_S1x49),
    StableHlo.TRef.binary (.of main_call12_v1 : StableHlo.TRef sig ⟨S1x49, .f32⟩) (.of main_call12_v2 : StableHlo.TRef sig ⟨S1x49, .f32⟩) (.of main_call12_v3 : StableHlo.TRef sig ⟨S1x49, .f32⟩) Host.divf,
    StableHlo.TRef.unary (.of main_call12_v3 : StableHlo.TRef sig ⟨S1x49, .f32⟩) (.of main_call12_v4 : StableHlo.TRef sig ⟨S100000x49, .f32⟩) (broadcastInDim S100000x49 ![0, 1] bcast_S1x49_S100000x49_0_1),
    StableHlo.TRef.binary (.of main_v225 : StableHlo.TRef sig ⟨S100000x49, .f32⟩) (.of main_call12_v4 : StableHlo.TRef sig ⟨S100000x49, .f32⟩) (.of main_call12_v5 : StableHlo.TRef sig ⟨S100000x49, .f32⟩) subf,
    StableHlo.TRef.binary (.of main_call12_v5 : StableHlo.TRef sig ⟨S100000x49, .f32⟩) (.of main_call12_v5 : StableHlo.TRef sig ⟨S100000x49, .f32⟩) (.of main_call12_v6 : StableHlo.TRef sig ⟨S100000x49, .f32⟩) mulf,
    StableHlo.TRef.unary (.of main_c_32 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x47C35000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S100000x49, .f32⟩) (.of main_call12_cst_2 : StableHlo.TRef sig ⟨S_, .f32⟩) (.of main_call12_v9 : StableHlo.TRef sig ⟨S49, .f32⟩) (fun x v => Host.reduceAdd x v reducesTo_S100000x49_S49_d0 h_S_),
    StableHlo.TRef.unary (.of main_call12_v8 : StableHlo.TRef sig ⟨S_, .f32⟩) (.of main_call12_v10 : StableHlo.TRef sig ⟨S49, .f32⟩) (broadcastInDim S49 ![] bcast_S_S49),
    StableHlo.TRef.binary (.of main_call12_v9 : StableHlo.TRef sig ⟨S49, .f32⟩) (.of main_call12_v10 : StableHlo.TRef sig ⟨S49, .f32⟩) (.of main_call12_v11 : StableHlo.TRef sig ⟨S49, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S49, .f32⟩) (broadcastInDim S49 ![] bcast_S_S49),
    StableHlo.TRef.ternary (.of main_call12_v12 : StableHlo.TRef sig ⟨S_, .i1⟩) (.of main_call12_v11 : StableHlo.TRef sig ⟨S49, .f32⟩) (.of main_call12_call0_v1 : StableHlo.TRef sig ⟨S49, .f32⟩) (.of main_v233 : StableHlo.TRef sig ⟨S49, .f32⟩) (fun p a b => select (broadcastInDim S49 ![] bcast_S_S49 p) a b),
    StableHlo.unary main_v232 main_v234 (broadcastInDim S1x49 ![1] bcast_S49_S1x49_1),
    StableHlo.unary main_v234 main_v235 (broadcastInDim S100000x49 ![0, 1] bcast_S1x49_S100000x49_0_1),
    StableHlo.binary main_v225 main_v235 main_v236 subf,
    StableHlo.unary main_v227 main_v237 (broadcastInDim S1x49 ![1] bcast_S49_S1x49_1),
    StableHlo.unary main_v237 main_v238 (broadcastInDim S100000x49 ![0, 1] bcast_S1x49_S100000x49_0_1),
    StableHlo.binary main_v238 main_v236 main_v239 mulf,
    StableHlo.nullary main_cst_33 (constant S_ .f32 0x3727C5AC#32),
    StableHlo.unary main_cst_33 main_v240 (broadcastInDim S49 ![] bcast_S_S49),
    StableHlo.binary main_v233 main_v240 main_v241 addf,
    StableHlo.unary main_v241 main_v242 Host.rsqrt,
    StableHlo.unary main_v242 main_v243 (broadcastInDim S1x49 ![1] bcast_S49_S1x49_1),
    StableHlo.unary main_v243 main_v244 (broadcastInDim S100000x49 ![0, 1] bcast_S1x49_S100000x49_0_1),
    StableHlo.binary main_v239 main_v244 main_v245 mulf,
    StableHlo.unary main_v229 main_v246 (broadcastInDim S1x49 ![1] bcast_S49_S1x49_1),
    StableHlo.unary main_v246 main_v247 (broadcastInDim S100000x49 ![0, 1] bcast_S1x49_S100000x49_0_1),
    StableHlo.binary main_v245 main_v247 main_v248 addf,
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S100000x49, .f32⟩) (broadcastInDim S100000x49 ![] bcast_S_S100000x49),
    StableHlo.TRef.binary (.of main_v248 : StableHlo.TRef sig ⟨S100000x49, .f32⟩) (.of main_call13_v0 : StableHlo.TRef sig ⟨S100000x49, .f32⟩) (.of main_v249 : StableHlo.TRef sig ⟨S100000x49, .f32⟩) maximumf,
    StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v0 : StableHlo.TRef sig ⟨S100000x49, .f32⟩) (broadcastInDim S100000x49 ![] bcast_S_S100000x49),
    StableHlo.TRef.binary (.of main_v249 : StableHlo.TRef sig ⟨S100000x49, .f32⟩) (.of main_call14_v0 : StableHlo.TRef sig ⟨S100000x49, .f32⟩) (.of main_v250 : StableHlo.TRef sig ⟨S100000x49, .f32⟩) maximumf ]

abbrev opsTail : List (HloOp τ sig (Elt F)) :=
  [ StableHlo.nullary main_cst_34 (constant S_ .f32 0x00000000#32),
    StableHlo.unary main_cst_34 main_v251 (broadcastInDim S512x49 ![] bcast_S_S512x49),
    StableHlo.unary main_arg13 main_v252 (broadcastInDim S100000x1 ![0] bcast_S100000_S100000x1_0),
    StableHlo.ternary main_v251 main_v252 main_v250 main_v253 (fun x i u => Host.scatterAdd scatter_S512x49_S100000x1_S100000x49_1_0_0_1 x i u),
    StableHlo.nullary main_cst_35 (constant S_ .f32 0x3F800000#32),
    StableHlo.unary main_cst_35 main_v254 (broadcastInDim S100000 ![] bcast_S_S100000),
    StableHlo.nullary main_cst_36 (constant S_ .f32 0x00000000#32),
    StableHlo.unary main_cst_36 main_v255 (broadcastInDim S512 ![] bcast_S_S512),
    StableHlo.unary main_arg13 main_v256 (broadcastInDim S100000x1 ![0] bcast_S100000_S100000x1_0),
    StableHlo.ternary main_v255 main_v256 main_v254 main_v257 (fun x i u => Host.scatterAdd scatter_S512_S100000x1_S100000_n_0_0_1 x i u),
    StableHlo.nullary main_cst_37 (constant S_ .f32 0x3F800000#32),
    StableHlo.TRef.unary (.of main_cst_37 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S512, .f32⟩) (broadcastInDim S512 ![] bcast_S_S512),
    StableHlo.TRef.binary (.of main_call15_v1 : StableHlo.TRef sig ⟨S512, .f32⟩) (.of main_v257 : StableHlo.TRef sig ⟨S512, .f32⟩) (.of main_v258 : StableHlo.TRef sig ⟨S512, .f32⟩) maximumf,
    StableHlo.unary main_v258 main_v259 (broadcastInDim S512x1 ![0] bcast_S512_S512x1_0),
    StableHlo.unary main_v259 main_v260 (broadcastInDim S512x49 ![0, 1] bcast_S512x1_S512x49_0_1),
    StableHlo.binary main_v253 main_v260 main_v261 Host.divf ]

abbrev ops : List (HloOp τ sig (Elt F)) :=
  opsHead ++ opsL0A ++ opsL0B ++ opsL1A ++ opsL1B ++ opsL2A ++ opsL2B ++ opsTail

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

variable (m : (ℓ : Loc nD τ sig) → Buf (Elt F) ℓ)

abbrev U0 (c : Dev nD) : Valuation τ sig (Elt F) := launchContents m c

abbrev U1 (c : Dev nD) : Valuation τ sig (Elt F) := after opsHead (U0 m c)

abbrev U2 (c : Dev nD) : Valuation τ sig (Elt F) := after opsL0A (U1 m c)

abbrev U3 (c : Dev nD) : Valuation τ sig (Elt F) := after opsL0B (U2 m c)

abbrev U4 (c : Dev nD) : Valuation τ sig (Elt F) := after opsL1A (U3 m c)

abbrev U5 (c : Dev nD) : Valuation τ sig (Elt F) := after opsL1B (U4 m c)

abbrev U6 (c : Dev nD) : Valuation τ sig (Elt F) := after opsL2A (U5 m c)

abbrev U7 (c : Dev nD) : Valuation τ sig (Elt F) := after opsL2B (U6 m c)

abbrev U8 (c : Dev nD) : Valuation τ sig (Elt F) := after opsTail (U7 m c)

theorem after_ops (c : Dev nD) : after ops (U0 m c) = U8 m c := by
  unfold ops
  rw [after_app, after_app, after_app, after_app, after_app, after_app, after_app]

end Cert.ReferenceIdeal.Hand

end
-- ==== Proof.RRun.lean ====
/- The reference program runs to the end, leaving each buffer at its operations' composed value and the arguments untouched. -/
import proofs.«425467_j63101659513266_1_alg».proof.Proof.ROps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 1000000 in

theorem main_eq (c : Dev nD) : main (F := F) c = seq ops := rfl

set_option maxRecDepth 8192 in

theorem scopedRefs_eq : (Finset.univ.filter fun b : Ref sig .tc => b.isScoped) = ∅ := by decide

theorem scopedSems_eq : (Finset.univ.filter fun sm : SemLoc sig => sm.isScoped .tc) = ∅ := by decide

structure Good (op : HloOp τ sig (Elt F)) : Prop where
  sub : op.bufs ⊆ tcRefs τ sig
  fresh : op.fresh = ∅
  past : ∀ b ∈ op.writes, ∃ r : Ref sig .tc, b = Proc.devRef .tc r ∧ 14 ≤ r.idx.val

theorem good_nullary (y : Ref sig .tc) (v : y.ty.Contents (Elt F)) (hy) (h14 : 14 ≤ y.idx.val) :
    Good (nullary (τ := τ) y v hy) :=
  ⟨nullary_bufs_sub .., rfl, fun _ hb => ⟨y, Finset.mem_singleton.mp hb, h14⟩⟩
theorem good_unary (x y : Ref sig .tc) (f : x.ty.Contents (Elt F) → y.ty.Contents (Elt F)) (hx hy) (h14 : 14 ≤ y.idx.val) :
    Good (unary (τ := τ) x y f hx hy) :=
  ⟨unary_bufs_sub .., rfl, fun _ hb => ⟨y, Finset.mem_singleton.mp hb, h14⟩⟩
theorem good_binary (a b y : Ref sig .tc) (f : a.ty.Contents (Elt F) → b.ty.Contents (Elt F) → y.ty.Contents (Elt F)) (ha hb hy)
    (h14 : 14 ≤ y.idx.val) : Good (binary (τ := τ) a b y f ha hb hy) :=
  ⟨binary_bufs_sub .., rfl, fun _ hd => ⟨y, Finset.mem_singleton.mp hd, h14⟩⟩
theorem good_ternary (c a b y : Ref sig .tc)
    (f : c.ty.Contents (Elt F) → a.ty.Contents (Elt F) → b.ty.Contents (Elt F) → y.ty.Contents (Elt F)) (hc ha hb hy)
    (h14 : 14 ≤ y.idx.val) : Good (ternary (τ := τ) c a b y f hc ha hb hy) :=
  ⟨ternary_bufs_sub .., rfl, fun _ hd => ⟨y, Finset.mem_singleton.mp hd, h14⟩⟩
theorem good_reshape (x y : Ref sig .tc) (he hn hx hy) (h14 : 14 ≤ y.idx.val) :
    Good (reshape (τ := τ) (Val := Elt F) x y he hn hx hy) :=
  ⟨reshape_bufs_sub .., rfl, fun _ hd => ⟨y, Finset.mem_singleton.mp hd, h14⟩⟩

theorem ops_good : (ops : List (HloOp τ sig (Elt F))).Forall Good := by
  simp only [ops, List.forall_append]
  repeat' apply And.intro
  all_goals first
    | exact good_unary _ _ _ _ _ (by decide) | exact good_binary _ _ _ _ _ _ _ (by decide) | exact good_nullary _ _ _ (by decide)
    | exact good_reshape _ _ _ _ _ _ (by decide) | exact good_ternary _ _ _ _ _ _ _ _ _ (by decide)

theorem ops_sub : (ops : List (HloOp τ sig (Elt F))).Forall fun op => op.bufs ⊆ tcRefs τ sig :=
  List.forall_iff_forall_mem.mpr fun op h => (List.forall_iff_forall_mem.mp ops_good op h).sub

theorem arg_kept {r : Ref sig .tc} (hr : r.idx.val < 14) {l : List (HloOp τ sig (Elt F))} (hl : l.Forall Good)
    (V : Valuation τ sig (Elt F)) : after l V (Proc.devRef .tc r) = V (Proc.devRef .tc r) :=
  after_of_forall_not_mem l V fun op hop hb => by
    obtain ⟨r', he, h14⟩ := (List.forall_iff_forall_mem.mp hl op hop).past _ hb
    have e : r = r' := Proc.devRef_injective _ he
    subst e
    omega

variable (m : (ℓ : Loc nD τ sig) → Buf (Elt F) ℓ)

theorem run (ρ : Dev nD → PrngReg) :
    θ_run defs (onTc (τ := τ) (main (F := F))) ⟨m, fun _ => 0, ρ⟩ fun r => ∀ c : Dev nD,
      r.2.mem ((c.tc : Thread nD τ).loc main_v261) = after ops (U0 m c) (Proc.devRef .tc main_v261)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v261,
      (h c main_arg0).trans (arg_kept (by decide) ops_good _), (h c main_arg1).trans (arg_kept (by decide) ops_good _),
      (h c main_arg2).trans (arg_kept (by decide) ops_good _), (h c main_arg3).trans (arg_kept (by decide) ops_good _),
      (h c main_arg4).trans (arg_kept (by decide) ops_good _), (h c main_arg5).trans (arg_kept (by decide) ops_good _),
      (h c main_arg6).trans (arg_kept (by decide) ops_good _), (h c main_arg7).trans (arg_kept (by decide) ops_good _),
      (h c main_arg8).trans (arg_kept (by decide) ops_good _), (h c main_arg9).trans (arg_kept (by decide) ops_good _),
      (h c main_arg10).trans (arg_kept (by decide) ops_good _), (h c main_arg11).trans (arg_kept (by decide) ops_good _),
      (h c main_arg12).trans (arg_kept (by decide) ops_good _), (h c main_arg13).trans (arg_kept (by decide) ops_good _)⟩)
    (run_seq scopedRefs_eq scopedSems_eq defs main (fun _ => ops) main_eq (fun _ => ops_sub) m ρ
      (fun _ op hop => (List.forall_iff_forall_mem.mp ops_good op hop).fresh))

end Cert.ReferenceIdeal.Hand

end
-- ==== Proof.RWalk.lean ====
/- The reference program's buffers across its stages: what no later stage writes, what the input layer leaves, and what the closing stage computes. -/
import proofs.«425467_j63101659513266_1_alg».proof.Proof.Spec
import proofs.«425467_j63101659513266_1_alg».proof.Proof.ROps
import Idealize.ShloMosaic.Lib.StableHlo.Predicate
import Idealize.ShloMosaic.Lib.StackMember
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StableHlo.Predicate

variable (m : (ℓ : Loc nD τ sig) → Buf (Elt Ideal) ℓ)

theorem ij_eq_ix2 {n k : Nat} (p : Fin n) (q : Fin k) : ij p q = ix2 p q := by
  funext a; match a with | ⟨0, _⟩ => rfl | ⟨1, _⟩ => rfl

theorem ofFin_eq_ix1 {n : Nat} (p : Fin n) : Shape.Idx.ofFin p = ix1 p := by
  funext a; match a with | ⟨0, _⟩ => rfl

theorem cols_at {α : Type} {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) := by
  rw [← ij_eq_ix2 p q, bcast_cols h₁ h₂ v p q, ofFin_eq_ix1]

theorem rows_at {α : Type} {n k : Nat} (h₁ : (⟨1, ![n]⟩ : Shape).BroadcastsInDim ⟨2, ![n, 1]⟩ ![0])
    (h₂ : (⟨2, ![n, 1]⟩ : Shape).BroadcastsInDim ⟨2, ![n, k]⟩ ![0, 1]) (v : (⟨1, ![n]⟩ : Shape).Idx → α) (p : Fin n) (q : Fin k) :
    broadcastInDim ⟨2, ![n, k]⟩ ![0, 1] h₂ (broadcastInDim ⟨2, ![n, 1]⟩ ![0] h₁ v) (ix2 p q) = v (ix1 p) := by
  rw [← ij_eq_ix2 p q, bcast_rows h₁ h₂ v p q, ofFin_eq_ix1]

theorem col_eq {α : Type} {n : Nat} (h₁ : (⟨1, ![n]⟩ : Shape).BroadcastsInDim ⟨2, ![n, 1]⟩ ![0]) (v : (⟨1, ![n]⟩ : Shape).Idx → α) :
    broadcastInDim ⟨2, ![n, 1]⟩ ![0] h₁ v = fun j => v (ix1 (j 0)) := by
  funext j
  obtain ⟨p, rfl⟩ : ∃ p : Fin n, j = ixP p :=
    ⟨j 0, by
      funext a
      match a with
      | ⟨0, _⟩ => rfl
      | ⟨1, h⟩ =>
        apply Fin.ext
        have hlt : (j ⟨1, h⟩).val < 1 := (j ⟨1, h⟩).isLt
        show (j ⟨1, h⟩).val = 0
        omega⟩
  rw [bcast_col1 h₁ v p, ofFin_eq_ix1]
  rfl

theorem dot56_at (A : FVec Ideal S100000x56 .f32) (B : FVec Ideal S56x49 .f32) (p : Fin 100000) (q : Fin 49) :
    Host.dotGeneral (F := Ideal) (φ₁ := .f32) (φ₂ := .f32) dot_S100000x56_S56x49_S100000x49_1_0_0_1_n_n none A B (ix2 p q)
      = ∑ k : Fin 56, A (ix2 p k) * B (ix2 k q) :=
  StackMember.dotGeneral_plain_apply (m := 100000) (k := 56) (n := 49) none A B p q

theorem hostDivf_at {s : Shape} {φ : FTy} (a b : FVec Ideal s φ) (i : s.Idx) :
    Host.divf (F := Ideal) a b i = Ideal.div (a i) (b i) := rfl

theorem hostScatterAdd_ideal {s si u : Shape} {φ : FTy} {w : Nat} (d : ScatterDims s si u) (x : FVec Ideal s φ) (idx : IVec si w)
    (upd : FVec Ideal u φ) : Host.scatterAdd (F := Ideal) d x idx upd = Ideal.hostScatterAdd d x idx upd := by
  unfold Host.scatterAdd
  exact Ideal.hostScatterAdd_def d .single x idx upd

abbrev keepList : List (Ref sig .tc) :=
  [main_arg3, main_arg4, main_arg5, main_arg6, main_arg7, main_arg8, main_arg9, main_arg10, main_arg11, main_arg12,
   main_arg13, main_v1, main_v3]

local macro "stage_keeps " l:ident " from " hb:ident : tactic =>
  `(tactic| (refine after_of_forall_not_mem _ _ (List.forall_iff_forall_mem.mp ?_)
             simp only [$l:ident, List.Forall, TRef.nullary, TRef.unary, TRef.binary, TRef.ternary, nullary_writes, unary_writes,
               binary_writes, ternary_writes, reshape_writes, Finset.mem_singleton]
             repeat' apply And.intro
             all_goals exact devRef_ne_of_ne (ne_of_mem_of_not_mem $hb (by decide))))

theorem step2 (c : Dev nD) (b : Ref sig .tc) (hb : b ∈ keepList) :
    U2 m c (Proc.devRef .tc b) = U1 m c (Proc.devRef .tc b) := by
  show after opsL0A (U1 m c) (Proc.devRef .tc b) = U1 m c (Proc.devRef .tc b)
  stage_keeps opsL0A from hb

theorem step3 (c : Dev nD) (b : Ref sig .tc) (hb : b ∈ keepList) :
    U3 m c (Proc.devRef .tc b) = U2 m c (Proc.devRef .tc b) := by
  show after opsL0B (U2 m c) (Proc.devRef .tc b) = U2 m c (Proc.devRef .tc b)
  stage_keeps opsL0B from hb

theorem step4 (c : Dev nD) (b : Ref sig .tc) (hb : b ∈ keepList) :
    U4 m c (Proc.devRef .tc b) = U3 m c (Proc.devRef .tc b) := by
  show after opsL1A (U3 m c) (Proc.devRef .tc b) = U3 m c (Proc.devRef .tc b)
  stage_keeps opsL1A from hb

theorem step5 (c : Dev nD) (b : Ref sig .tc) (hb : b ∈ keepList) :
    U5 m c (Proc.devRef .tc b) = U4 m c (Proc.devRef .tc b) := by
  show after opsL1B (U4 m c) (Proc.devRef .tc b) = U4 m c (Proc.devRef .tc b)
  stage_keeps opsL1B from hb

theorem step6 (c : Dev nD) (b : Ref sig .tc) (hb : b ∈ keepList) :
    U6 m c (Proc.devRef .tc b) = U5 m c (Proc.devRef .tc b) := by
  show after opsL2A (U5 m c) (Proc.devRef .tc b) = U5 m c (Proc.devRef .tc b)
  stage_keeps opsL2A from hb

theorem step7 (c : Dev nD) (b : Ref sig .tc) (hb : b ∈ keepList) :
    U7 m c (Proc.devRef .tc b) = U6 m c (Proc.devRef .tc b) := by
  show after opsL2B (U6 m c) (Proc.devRef .tc b) = U6 m c (Proc.devRef .tc b)
  stage_keeps opsL2B from hb

theorem keep2 (c : Dev nD) (b : Ref sig .tc) (hb : b ∈ keepList) :
    U2 m c (Proc.devRef .tc b) = U1 m c (Proc.devRef .tc b) := step2 m c b hb
theorem keep3 (c : Dev nD) (b : Ref sig .tc) (hb : b ∈ keepList) :
    U3 m c (Proc.devRef .tc b) = U1 m c (Proc.devRef .tc b) := (step3 m c b hb).trans (keep2 m c b hb)
theorem keep4 (c : Dev nD) (b : Ref sig .tc) (hb : b ∈ keepList) :
    U4 m c (Proc.devRef .tc b) = U1 m c (Proc.devRef .tc b) := (step4 m c b hb).trans (keep3 m c b hb)
theorem keep5 (c : Dev nD) (b : Ref sig .tc) (hb : b ∈ keepList) :
    U5 m c (Proc.devRef .tc b) = U1 m c (Proc.devRef .tc b) := (step5 m c b hb).trans (keep4 m c b hb)
theorem keep6 (c : Dev nD) (b : Ref sig .tc) (hb : b ∈ keepList) :
    U6 m c (Proc.devRef .tc b) = U1 m c (Proc.devRef .tc b) := (step6 m c b hb).trans (keep5 m c b hb)
theorem keep7 (c : Dev nD) (b : Ref sig .tc) (hb : b ∈ keepList) :
    U7 m c (Proc.devRef .tc b) = U1 m c (Proc.devRef .tc b) := (step7 m c b hb).trans (keep6 m c b hb)

abbrev paramList : List (Ref sig .tc) :=
  [main_arg3, main_arg4, main_arg5, main_arg6, main_arg7, main_arg8, main_arg9, main_arg10, main_arg11, main_arg12, main_arg13]

theorem head_arg (c : Dev nD) (b : Ref sig .tc) (hb : b ∈ paramList) :
    U1 m c (Proc.devRef .tc b) = m ((c : Thread nD τ).loc b) := by
  show after opsHead (U0 m c) (Proc.devRef .tc b) = U0 m c (Proc.devRef .tc b)
  stage_keeps opsHead from hb

theorem head_arg3 (c : Dev nD) : U1 m c (Proc.devRef .tc main_arg3) = m ((c : Thread nD τ).loc main_arg3) :=
  head_arg m c main_arg3 (by decide)
theorem head_arg4 (c : Dev nD) : U1 m c (Proc.devRef .tc main_arg4) = m ((c : Thread nD τ).loc main_arg4) :=
  head_arg m c main_arg4 (by decide)
theorem head_arg5 (c : Dev nD) : U1 m c (Proc.devRef .tc main_arg5) = m ((c : Thread nD τ).loc main_arg5) :=
  head_arg m c main_arg5 (by decide)
theorem head_arg6 (c : Dev nD) : U1 m c (Proc.devRef .tc main_arg6) = m ((c : Thread nD τ).loc main_arg6) :=
  head_arg m c main_arg6 (by decide)
theorem head_arg7 (c : Dev nD) : U1 m c (Proc.devRef .tc main_arg7) = m ((c : Thread nD τ).loc main_arg7) :=
  head_arg m c main_arg7 (by decide)
theorem head_arg8 (c : Dev nD) : U1 m c (Proc.devRef .tc main_arg8) = m ((c : Thread nD τ).loc main_arg8) :=
  head_arg m c main_arg8 (by decide)
theorem head_arg9 (c : Dev nD) : U1 m c (Proc.devRef .tc main_arg9) = m ((c : Thread nD τ).loc main_arg9) :=
  head_arg m c main_arg9 (by decide)
theorem head_arg10 (c : Dev nD) : U1 m c (Proc.devRef .tc main_arg10) = m ((c : Thread nD τ).loc main_arg10) :=
  head_arg m c main_arg10 (by decide)
theorem head_arg11 (c : Dev nD) : U1 m c (Proc.devRef .tc main_arg11) = m ((c : Thread nD τ).loc main_arg11) :=
  head_arg m c main_arg11 (by decide)
theorem head_arg12 (c : Dev nD) : U1 m c (Proc.devRef .tc main_arg12) = m ((c : Thread nD τ).loc main_arg12) :=
  head_arg m c main_arg12 (by decide)
theorem head_arg13 (c : Dev nD) : U1 m c (Proc.devRef .tc main_arg13) = m ((c : Thread nD τ).loc main_arg13) :=
  head_arg m c main_arg13 (by decide)

theorem edge_row_at (ei : IVec S2x1600000 32) (k : Fin 2) (h : S2x1600000.Slices ![k.val, 0] S1x1600000) (p : Fin 1600000) :
    shapeCast S1600000 (extractStridedSlice S1x1600000 ![k.val, 0] ei h) shapeCasts_S1x1600000_S1600000 (ix1 p) = ei (ix2 k p) := by
  rw [shapeCast_apply _ _ (ix1 p) (ix2 (0 : Fin 1) p) (by
    rw [Shape.rowMajor_val_two, Shape.rowMajor_val_one]
    show 0 * 1600000 + p.val = p.val
    omega)]
  exact extractStridedSlice_apply _ ei h (ix2 (0 : Fin 1) p) (ix2 k p) (fun a => match a with
    | ⟨0, _⟩ => by show k.val = k.val + 0; omega
    | ⟨1, _⟩ => by show p.val = 0 + p.val; omega)

theorem head_src (c : Dev nD) :
    U1 m c (Proc.devRef .tc main_v1) = GIN.edgeRow 0 (m ((c : Thread nD τ).loc main_arg12)) := by
  have h : U1 m c (Proc.devRef .tc main_v1)
      = shapeCast S1600000 (extractStridedSlice S1x1600000 ![0, 0] (m ((c : Thread nD τ).loc main_arg12) : IVec S2x1600000 32)
          slices_S2x1600000_S1x1600000_0_0) shapeCasts_S1x1600000_S1600000 := by
    show after opsHead _ (Proc.devRef .tc main_v1) = _
    after_results
    all_goals rfl
  rw [h]
  funext i
  obtain ⟨p, rfl⟩ : ∃ p : Fin 1600000, i = ix1 p := ⟨i 0, eq_ix1 i⟩
  exact edge_row_at (m ((c : Thread nD τ).loc main_arg12)) 0 slices_S2x1600000_S1x1600000_0_0 p

theorem head_dst (c : Dev nD) :
    U1 m c (Proc.devRef .tc main_v3) = GIN.edgeRow 1 (m ((c : Thread nD τ).loc main_arg12)) := by
  have h : U1 m c (Proc.devRef .tc main_v3)
      = shapeCast S1600000 (extractStridedSlice S1x1600000 ![1, 0] (m ((c : Thread nD τ).loc main_arg12) : IVec S2x1600000 32)
          slices_S2x1600000_S1x1600000_1_0) shapeCasts_S1x1600000_S1600000 := by
    show after opsHead _ (Proc.devRef .tc main_v3) = _
    after_results
    all_goals rfl
  rw [h]
  funext i
  obtain ⟨p, rfl⟩ : ∃ p : Fin 1600000, i = ix1 p := ⟨i 0, eq_ix1 i⟩
  exact edge_row_at (m ((c : Thread nD τ).loc main_arg12)) 1 slices_S2x1600000_S1x1600000_1_0 p

theorem head_h (c : Dev nD) :
    U1 m c (Proc.devRef .tc main_v7)
      = GIN.h0 (m ((c : Thread nD τ).loc main_arg0)) (m ((c : Thread nD τ).loc main_arg1)) (m ((c : Thread nD τ).loc main_arg2)) := by
  have h : U1 m c (Proc.devRef .tc main_v7)
      = addf (F := Ideal)
          (Host.dotGeneral (F := Ideal) (φ₁ := .f32) (φ₂ := .f32) dot_S100000x56_S56x49_S100000x49_1_0_0_1_n_n none
            (m ((c : Thread nD τ).loc main_arg0) : FVec Ideal S100000x56 .f32) (m ((c : Thread nD τ).loc main_arg1) : FVec Ideal S56x49 .f32))
          (broadcastInDim S100000x49 ![0, 1] bcast_S1x49_S100000x49_0_1
            (broadcastInDim S1x49 ![1] bcast_S49_S1x49_1 (m ((c : Thread nD τ).loc main_arg2) : FVec Ideal S49 .f32))) := by
    show after opsHead _ (Proc.devRef .tc main_v7) = _
    after_results
    all_goals rfl
  rw [h]
  funext i
  obtain ⟨p, q, rfl⟩ : ∃ (p : Fin 100000) (q : Fin 49), i = ix2 p q := ⟨i 0, i 1, eq_ix2 i⟩
  show Host.dotGeneral (F := Ideal) (φ₁ := .f32) (φ₂ := .f32) dot_S100000x56_S56x49_S100000x49_1_0_0_1_n_n none
        (m ((c : Thread nD τ).loc main_arg0) : FVec Ideal S100000x56 .f32) (m ((c : Thread nD τ).loc main_arg1) : FVec Ideal S56x49 .f32) (ix2 p q)
      + broadcastInDim S100000x49 ![0, 1] bcast_S1x49_S100000x49_0_1
          (broadcastInDim S1x49 ![1] bcast_S49_S1x49_1 (m ((c : Thread nD τ).loc main_arg2) : FVec Ideal S49 .f32)) (ix2 p q) = _
  rw [dot56_at, cols_at]
  rfl

theorem tail_of (V : Valuation τ sig (Elt Ideal)) :
    after opsTail V (Proc.devRef .tc main_v261)
      = GIN.poolR (V (Proc.devRef .tc main_v250)) (V (Proc.devRef .tc main_arg13)) := by
  have h : after opsTail V (Proc.devRef .tc main_v261)
      = Host.divf (F := Ideal)
          (Host.scatterAdd (F := Ideal) scatter_S512x49_S100000x1_S100000x49_1_0_0_1
            (broadcastInDim S512x49 ![] bcast_S_S512x49 (constant (F := Ideal) S_ .f32 0x00000000#32))
            (broadcastInDim S100000x1 ![0] bcast_S100000_S100000x1_0 (V (Proc.devRef .tc main_arg13) : IVec S100000 32))
            (V (Proc.devRef .tc main_v250) : FVec Ideal S100000x49 .f32))
          (broadcastInDim S512x49 ![0, 1] bcast_S512x1_S512x49_0_1 (broadcastInDim S512x1 ![0] bcast_S512_S512x1_0
            (maximumf (F := Ideal) (broadcastInDim S512 ![] bcast_S_S512 (constant (F := Ideal) S_ .f32 0x3F800000#32))
              (Host.scatterAdd (F := Ideal) scatter_S512_S100000x1_S100000_n_0_0_1
                (broadcastInDim S512 ![] bcast_S_S512 (constant (F := Ideal) S_ .f32 0x00000000#32))
                (broadcastInDim S100000x1 ![0] bcast_S100000_S100000x1_0 (V (Proc.devRef .tc main_arg13) : IVec S100000 32))
                (broadcastInDim S100000 ![] bcast_S_S100000 (constant (F := Ideal) S_ .f32 0x3F800000#32)))))) := by
    after_results
    all_goals rfl

  have hz2 : broadcastInDim S512x49 ![] bcast_S_S512x49 (constant (F := Ideal) S_ .f32 0x00000000#32) = fun _ => GIN.cZero := rfl
  have hz1 : broadcastInDim S512 ![] bcast_S_S512 (constant (F := Ideal) S_ .f32 0x00000000#32) = fun _ => GIN.cZero := rfl
  have ho1 : broadcastInDim S100000 ![] bcast_S_S100000 (constant (F := Ideal) S_ .f32 0x3F800000#32) = fun _ => GIN.cOne := rfl
  have hp : scatter_S512x49_S100000x1_S100000x49_1_0_0_1 = GIN.pDims := rfl
  have hc : scatter_S512_S100000x1_S100000_n_0_0_1 = GIN.cDims := rfl
  rw [h, hz2, hz1, ho1, hp, hc, col_eq]
  funext i
  obtain ⟨g, d, rfl⟩ : ∃ (g : Fin 512) (d : Fin 49), i = ix2 g d := ⟨i 0, i 1, eq_ix2 i⟩
  rw [hostDivf_at, rows_at, maximumf_apply, hostScatterAdd_ideal, hostScatterAdd_ideal]
  rfl

theorem tail (c : Dev nD) :
    U8 m c (Proc.devRef .tc main_v261)
      = GIN.poolR (U7 m c (Proc.devRef .tc main_v250)) (U7 m c (Proc.devRef .tc main_arg13)) :=
  tail_of (U7 m c)

end Cert.ReferenceIdeal.Hand

end
-- ==== Proof.RHalf.lean ====
import proofs.«425467_j63101659513266_1_alg».proof.Proof.Spec
import proofs.«425467_j63101659513266_1_alg».proof.Proof.Gen.ReferenceIdeal
import Idealize.ShloMosaic.Lib.StackMember
import Idealize.ShloMosaic.Lib.ValueLayout
import Idealize.ShloMosaic.Lib.IdealHost
import Idealize.ShloMosaic.PureOps.Ideal.Laws

noncomputable section

namespace Cert.ReferenceIdeal.Hand.Half

open Cert.ReferenceIdeal Cert.ReferenceIdeal.Gen Idealize.ShloMosaic Idealize.ShloMosaic.ValueIdx

abbrev Mat := FVec Ideal S100000x49 .f32
abbrev Vec := FVec Ideal S49 .f32
abbrev Par := FVec Ideal S3x49 .f32
abbrev Edges := IVec S1600000 32

variable (l : Fin 3)

theorem slE : S3.Slices ![l.val] S1 := by revert l; decide
theorem slW : S3x49x49.Slices ![l.val, 0, 0] S1x49x49 := by revert l; decide
theorem slP : S3x49.Slices ![l.val, 0] S1x49 := by revert l; decide

def zerosT : Mat := broadcastInDim S100000x49 ![] bcast_S_S100000x49 (constant S_ .f32 0x00000000#32)

def rowsT (v : Vec) : Mat :=
  broadcastInDim S100000x49 ![0, 1] bcast_S1x49_S100000x49_0_1 (broadcastInDim S1x49 ![1] bcast_S49_S1x49_1 v)

def wT (W : FVec Ideal S3x49x49 .f32) : FVec Ideal S49x49 .f32 :=
  shapeCast S49x49 (extractStridedSlice S1x49x49 ![l.val, 0, 0] W (slW l)) shapeCasts_S1x49x49_S49x49

def pT (p : Par) : Vec := shapeCast S49 (extractStridedSlice S1x49 ![l.val, 0] p (slP l)) shapeCasts_S1x49_S49

def srcT (src : Edges) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def aggT (h : Mat) (src dst : Edges) : Mat :=
  Host.scatterAdd scatter_S100000x49_S1600000x1_S1600000x49_1_0_0_1 zerosT
    (broadcastInDim S1600000x1 ![0] bcast_S1600000_S1600000x1_0 dst)
    (Host.gather gather_S100000x49_S1600000x1_S1600000x49_1_0_n_n_0_1_149 h (srcT src))

def ginT (h : Mat) (src dst : Edges) (e : FVec Ideal S3 .f32) : Mat :=
  addf
    (mulf (broadcastInDim S100000x49 ![] bcast_S_S100000x49
        (addf (constant S_ .f32 0x3F800000#32)
          (shapeCast S_ (extractStridedSlice S1 ![l.val] e (slE l)) shapeCasts_S1_S_))) h)
    (aggT h src dst)

def linT (z : Mat) (W : FVec Ideal S3x49x49 .f32) (b : Par) : Mat :=
  addf (Host.dotGeneral dot_S100000x49_S49x49_S100000x49_1_0_0_1_n_n none z (wT l W)) (rowsT (pT l b))

def sumT (a : Mat) : Vec := Host.reduceAdd a (constant S_ .f32 0x00000000#32) reducesTo_S100000x49_S49_d0 h_S_

def meanT (a : Mat) : Vec :=
  Host.divf (sumT a) (broadcastInDim S49 ![] bcast_S_S49 (constant S_ .f32 0x47C35000#32))

def nT : FVec Ideal S_ .f32 := subf (constant S_ .f32 0x47C35000#32) (sitofp .f32 (constantI S_ 32 0#32))

def devT (a : Mat) : Mat :=
  subf a (broadcastInDim S100000x49 ![0, 1] bcast_S1x49_S100000x49_0_1
    (Host.divf (broadcastInDim S1x49 ![1] bcast_S49_S1x49_1 (sumT a))
      (broadcastInDim S1x49 ![] bcast_S_S1x49 (constant S_ .f32 0x47C35000#32))))

def varT (a : Mat) : Vec :=
  select (broadcastInDim S49 ![] bcast_S_S49 (cmpf .ogt nT (constant S_ .f32 0x00000000#32)))
    (Host.divf (sumT (mulf (devT a) (devT a))) (broadcastInDim S49 ![] bcast_S_S49 nT))
    (broadcastInDim S49 ![] bcast_S_S49 (id (constant S_ .f32 0x7FC00000#32)))

def bnT (a : Mat) (g be : Par) : Mat :=
  maximumf
    (addf
      (mulf (mulf (rowsT (pT l g)) (subf a (rowsT (meanT a))))
        (rowsT (Host.rsqrt (addf (varT a) (broadcastInDim S49 ![] bcast_S_S49 (constant S_ .f32 0x3727C5AC#32))))))
      (rowsT (pT l be)))
    zerosT

theorem bcol_apply {α : Type} (v : S1600000.Idx → α) (i : S1600000x1.Idx) :
    broadcastInDim S1600000x1 ![0] bcast_S1600000_S1600000x1_0 v i = v (ix1 (i 0)) :=
  broadcastInDim_apply ![0] bcast_S1600000_S1600000x1_0 v i (ix1 (i 0)) (fun a => match a with | ⟨0, _⟩ => rfl)

theorem brow_apply {α : Type} (v : S1x49.Idx → α) (r : Fin 100000) (d : Fin 49) :
    broadcastInDim S100000x49 ![0, 1] bcast_S1x49_S100000x49_0_1 v (ix2 r d) = v (ix2 (0 : Fin 1) d) :=
  broadcastInDim_apply ![0, 1] bcast_S1x49_S100000x49_0_1 v (ix2 r d) (ix2 (0 : Fin 1) d)
    (fun a => match a with | ⟨0, _⟩ => rfl | ⟨1, _⟩ => rfl)

theorem bvec_apply {α : Type} (v : S49.Idx → α) (d : Fin 49) :
    broadcastInDim S1x49 ![1] bcast_S49_S1x49_1 v (ix2 (0 : Fin 1) d) = v (ix1 d) :=
  broadcastInDim_apply ![1] bcast_S49_S1x49_1 v (ix2 (0 : Fin 1) d) (ix1 d) (fun a => match a with | ⟨0, _⟩ => rfl)

theorem rowsT_apply (v : Vec) (r : Fin 100000) (d : Fin 49) : rowsT v (ix2 r d) = v (ix1 d) :=
  (brow_apply _ r d).trans (bvec_apply v d)

theorem wT_apply (W : FVec Ideal S3x49x49 .f32) (a b : Fin 49) : wT l W (ix2 a b) = W (ix3 l a b) :=
  (shapeCast_1ab_ab_apply _ shapeCasts_S1x49x49_S49x49 a b).trans
    (extractStridedSlice_apply ![l.val, 0, 0] W (slW l) (ix3 (0 : Fin 1) a b) (ix3 l a b)
      (fun ax => match ax with
        | ⟨0, _⟩ => rfl
        | ⟨1, _⟩ => (Nat.zero_add _).symm
        | ⟨2, _⟩ => (Nat.zero_add _).symm))

theorem pT_apply (p : Par) (d : Fin 49) : pT l p (ix1 d) = p (ix2 l d) :=
  (shapeCast_1a_a_apply _ shapeCasts_S1x49_S49 d).trans
    (extractStridedSlice_apply ![l.val, 0] p (slP l) (ix2 (0 : Fin 1) d) (ix2 l d)
      (fun ax => match ax with
        | ⟨0, _⟩ => rfl
        | ⟨1, _⟩ => (Nat.zero_add _).symm))

theorem eT_apply (e : FVec Ideal S3 .f32) (j : S_.Idx) :
    shapeCast S_ (extractStridedSlice S1 ![l.val] e (slE l)) shapeCasts_S1_S_ j = GIN.sliceE l e :=
  (shapeCast_apply _ shapeCasts_S1_S_ j (ix1 (0 : Fin 1)) (by
      rw [Shape.rowMajor_val_one]; exact (Nat.lt_one_iff.mp (S_.rowMajor j).isLt).symm)).trans
    (extractStridedSlice_apply ![l.val] e (slE l) (ix1 (0 : Fin 1)) (ix1 l) (fun a => match a with | ⟨0, _⟩ => rfl))

theorem srcT_eq (src : Edges) : srcT src = GIN.srcNorm src :=
  funext fun i => bcol_apply _ i

-- The same gather and the same scatter-add, at equal arguments.
theorem aggT_eq (h : Mat) (src dst : Edges) : aggT h src dst = GIN.agg h src dst := by
  have e2 : broadcastInDim S1600000x1 ![0] bcast_S1600000_S1600000x1_0 dst = fun i => dst (ix1 (i 0)) :=
    funext fun i => bcol_apply dst i
  show Ideal.hostScatterAdd scatter_S100000x49_S1600000x1_S1600000x49_1_0_0_1 zerosT
      (broadcastInDim S1600000x1 ![0] bcast_S1600000_S1600000x1_0 dst)
      (Host.gather gather_S100000x49_S1600000x1_S1600000x49_1_0_n_n_0_1_149 h (srcT src)) = _
  rw [e2, srcT_eq]
  rfl

theorem ginT_eq (h : Mat) (src dst : Edges) (e : FVec Ideal S3 .f32) :
    ginT l h src dst e = GIN.gin h src dst (GIN.sliceE l e) := by
  funext i
  simp only [ginT, addf_apply, mulf_apply, aggT_eq]
  rw [broadcastInDim_scalar_apply, addf_apply, eT_apply]
  rfl

theorem linT_eq (z : Mat) (W : FVec Ideal S3x49x49 .f32) (b : Par) :
    linT l z W b = GIN.lin z (GIN.sliceW l W) (GIN.sliceP l b) := by
  funext i
  obtain ⟨r, d, rfl⟩ : ∃ (r : Fin 100000) (d : Fin 49), i = ix2 r d := ⟨i 0, i 1, eq_ix2 i⟩
  show Host.dotGeneral (DotDims.plain 100000 49 49) none z (wT l W) (ix2 r d) + rowsT (pT l b) (ix2 r d)
      = (∑ k : Fin 49, z (ix2 r k) * W (ix3 l k d)) + b (ix2 l d)
  rw [StackMember.dotGeneral_plain_apply, rowsT_apply, pT_apply]
  simp only [wT_apply]

theorem sumT_apply (a : Mat) (d : Fin 49) : sumT a (ix1 d) = ∑ r : Fin 100000, a (ix2 r d) := by
  show Ideal.hostReduceAdd reducesTo_S100000x49_S49_d0 a (Ideal.ofBits .f32 0x00000000#32) (ix1 d) = _
  rw [Ideal.hostReduceAdd_single reducesTo_S100000x49_S49_d0 (by decide), Ideal.ofBits_zero_f32, zero_add]
  exact Finset.sum_congr rfl fun k _ => congrArg a (funext fun b => Fin.ext (by
    match b with
    | ⟨0, _⟩ => rfl
    | ⟨1, _⟩ => rfl))

theorem meanT_apply (a : Mat) (d : Fin 49) : meanT a (ix1 d) = GIN.mean a d := by
  show Ideal.div (sumT a (ix1 d)) GIN.cN = _
  rw [sumT_apply]
  rfl

theorem devT_apply (a : Mat) (r : Fin 100000) (d : Fin 49) : devT a (ix2 r d) = a (ix2 r d) - GIN.mean a d := by
  simp only [devT, subf_apply]
  rw [brow_apply, hostDivf_apply, bvec_apply, sumT_apply, broadcastInDim_scalar_apply]
  rfl

-- The word 0x47C35000 is the real number 100000.
theorem cN_pos : (0 : EReal) < GIN.cN := by
  have h : GIN.cN = ((100000 : ℝ) : EReal) := by
    unfold GIN.cN
    simp [Ideal.ofBits, Ideal.ieee, -EReal.coe_mul] <;> norm_num
  rw [h]
  exact EReal.coe_pos.mpr (by norm_num)

-- The integer 0 as a float is 0, so the divisor is 100000.
theorem nT_apply (j : S_.Idx) : nT j = GIN.cN := by
  show GIN.cN - (((0#32 : BitVec 32).toInt : ℝ) : EReal) = GIN.cN
  simp

-- The divisor is positive, so the select takes the quotient.
theorem varT_apply (a : Mat) (d : Fin 49) : varT a (ix1 d) = GIN.varR a d := by
  have hf : cmpf .ogt nT (constant (F := Ideal) S_ .f32 0x00000000#32) ix0 = 1#1 := by
    show BitVec.ofBool (decide (Ideal.ofBits .f32 0x00000000#32 < nT ix0)) = 1#1
    rw [nT_apply, Ideal.ofBits_zero_f32, decide_eq_true cN_pos]
    rfl
  simp only [varT, select_apply, hostDivf_apply, sumT_apply, mulf_apply, devT_apply]
  rw [broadcastInDim_scalar_apply, hf, select_one, broadcastInDim_scalar_apply, nT_apply]
  rfl

theorem bnT_eq (a : Mat) (g be : Par) :
    bnT l a g be = GIN.bnrelu a (GIN.mean a) (GIN.istd (GIN.varR a)) (GIN.sliceP l g) (GIN.sliceP l be) := by
  funext i
  obtain ⟨r, d, rfl⟩ : ∃ (r : Fin 100000) (d : Fin 49), i = ix2 r d := ⟨i 0, i 1, eq_ix2 i⟩
  simp only [bnT, maximumf_apply, addf_apply, mulf_apply, subf_apply, rowsT_apply, pT_apply, meanT_apply]
  show max (_ * _ * Ideal.rsqrt (varT a (ix1 d) + GIN.cEps) + _) GIN.cZero = _
  rw [varT_apply]
  rfl

-- The half that begins with the neighbour sum.
theorem halfA {x h : Mat} {src dst : Edges} {e : FVec Ideal S3 .f32} {W : FVec Ideal S3x49x49 .f32} {b g be : Par}
    (hx : x = bnT l (linT l (ginT l h src dst e) W b) g be) :
    x = GIN.block GIN.varR (GIN.gin h src dst (GIN.sliceE l e)) (GIN.sliceW l W) (GIN.sliceP l b) (GIN.sliceP l g)
      (GIN.sliceP l be) := by
  rw [hx, bnT_eq, linT_eq, ginT_eq]
  rfl

-- The half that ends with one more maximum with 0.
theorem halfB {x z : Mat} {W : FVec Ideal S3x49x49 .f32} {b g be : Par}
    (hx : x = maximumf (bnT l (linT l z W b) g be) zerosT) :
    x = fun i => max (GIN.block GIN.varR z (GIN.sliceW l W) (GIN.sliceP l b) (GIN.sliceP l g) (GIN.sliceP l be) i)
      GIN.cZero := by
  rw [hx, bnT_eq, linT_eq]
  rfl

end Cert.ReferenceIdeal.Hand.Half

end
-- ==== Proof.RHalfA0.lean ====
import proofs.«425467_j63101659513266_1_alg».proof.Proof.ROps
import proofs.«425467_j63101659513266_1_alg».proof.Proof.RHalf

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem halfA0 (c : Dev nD) :
    U2 m c (Proc.devRef .tc main_v55) = GIN.block GIN.varR
        (GIN.gin (U1 m c (Proc.devRef .tc main_v7)) (U1 m c (Proc.devRef .tc main_v1)) (U1 m c (Proc.devRef .tc main_v3))
          (GIN.sliceE (0 : Fin 3) (U1 m c (Proc.devRef .tc main_arg11))))
        (GIN.sliceW (0 : Fin 3) (U1 m c (Proc.devRef .tc main_arg3))) (GIN.sliceP (0 : Fin 3) (U1 m c (Proc.devRef .tc main_arg4)))
        (GIN.sliceP (0 : Fin 3) (U1 m c (Proc.devRef .tc main_arg5))) (GIN.sliceP (0 : Fin 3) (U1 m c (Proc.devRef .tc main_arg6))) :=
  Half.halfA 0 (by
    show StableHlo.after opsL0A (U1 m c) (Proc.devRef .tc main_v55) = _
    generalize U1 m c = V
    after_results_simp
    rfl)

end Cert.ReferenceIdeal.Hand

end
-- ==== Proof.RHalfB0.lean ====
import proofs.«425467_j63101659513266_1_alg».proof.Proof.ROps
import proofs.«425467_j63101659513266_1_alg».proof.Proof.RHalf

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem halfB0 (c : Dev nD) :
    U3 m c (Proc.devRef .tc main_v88) = fun i => max (GIN.block GIN.varR (U2 m c (Proc.devRef .tc main_v55))
      (GIN.sliceW 0 (U2 m c (Proc.devRef .tc main_arg7))) (GIN.sliceP 0 (U2 m c (Proc.devRef .tc main_arg8)))
      (GIN.sliceP 0 (U2 m c (Proc.devRef .tc main_arg9))) (GIN.sliceP 0 (U2 m c (Proc.devRef .tc main_arg10))) i)
      GIN.cZero :=
  Half.halfB 0 (by
    show StableHlo.after opsL0B (U2 m c) (Proc.devRef .tc main_v88) = _
    generalize U2 m c = V
    after_results_simp
    rfl)

end Cert.ReferenceIdeal.Hand

end
-- ==== Proof.RHalfA1.lean ====
import proofs.«425467_j63101659513266_1_alg».proof.Proof.ROps
import proofs.«425467_j63101659513266_1_alg».proof.Proof.RHalf

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem halfA1 (c : Dev nD) :
    U4 m c (Proc.devRef .tc main_v136) = GIN.block GIN.varR
        (GIN.gin (U3 m c (Proc.devRef .tc main_v88)) (U3 m c (Proc.devRef .tc main_v1)) (U3 m c (Proc.devRef .tc main_v3))
          (GIN.sliceE (1 : Fin 3) (U3 m c (Proc.devRef .tc main_arg11))))
        (GIN.sliceW (1 : Fin 3) (U3 m c (Proc.devRef .tc main_arg3))) (GIN.sliceP (1 : Fin 3) (U3 m c (Proc.devRef .tc main_arg4)))
        (GIN.sliceP (1 : Fin 3) (U3 m c (Proc.devRef .tc main_arg5))) (GIN.sliceP (1 : Fin 3) (U3 m c (Proc.devRef .tc main_arg6))) :=
  Half.halfA 1 (by
    show StableHlo.after opsL1A (U3 m c) (Proc.devRef .tc main_v136) = _
    generalize U3 m c = V
    after_results_simp
    rfl)

end Cert.ReferenceIdeal.Hand

end
-- ==== Proof.RHalfB1.lean ====
import proofs.«425467_j63101659513266_1_alg».proof.Proof.ROps
import proofs.«425467_j63101659513266_1_alg».proof.Proof.RHalf

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem halfB1 (c : Dev nD) :
    U5 m c (Proc.devRef .tc main_v169) = fun i => max (GIN.block GIN.varR (U4 m c (Proc.devRef .tc main_v136))
      (GIN.sliceW 1 (U4 m c (Proc.devRef .tc main_arg7))) (GIN.sliceP 1 (U4 m c (Proc.devRef .tc main_arg8)))
      (GIN.sliceP 1 (U4 m c (Proc.devRef .tc main_arg9))) (GIN.sliceP 1 (U4 m c (Proc.devRef .tc main_arg10))) i)
      GIN.cZero :=
  Half.halfB 1 (by
    show StableHlo.after opsL1B (U4 m c) (Proc.devRef .tc main_v169) = _
    generalize U4 m c = V
    after_results_simp
    rfl)

end Cert.ReferenceIdeal.Hand

end
-- ==== Proof.RHalfA2.lean ====
import proofs.«425467_j63101659513266_1_alg».proof.Proof.ROps
import proofs.«425467_j63101659513266_1_alg».proof.Proof.RHalf

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem halfA2 (c : Dev nD) :
    U6 m c (Proc.devRef .tc main_v217) = GIN.block GIN.varR
        (GIN.gin (U5 m c (Proc.devRef .tc main_v169)) (U5 m c (Proc.devRef .tc main_v1)) (U5 m c (Proc.devRef .tc main_v3))
          (GIN.sliceE (2 : Fin 3) (U5 m c (Proc.devRef .tc main_arg11))))
        (GIN.sliceW (2 : Fin 3) (U5 m c (Proc.devRef .tc main_arg3))) (GIN.sliceP (2 : Fin 3) (U5 m c (Proc.devRef .tc main_arg4)))
        (GIN.sliceP (2 : Fin 3) (U5 m c (Proc.devRef .tc main_arg5))) (GIN.sliceP (2 : Fin 3) (U5 m c (Proc.devRef .tc main_arg6))) :=
  Half.halfA 2 (by
    show StableHlo.after opsL2A (U5 m c) (Proc.devRef .tc main_v217) = _
    generalize U5 m c = V
    after_results_simp
    rfl)

end Cert.ReferenceIdeal.Hand

end
-- ==== Proof.RHalfB2.lean ====
import proofs.«425467_j63101659513266_1_alg».proof.Proof.ROps
import proofs.«425467_j63101659513266_1_alg».proof.Proof.RHalf

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem halfB2 (c : Dev nD) :
    U7 m c (Proc.devRef .tc main_v250) = fun i => max (GIN.block GIN.varR (U6 m c (Proc.devRef .tc main_v217))
      (GIN.sliceW 2 (U6 m c (Proc.devRef .tc main_arg7))) (GIN.sliceP 2 (U6 m c (Proc.devRef .tc main_arg8)))
      (GIN.sliceP 2 (U6 m c (Proc.devRef .tc main_arg9))) (GIN.sliceP 2 (U6 m c (Proc.devRef .tc main_arg10))) i)
      GIN.cZero :=
  Half.halfB 2 (by
    show StableHlo.after opsL2B (U6 m c) (Proc.devRef .tc main_v250) = _
    generalize U6 m c = V
    after_results_simp
    rfl)

end Cert.ReferenceIdeal.Hand

end
-- ==== Proof.RValue.lean ====
/- The reference program's result is the specification's network of the fourteen arguments. -/
import proofs.«425467_j63101659513266_1_alg».proof.Proof.Spec
import proofs.«425467_j63101659513266_1_alg».proof.Proof.ROps
import proofs.«425467_j63101659513266_1_alg».proof.Proof.RWalk
import proofs.«425467_j63101659513266_1_alg».proof.Proof.RHalfA0
import proofs.«425467_j63101659513266_1_alg».proof.Proof.RHalfB0
import proofs.«425467_j63101659513266_1_alg».proof.Proof.RHalfA1
import proofs.«425467_j63101659513266_1_alg».proof.Proof.RHalfB1
import proofs.«425467_j63101659513266_1_alg».proof.Proof.RHalfA2
import proofs.«425467_j63101659513266_1_alg».proof.Proof.RHalfB2

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

abbrev R0 (c : Dev nD) : GIN.Arr GIN.SH :=
  GIN.roundR 0 (GIN.h0 (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11))
    (GIN.edgeRow 0 (m ((c : Thread nD τ).loc main_arg12))) (GIN.edgeRow 1 (m ((c : Thread nD τ).loc main_arg12)))

abbrev R1 (c : Dev nD) : GIN.Arr GIN.SH :=
  GIN.roundR 1 (R0 m c)
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11))
    (GIN.edgeRow 0 (m ((c : Thread nD τ).loc main_arg12))) (GIN.edgeRow 1 (m ((c : Thread nD τ).loc main_arg12)))

abbrev R2 (c : Dev nD) : GIN.Arr GIN.SH :=
  GIN.roundR 2 (R1 m c)
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11))
    (GIN.edgeRow 0 (m ((c : Thread nD τ).loc main_arg12))) (GIN.edgeRow 1 (m ((c : Thread nD τ).loc main_arg12)))

theorem round0 (c : Dev nD) : U3 m c (Proc.devRef .tc main_v88) = R0 m c := by
  rw [halfB0, halfA0, head_h, head_src, head_dst,
    keep2 m c main_arg7 (by decide), keep2 m c main_arg8 (by decide), keep2 m c main_arg9 (by decide), keep2 m c main_arg10 (by decide),
    head_arg3, head_arg4, head_arg5, head_arg6, head_arg7, head_arg8, head_arg9, head_arg10, head_arg11]
  rfl

theorem round1 (c : Dev nD) : U5 m c (Proc.devRef .tc main_v169) = R1 m c := by
  rw [halfB1, halfA1, round0,
    keep3 m c main_v1 (by decide), keep3 m c main_v3 (by decide), keep3 m c main_arg11 (by decide),
    keep3 m c main_arg3 (by decide), keep3 m c main_arg4 (by decide), keep3 m c main_arg5 (by decide), keep3 m c main_arg6 (by decide),
    keep4 m c main_arg7 (by decide), keep4 m c main_arg8 (by decide), keep4 m c main_arg9 (by decide), keep4 m c main_arg10 (by decide),
    head_src, head_dst,
    head_arg3, head_arg4, head_arg5, head_arg6, head_arg7, head_arg8, head_arg9, head_arg10, head_arg11]
  rfl

theorem round2 (c : Dev nD) : U7 m c (Proc.devRef .tc main_v250) = R2 m c := by
  rw [halfB2, halfA2, round1,
    keep5 m c main_v1 (by decide), keep5 m c main_v3 (by decide), keep5 m c main_arg11 (by decide),
    keep5 m c main_arg3 (by decide), keep5 m c main_arg4 (by decide), keep5 m c main_arg5 (by decide), keep5 m c main_arg6 (by decide),
    keep6 m c main_arg7 (by decide), keep6 m c main_arg8 (by decide), keep6 m c main_arg9 (by decide), keep6 m c main_arg10 (by decide),
    head_src, head_dst,
    head_arg3, head_arg4, head_arg5, head_arg6, head_arg7, head_arg8, head_arg9, head_arg10, head_arg11]
  rfl

theorem rvalue (c : Dev nD) :
    StableHlo.after ops (U0 m c) (Proc.devRef .tc main_v261)
      = GIN.netR (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  rw [after_ops, tail, round2, keep7 m c main_arg13 (by decide), head_arg13]
  rfl

end Cert.ReferenceIdeal.Hand

end
-- ==== Proof.Algebra.lean ====
/- On real-valued arrays the two spellings of a round agree: variance as mean of squares minus squared mean equals the mean squared deviation, and the rest is associativity and distributivity in ℝ. -/
import proofs.«425467_j63101659513266_1_alg».proof.Proof.Spec

noncomputable section

namespace GIN

open Idealize.ShloMosaic Idealize.ShloMosaic.ValueIdx

def Re (x : EReal) : Prop := x ≠ ⊤ ∧ x ≠ ⊥

theorem Re.coe (r : ℝ) : Re (r : EReal) := ⟨EReal.coe_ne_top r, EReal.coe_ne_bot r⟩

theorem Re.exists {x : EReal} (h : Re x) : ∃ r : ℝ, x = (r : EReal) :=
  ⟨x.toReal, (EReal.coe_toReal h.1 h.2).symm⟩

theorem Re.zero : Re (0 : EReal) := by simpa using Re.coe 0

theorem Re.add {x y : EReal} (hx : Re x) (hy : Re y) : Re (x + y) := by
  obtain ⟨a, rfl⟩ := hx.exists; obtain ⟨b, rfl⟩ := hy.exists
  rw [← EReal.coe_add]; exact Re.coe _

theorem Re.mul {x y : EReal} (hx : Re x) (hy : Re y) : Re (x * y) := by
  obtain ⟨a, rfl⟩ := hx.exists; obtain ⟨b, rfl⟩ := hy.exists
  rw [← EReal.coe_mul]; exact Re.coe _

theorem Re.sub {x y : EReal} (hx : Re x) (hy : Re y) : Re (x - y) := by
  obtain ⟨a, rfl⟩ := hx.exists; obtain ⟨b, rfl⟩ := hy.exists
  rw [← EReal.coe_sub]; exact Re.coe _

theorem Re.max {x y : EReal} (hx : Re x) (hy : Re y) : Re (max x y) := by
  rcases max_choice x y with h | h <;> rw [h] <;> assumption

theorem Re.sum {ι : Type*} (s : Finset ι) (f : ι → EReal) (h : ∀ i ∈ s, Re (f i)) : Re (∑ i ∈ s, f i) :=
  Finset.sum_induction f Re (fun _ _ => Re.add) Re.zero h

theorem coe_sum {ι : Type*} (s : Finset ι) (r : ι → ℝ) :
    ((∑ i ∈ s, r i : ℝ) : EReal) = ∑ i ∈ s, (r i : EReal) := by
  classical
  refine Finset.induction_on s (by simp) ?_
  intro a s ha ih
  rw [Finset.sum_insert ha, Finset.sum_insert ha, EReal.coe_add, ih]

theorem var_real {ι : Type*} [Fintype ι] (r : ι → ℝ) (N : ℝ) (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  generalize hS : ∑ i, r i = S
  generalize hm : S * (1 / N) = m
  have h1 : ∑ i, (r i - m) * (r i - m) = (∑ i, r i * r i) - 2 * m * S + N * (m * m) := by
    have h2 : ∀ i, (r i - m) * (r i - m) = r i * r i - 2 * m * r i + m * m := fun i => by ring
    simp only [h2, Finset.sum_add_distrib, Finset.sum_sub_distrib, ← Finset.mul_sum, Finset.sum_const,
      Finset.card_univ, nsmul_eq_mul, hN, hS]
    ring
  rw [h1, ← hm]; field_simp; ring

theorem var_eq {ι : Type*} [Fintype ι] (f : ι → EReal) (hf : ∀ k, Re (f k)) (N : ℝ)
    (hN : (Fintype.card ι : ℝ) = N) (hN0 : N ≠ 0) (hNpos : 0 < N) :
    Ideal.div (∑ k, f k * f k) (N : EReal) - Ideal.div (∑ k, f k) (N : EReal) * Ideal.div (∑ k, f k) (N : EReal)
      = Ideal.div (∑ k, (f k - Ideal.div (∑ k, f k) (N : EReal)) * (f k - Ideal.div (∑ k, f k) (N : EReal))) (N : EReal)
    ∧ ∃ v : ℝ, 0 ≤ v ∧
      Ideal.div (∑ k, (f k - Ideal.div (∑ k, f k) (N : EReal)) * (f k - Ideal.div (∑ k, f k) (N : EReal))) (N : EReal)
        = (v : EReal) := by
  choose r hr using fun k => (hf k).exists
  obtain rfl : f = fun k => (r k : EReal) := funext hr
  simp only [Ideal.div_coe hN0, ← EReal.coe_mul, ← coe_sum, ← EReal.coe_sub]
  refine ⟨?_, _, ?_, rfl⟩
  · rw [var_real r N hN hN0]
  · exact mul_nonneg (Finset.sum_nonneg fun i _ => mul_self_nonneg _) (by positivity)

theorem cN_eq : cN = ((100000 : ℝ) : EReal) := by
  simp [cN, Ideal.ofBits, Ideal.ieee]
  rw [← EReal.coe_mul, EReal.coe_eq_coe_iff]
  norm_num

theorem cOne_eq : cOne = 1 := by
  simp [cOne, Ideal.ofBits, Ideal.ieee]
  rw [← EReal.coe_mul, ← EReal.coe_one, EReal.coe_eq_coe_iff]
  norm_num

theorem cZero_eq : cZero = 0 := by
  simp [cZero, Ideal.ofBits, Ideal.ieee]

theorem cEps_pos : ∃ r : ℝ, 0 < r ∧ cEps = (r : EReal) := by
  refine ⟨10995116 * (2 : ℝ) ^ (-40 : ℤ), by positivity, ?_⟩
  simp [cEps, Ideal.ofBits, Ideal.ieee]

theorem cOne_real : Re cOne := by rw [cOne_eq]; simpa using Re.coe 1
theorem cZero_real : Re cZero := by rw [cZero_eq]; exact Re.zero

theorem lin_real {K : Nat} (z : Arr ⟨2, ![100000, K]⟩) (w : Arr ⟨2, ![K, 49]⟩) (b : Fin 49 → EReal)
    (hz : IsReal z) (hw : IsReal w) (hb : ∀ d, Re (b d)) : IsReal (lin z w b) := by
  intro i
  show Re ((∑ k : Fin K, z (ix2 (i 0) k) * w (ix2 k (i 1))) + b (i 1))
  exact Re.add (Re.sum _ _ fun k _ => Re.mul (hz _) (hw _)) (hb _)

theorem mean_real (a : Arr SH) (ha : IsReal a) (d : Fin 49) : Re (mean a d) := by
  show Re (Ideal.div (∑ r : Fin 100000, a (ix2 r d)) cN)
  rw [cN_eq, Ideal.div_coe (by norm_num)]
  exact Re.mul (Re.sum _ _ fun k _ => ha _) (Re.coe _)

theorem varK_eq_varR (a : Arr SH) (ha : IsReal a) :
    varK a = varR a ∧ ∀ d, ∃ v : ℝ, 0 ≤ v ∧ varR a d = (v : EReal) := by
  have key := fun d : Fin 49 => var_eq (fun k : Fin 100000 => a (ix2 k d)) (fun k => ha _) 100000
    (by simp) (by norm_num) (by norm_num)
  refine ⟨funext fun d => ?_, fun d => ?_⟩
  · simp only [varK, varR, mean, csum, csumsq, cN_eq]
    exact (key d).1
  · simp only [varR, mean, csum, cN_eq]
    exact (key d).2

theorem istd_real (v : Fin 49 → EReal) (hv : ∀ d, ∃ r : ℝ, 0 ≤ r ∧ v d = (r : EReal)) (d : Fin 49) :
    Re (istd v d) := by
  obtain ⟨r, hr, hvr⟩ := hv d
  obtain ⟨ε, hε, hcε⟩ := cEps_pos
  show Re (Ideal.rsqrt (v d + cEps))
  have hpos : 0 < r + ε := by linarith
  rw [hvr, hcε, ← EReal.coe_add, Ideal.rsqrt_coe, if_neg (not_lt.mpr hpos.le), if_neg hpos.ne']
  exact Re.coe _

theorem bnrelu_real (a : Arr SH) (mu s g be : Fin 49 → EReal) (ha : IsReal a) (hmu : ∀ d, Re (mu d))
    (hs : ∀ d, Re (s d)) (hg : ∀ d, Re (g d)) (hbe : ∀ d, Re (be d)) : IsReal (bnrelu a mu s g be) := by
  intro i
  show Re (max (g (i 1) * (a i - mu (i 1)) * s (i 1) + be (i 1)) cZero)
  exact Re.max (Re.add (Re.mul (Re.mul (hg _) (Re.sub (ha _) (hmu _))) (hs _)) (hbe _)) cZero_real

theorem sliceW_real (l : Fin 3) (W : Arr SW) (hW : IsReal W) : IsReal (sliceW l W) := fun _ => hW _
theorem sliceP_real (l : Fin 3) (p : Arr SP) (hp : IsReal p) (d : Fin 49) : Re (sliceP l p d) := hp _
theorem sliceE_real (l : Fin 3) (e : Arr SE) (he : IsReal e) : Re (sliceE l e) := he _

theorem agg_real (h : Arr SH) (src dst : IVec SEdge 32) (hh : IsReal h) : IsReal (agg h src dst) := by
  intro i
  unfold agg Ideal.hostScatterAdd Host.gather
  exact Re.add cZero_real (Re.sum _ _ fun j _ => hh _)

theorem gin_real (h : Arr SH) (src dst : IVec SEdge 32) (e : EReal) (hh : IsReal h) (he : Re e) :
    IsReal (gin h src dst e) := by
  intro i
  show Re ((cOne + e) * h i + agg h src dst i)
  exact Re.add (Re.mul (Re.add cOne_real he) (hh i)) (agg_real h src dst hh i)

theorem block_eq (z : Arr SH) (w : Arr SM) (b g be : Fin 49 → EReal) (hz : IsReal z) (hw : IsReal w)
    (hb : ∀ d, Re (b d)) (hg : ∀ d, Re (g d)) (hbe : ∀ d, Re (be d)) :
    block varK z w b g be = block varR z w b g be ∧ IsReal (block varK z w b g be) := by
  have ha : IsReal (lin z w b) := lin_real z w b hz hw hb
  obtain ⟨hv, hnn⟩ := varK_eq_varR (lin z w b) ha
  unfold block
  rw [hv]
  exact ⟨rfl, bnrelu_real _ _ _ _ _ ha (mean_real _ ha) (istd_real _ hnn) hg hbe⟩

theorem block_max (v : Arr SH → Fin 49 → EReal) (z : Arr SH) (w : Arr SM) (b g be : Fin 49 → EReal) (i : SH.Idx) :
    max (block v z w b g be i) cZero = block v z w b g be i := by
  unfold block bnrelu
  rw [max_assoc, max_self]

theorem round_eq (l : Fin 3) (h : Arr SH) (W1 : Arr SW) (b1 g1 be1 : Arr SP) (W2 : Arr SW) (b2 g2 be2 : Arr SP)
    (e : Arr SE) (src dst : IVec SEdge 32)
    (hh : IsReal h) (hW1 : IsReal W1) (hb1 : IsReal b1) (hg1 : IsReal g1) (hbe1 : IsReal be1)
    (hW2 : IsReal W2) (hb2 : IsReal b2) (hg2 : IsReal g2) (hbe2 : IsReal be2) (he : IsReal e) :
    roundK l h W1 b1 g1 be1 W2 b2 g2 be2 e src dst = roundR l h W1 b1 g1 be1 W2 b2 g2 be2 e src dst
      ∧ IsReal (roundK l h W1 b1 g1 be1 W2 b2 g2 be2 e src dst) := by
  have hG : IsReal (gin h src dst (sliceE l e)) := gin_real h src dst _ hh (sliceE_real l e he)
  obtain ⟨e1, r1⟩ := block_eq _ (sliceW l W1) (sliceP l b1) (sliceP l g1) (sliceP l be1) hG
    (sliceW_real l W1 hW1) (sliceP_real l b1 hb1) (sliceP_real l g1 hg1) (sliceP_real l be1 hbe1)
  obtain ⟨e2, r2⟩ := block_eq _ (sliceW l W2) (sliceP l b2) (sliceP l g2) (sliceP l be2) r1
    (sliceW_real l W2 hW2) (sliceP_real l b2 hb2) (sliceP_real l g2 hg2) (sliceP_real l be2 hbe2)
  refine ⟨?_, r2⟩
  funext i
  unfold roundK roundR
  rw [← e1, ← e2, block_max]

theorem h0_real (x : Arr SX) (W0 : Arr SW0) (b0 : Arr SB) (hx : IsReal x) (hW0 : IsReal W0) (hb0 : IsReal b0) :
    IsReal (h0 x W0 b0) :=
  lin_real x W0 (fun d => b0 (ix1 d)) hx hW0 fun _ => hb0 _

theorem net_eq_of_pool (hpool : ∀ (h : Arr SH) (batch : IVec SBT 32), poolK h batch = poolR h batch)
    (x : Arr SX) (W0 : Arr SW0) (b0 : Arr SB) (W1 : Arr SW) (b1 g1 be1 : Arr SP) (W2 : Arr SW) (b2 g2 be2 : Arr SP)
    (e : Arr SE) (ei : IVec SEI 32) (batch : IVec SBT 32)
    (hx : IsReal x) (hW0 : IsReal W0) (hb0 : IsReal b0)
    (hW1 : IsReal W1) (hb1 : IsReal b1) (hg1 : IsReal g1) (hbe1 : IsReal be1)
    (hW2 : IsReal W2) (hb2 : IsReal b2) (hg2 : IsReal g2) (hbe2 : IsReal be2) (he : IsReal e) :
    netK x W0 b0 W1 b1 g1 be1 W2 b2 g2 be2 e ei batch = netR x W0 b0 W1 b1 g1 be1 W2 b2 g2 be2 e ei batch := by
  have hH := h0_real x W0 b0 hx hW0 hb0
  obtain ⟨q0, s0⟩ := round_eq 0 _ W1 b1 g1 be1 W2 b2 g2 be2 e (edgeRow 0 ei) (edgeRow 1 ei)
    hH hW1 hb1 hg1 hbe1 hW2 hb2 hg2 hbe2 he
  obtain ⟨q1, s1⟩ := round_eq 1 _ W1 b1 g1 be1 W2 b2 g2 be2 e (edgeRow 0 ei) (edgeRow 1 ei)
    s0 hW1 hb1 hg1 hbe1 hW2 hb2 hg2 hbe2 he
  obtain ⟨q2, _⟩ := round_eq 2 _ W1 b1 g1 be1 W2 b2 g2 be2 e (edgeRow 0 ei) (edgeRow 1 ei)
    s1 hW1 hb1 hg1 hbe1 hW2 hb2 hg2 hbe2 he
  unfold netK netR
  rw [← q0, ← q1, ← q2, hpool]

end GIN

end
-- ==== Proof.Pool.lean ====
/- Summing rows through a 0/1 membership matrix equals adding each row into its graph's slot; the counts likewise. -/
import proofs.«425467_j63101659513266_1_alg».proof.Proof.Spec
import Idealize.ShloMosaic.Lib.IdealHost

noncomputable section

namespace GIN

open Idealize.ShloMosaic Idealize.ShloMosaic.ValueIdx

namespace Pool

theorem p_start0 (j : SH.Idx) (batch : IVec SBT 32) :
    pDims.start j (fun k => batch (ix1 (k 0))) 0 = (batch (ix1 (j 0))).toInt := by
  unfold ScatterDims.start
  rw [dif_pos (by show (0 : Fin 2) ∈ [0]; simp)]
  rfl

theorem p_start1 (j : SH.Idx) (idx : IVec SBT1 32) : pDims.start j idx 1 = 0 := by
  unfold ScatterDims.start
  rw [dif_neg (by show (1 : Fin 2) ∉ [0]; decide)]

theorem p_win0 (j : SH.Idx) : pDims.window j 0 = 0 := by
  unfold ScatterDims.window
  rw [dif_neg (by show (0 : Fin 2) ∉ pDims.sKept; decide)]

theorem p_win1 (j : SH.Idx) : pDims.window j 1 = (j 1).val := by
  unfold ScatterDims.window
  rw [dif_pos (by show (1 : Fin 2) ∈ pDims.sKept; decide)]
  rfl

theorem p_result (j : SH.Idx) (batch : IVec SBT 32) (i : SO.Idx) :
    pDims.resultIdx? j (fun k => batch (ix1 (k 0))) = some i ↔
      (batch (ix1 (j 0))).toInt = ((i 0).val : Int) ∧ (j 1).val = (i 1).val := by
  have s0 := p_start0 j batch
  have s1 := p_start1 j (fun k => batch (ix1 (k 0)))
  have w0 := p_win0 j
  have w1 := p_win1 j
  have hi0 : (i 0).val < 512 := idx2_lt0 i
  have hi1 : (i 1).val < 49 := idx2_lt1 i
  have hj1 : (j 1).val < 49 := idx2_lt1 j
  unfold ScatterDims.resultIdx?
  split
  · rename_i h
    rw [Option.some.injEq]
    constructor
    · intro e
      have e0 : (pDims.start j (fun k => batch (ix1 (k 0))) 0 + (pDims.window j 0 : Int)).toNat = (i 0).val :=
        congrArg Fin.val (congrFun e 0)
      have e1 : (pDims.start j (fun k => batch (ix1 (k 0))) 1 + (pDims.window j 1 : Int)).toNat = (i 1).val :=
        congrArg Fin.val (congrFun e 1)
      have h0 := (h 0).1
      rw [s0, w0] at e0 h0
      rw [s1, w1] at e1
      omega
    · rintro ⟨a, b⟩
      funext x
      apply Fin.ext
      match x with
      | ⟨0, _⟩ =>
        show (pDims.start j (fun k => batch (ix1 (k 0))) 0 + (pDims.window j 0 : Int)).toNat = (i 0).val
        rw [s0, w0]; omega
      | ⟨1, _⟩ =>
        show (pDims.start j (fun k => batch (ix1 (k 0))) 1 + (pDims.window j 1 : Int)).toNat = (i 1).val
        rw [s1, w1]; omega
  · rename_i h
    constructor
    · intro e; cases e
    · rintro ⟨a, b⟩
      exfalso; apply h
      intro x
      match x with
      | ⟨0, _⟩ =>
        show 0 ≤ pDims.start j (fun k => batch (ix1 (k 0))) 0 + (pDims.window j 0 : Int) ∧
          pDims.start j (fun k => batch (ix1 (k 0))) 0 + (pDims.window j 0 : Int) < ((512 : ℕ) : Int)
        rw [s0, w0]; omega
      | ⟨1, _⟩ =>
        show 0 ≤ pDims.start j (fun k => batch (ix1 (k 0))) 1 + (pDims.window j 1 : Int) ∧
          pDims.start j (fun k => batch (ix1 (k 0))) 1 + (pDims.window j 1 : Int) < ((49 : ℕ) : Int)
        rw [s1, w1]; omega

theorem c_start0 (j : SBT.Idx) (batch : IVec SBT 32) :
    cDims.start j (fun k => batch (ix1 (k 0))) 0 = (batch (ix1 (j 0))).toInt := by
  unfold ScatterDims.start
  rw [dif_pos (by show (0 : Fin 1) ∈ [0]; simp)]
  rfl

theorem c_win0 (j : SBT.Idx) : cDims.window j 0 = 0 := by
  unfold ScatterDims.window
  rw [dif_neg (by show (0 : Fin 1) ∉ cDims.sKept; decide)]

theorem c_result (j : SBT.Idx) (batch : IVec SBT 32) (g : Fin 512) :
    cDims.resultIdx? j (fun k => batch (ix1 (k 0))) = some (ix1 g) ↔ (batch (ix1 (j 0))).toInt = (g.val : Int) := by
  have s0 := c_start0 j batch
  have w0 := c_win0 j
  have hg : g.val < 512 := g.isLt
  unfold ScatterDims.resultIdx?
  split
  · rename_i h
    rw [Option.some.injEq]
    constructor
    · intro e
      have e0 : (cDims.start j (fun k => batch (ix1 (k 0))) 0 + (cDims.window j 0 : Int)).toNat = g.val :=
        congrArg Fin.val (congrFun e 0)
      have h0 := (h 0).1
      rw [s0, w0] at e0 h0
      omega
    · intro a
      funext x
      apply Fin.ext
      match x with
      | ⟨0, _⟩ =>
        show (cDims.start j (fun k => batch (ix1 (k 0))) 0 + (cDims.window j 0 : Int)).toNat = g.val
        rw [s0, w0]; omega
  · rename_i h
    constructor
    · intro e; cases e
    · intro a
      exfalso; apply h
      intro x
      match x with
      | ⟨0, _⟩ =>
        show 0 ≤ cDims.start j (fun k => batch (ix1 (k 0))) 0 + (cDims.window j 0 : Int) ∧
          cDims.start j (fun k => batch (ix1 (k 0))) 0 + (cDims.window j 0 : Int) < ((512 : ℕ) : Int)
        rw [s0, w0]; omega

theorem toInt_eq_iff (w : BitVec 32) (g : Nat) (hg : g < 512) : w.toInt = (g : Int) ↔ w = BitVec.ofNat 32 g := by
  constructor
  · intro h
    apply BitVec.eq_of_toInt_eq
    rw [h, BitVec.toInt_eq_toNat_cond, BitVec.toNat_ofNat]
    omega
  · intro h
    rw [h, BitVec.toInt_eq_toNat_cond, BitVec.toNat_ofNat]
    omega

theorem cZero_eq : cZero = 0 := Ideal.ofBits_zero_f32
theorem cOne_eq : cOne = 1 := Ideal.ofBits_one_f32

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem onehot_pos (batch : IVec SBT 32) (t : Fin 100000) (g : Fin 512)
    (hc : (batch (ix1 t)).toInt = (g.val : Int)) : onehot batch t g = 1 := by
  unfold onehot; rw [if_pos ((toInt_eq_iff _ _ g.isLt).1 hc), cOne_eq]

theorem onehot_neg (batch : IVec SBT 32) (t : Fin 100000) (g : Fin 512)
    (hc : ¬ (batch (ix1 t)).toInt = (g.val : Int)) : onehot batch t g = 0 := by
  unfold onehot; rw [if_neg (fun e => hc ((toInt_eq_iff _ _ g.isLt).2 e)), cZero_eq]

theorem pool_num (h : Arr SH) (batch : IVec SBT 32) (g : Fin 512) (d : Fin 49) :
    ∑ t : Fin 100000, onehot batch t g * h (ix2 t d) =
      Ideal.hostScatterAdd pDims (fun _ => cZero) (fun j => batch (ix1 (j 0))) h (ix2 g d) := by
  unfold Ideal.hostScatterAdd
  rw [cZero_eq, zero_add, Finset.sum_filter, sum_idx2]
  apply Finset.sum_congr rfl
  intro t _
  by_cases hc : (batch (ix1 t)).toInt = (g.val : Int)
  · rw [onehot_pos batch t g hc, one_mul]
    symm
    trans (∑ d' : Fin 49, if d' = d then h (ix2 t d') else 0)
    · apply Finset.sum_congr rfl
      intro d' _
      have hr := p_result (ix2 t d') batch (ix2 g d)
      by_cases hd : d' = d
      · rw [if_pos hd, if_pos (hr.2 ⟨hc, congrArg Fin.val hd⟩)]
      · rw [if_neg hd, if_neg (fun e => hd (Fin.ext (hr.1 e).2))]
    · rw [Finset.sum_ite_eq', if_pos (Finset.mem_univ _)]
  · rw [onehot_neg batch t g hc, zero_mul]
    symm
    apply Finset.sum_eq_zero
    intro d' _
    have hr := p_result (ix2 t d') batch (ix2 g d)
    rw [if_neg (fun e => hc (hr.1 e).1)]

theorem pool_den (batch : IVec SBT 32) (g : Fin 512) :
    ∑ t : Fin 100000, onehot batch t g =
      Ideal.hostScatterAdd cDims (fun _ => cZero) (fun j => batch (ix1 (j 0))) (fun _ => cOne) (ix1 g) := by
  unfold Ideal.hostScatterAdd
  rw [cZero_eq, zero_add, Finset.sum_filter, sum_idx1]
  apply Finset.sum_congr rfl
  intro t _
  have hr := c_result (ix1 t) batch g
  by_cases hc : (batch (ix1 t)).toInt = (g.val : Int)
  · rw [onehot_pos batch t g hc, if_pos (hr.2 hc), cOne_eq]
  · rw [onehot_neg batch t g hc, if_neg (fun e => hc (hr.1 e))]

end Pool

theorem pool_eq (h : Arr SH) (batch : IVec SBT 32) : poolK h batch = poolR h batch := by
  funext i
  have hn : ∑ t : Fin 100000, onehot batch t (i 0) * h (ix2 t (i 1)) =
      Ideal.hostScatterAdd pDims (fun _ => cZero) (fun j => batch (ix1 (j 0))) h i :=
    (Pool.pool_num h batch (i 0) (i 1)).trans
      (congrArg (Ideal.hostScatterAdd pDims (fun _ => cZero) (fun j => batch (ix1 (j 0))) h) (eq_ix2 i).symm)
  show Ideal.div _ _ = Ideal.div _ _
  rw [hn, Pool.pool_den batch (i 0)]

end GIN

end
-- ==== Proof.Finite.lean ====
/- Every float input finite means every entry is a real number. -/
import proofs.«425467_j63101659513266_1_alg».proof.Pre_finite_inputs
import proofs.«425467_j63101659513266_1_alg».proof.Proof.Gen.Pre_finite_inputs
import proofs.«425467_j63101659513266_1_alg».proof.Proof.Spec
import Idealize.ShloMosaic.Lib.ReduceAll
import Idealize.ShloMosaic.Lib.ValueIdx
import Idealize.ShloMosaic.PureOps.Ideal

noncomputable section

namespace Cert.Fin

open Idealize.ShloMosaic Cert.Pre_finite_inputs

instance : Subsingleton S_.Idx := ⟨fun a b => funext fun d => d.elim0⟩

theorem inf_word : Ideal.ofBits .f32 0x7F800000#32 = ⊤ := by simp [Ideal.ofBits, Ideal.ieee]

theorem real_of_abs_lt (x : EReal)
    (h : FloatOps.cmpf (F := Ideal) (φ := .f32) .olt (FloatOps.hostAbsf (F := Ideal) (φ := .f32) x)
        (FloatOps.ofBits (F := Ideal) .f32 0x7F800000#32) = 1#1) :
    x ≠ ⊤ ∧ x ≠ ⊥ := by
  have h' : Ideal.cmp .olt (max x (-x)) (Ideal.ofBits .f32 0x7F800000#32) = 1#1 := h
  rw [inf_word] at h'
  unfold Ideal.cmp at h'
  have hlt : max x (-x) < ⊤ := by
    by_contra hn
    simp [hn] at h'
  rw [max_lt_iff] at hlt
  refine ⟨ne_of_lt hlt.1, ?_⟩
  rintro rfl
  simp at hlt

theorem real_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant (F := Ideal) S_ .f32 0x7F800000#32)))
        (constantI S_ 1 1#1) hr hu ValueIdx.ix0 = 1#1) :
    GIN.IsReal x := by
  intro i
  exact real_of_abs_lt (x i) (Host.reduce_andi_all _ _ hr hu _ e i)

theorem real_of_pre [Facts]
    (a0 : FVec Ideal S100000x56 .f32) (a1 : FVec Ideal S56x49 .f32) (a2 : FVec Ideal S49 .f32)
    (a3 : FVec Ideal S3x49x49 .f32) (a4 a5 a6 : FVec Ideal S3x49 .f32) (a7 : FVec Ideal S3x49x49 .f32)
    (a8 a9 a10 : FVec Ideal S3x49 .f32) (a11 : FVec Ideal S3 .f32) (a12 : IVec S2x1600000 32) (a13 : IVec S100000 32)
    (h : fn (F := Ideal) a0 a1 a2 a3 a4 a5 a6 a7 a8 a9 a10 a11 a12 a13 = fun _ => 1#1) :
    GIN.IsReal a0 ∧ GIN.IsReal a1 ∧ GIN.IsReal a2 ∧ GIN.IsReal a3 ∧ GIN.IsReal a4 ∧ GIN.IsReal a5 ∧ GIN.IsReal a6
      ∧ GIN.IsReal a7 ∧ GIN.IsReal a8 ∧ GIN.IsReal a9 ∧ GIN.IsReal a10 ∧ GIN.IsReal a11 := by
  have e := congrFun h ValueIdx.ix0
  dsimp only [fn, fn_part1, fn_part2, fn_part3] at e
  simp only [andi, IntOp.andi_eq_one] at e
  obtain ⟨⟨⟨⟨⟨⟨⟨⟨⟨⟨⟨e0, e1⟩, e2⟩, e3⟩, e4⟩, e5⟩, e6⟩, e7⟩, e8⟩, e9⟩, e10⟩, e11⟩ := e
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9, real_of_all a10 _ _ _ e10, real_of_all a11 _ _ _ e11⟩

end Cert.Fin

end
-- ==== Proof.lean ====
/- The claim assembled: three frames, the one ledger rule, and both programs' results equal to one network of the arguments when every float input is real. -/
import proofs.«425467_j63101659513266_1_alg».proof.Defs
import proofs.«425467_j63101659513266_1_alg».proof.Proof.Gen.Kernel
import proofs.«425467_j63101659513266_1_alg».proof.Proof.Gen.Kernel.Frame
import proofs.«425467_j63101659513266_1_alg».proof.Proof.Gen.KernelIdeal
import proofs.«425467_j63101659513266_1_alg».proof.Proof.Gen.KernelIdeal.Frame
import proofs.«425467_j63101659513266_1_alg».proof.Proof.Gen.ReferenceIdeal
import proofs.«425467_j63101659513266_1_alg».proof.Proof.Gen.Pre_finite_inputs
import proofs.«425467_j63101659513266_1_alg».proof.Proof.KRun
import proofs.«425467_j63101659513266_1_alg».proof.Proof.KValue
import proofs.«425467_j63101659513266_1_alg».proof.Proof.RRun
import proofs.«425467_j63101659513266_1_alg».proof.Proof.RValue
import proofs.«425467_j63101659513266_1_alg».proof.Proof.Algebra
import proofs.«425467_j63101659513266_1_alg».proof.Proof.Pool
import proofs.«425467_j63101659513266_1_alg».proof.Proof.Finite
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal :=
  IdealRules.truncf_extf.statement Cert.KernelIdeal.S5000x512 .f32 .bf16

theorem algebraic : Cert.algebraic_KernelIdeal_ReferenceIdeal := by
  intro m ρ m' ρ' hpre hagree
  refine ⟨fun c => GIN.netK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Val.kvalue m ρ c), (h c).2⟩)
      (Cert.KernelIdeal.Val.run_main (F := Ideal) m ρ)
  · refine (θ_run Cert.ReferenceIdeal.defs _ _).mono (fun r h c => ⟨?_, (h c).2⟩)
      (Cert.ReferenceIdeal.Hand.run (F := Ideal) m' ρ')
    obtain ⟨e0, e1, e2, e3, e4, e5, e6, e7, e8, e9, e10, e11, e12, e13⟩ := hagree c
    obtain ⟨r0, r1, r2, r3, r4, r5, r6, r7, r8, r9, r10, r11⟩ := Cert.Fin.real_of_pre _ _ _ _ _ _ _ _ _ _ _ _ _ _ (hpre c)
    rw [(h c).1, Cert.ReferenceIdeal.Hand.rvalue m' c, e0, e1, e2, e3, e4, e5, e6, e7, e8, e9, e10, e11, e12, e13]
    exact (GIN.net_eq_of_pool GIN.pool_eq _ _ _ _ _ _ _ _ _ _ _ _ _ _ r0 r1 r2 r3 r4 r5 r6 r7 r8 r9 r10 r11).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
